-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v62_0)) (v2 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v62_0) = v1 c
          ∧ r.2.mem ((c.tc : Thread Cert.KernelIdeal.nD Cert.KernelIdeal.τ).loc Cert.KernelIdeal.main_v127) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v235) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S400000x128 : Shape := ⟨2, ![400000, 128]⟩
abbrev S8000x128 : Shape := ⟨2, ![8000, 128]⟩
abbrev S9x128x128 : Shape := ⟨3, ![9, 128, 128]⟩
abbrev S9x128 : Shape := ⟨2, ![9, 128]⟩
abbrev S3x128 : Shape := ⟨2, ![3, 128]⟩
abbrev S400000 : Shape := ⟨1, ![400000]⟩
abbrev S200000 : Shape := ⟨1, ![200000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S8000x128 : S_.BroadcastsInDim S8000x128 (![] : Fin 0 → Fin S8000x128.rank)
  reducesTo_S8000x128_S_d0_1 : S8000x128.ReducesTo [0, 1] S_
  bcast_S_S9x128x128 : S_.BroadcastsInDim S9x128x128 (![] : Fin 0 → Fin S9x128x128.rank)
  reducesTo_S9x128x128_S_d0_1_2 : S9x128x128.ReducesTo [0, 1, 2] S_
  bcast_S_S9x128 : S_.BroadcastsInDim S9x128 (![] : Fin 0 → Fin S9x128.rank)
  reducesTo_S9x128_S_d0_1 : S9x128.ReducesTo [0, 1] S_
  bcast_S_S3x128 : S_.BroadcastsInDim S3x128 (![] : Fin 0 → Fin S3x128.rank)
  reducesTo_S3x128_S_d0_1 : S3x128.ReducesTo [0, 1] S_
  bcast_S_S400000 : S_.BroadcastsInDim S400000 (![] : Fin 0 → Fin S400000.rank)
  reducesTo_S400000_S_d0 : S400000.ReducesTo [0] S_
  bcast_S_S200000 : S_.BroadcastsInDim S200000 (![] : Fin 0 → Fin S200000.rank)
  reducesTo_S200000_S_d0 : S200000.ReducesTo [0] S_

variable [Facts]

def fn_part3 {F : FTy → Type} [FloatOps F] (main_arg9 : IVec S200000 32) (main_v49 : IVec S_ 1) : IVec S_ 1 :=
  let main_c_20 : IVec S_ 32 := constantI S_ 32 0#32
  let main_v50 : IVec S200000 32 := broadcastInDim S200000 ![] bcast_S_S200000 main_c_20
  let main_v51 : IVec S200000 1 := cmpi .sge main_arg9 main_v50
  let main_c_21 : IVec S_ 1 := constantI S_ 1 1#1
  let main_v52 : IVec S_ 1 := (fun x v => Host.reduce IntOp.andi x v reducesTo_S200000_S_d0 h_S_) main_v51 main_c_21
  let main_v53 : IVec S_ 1 := andi main_v49 main_v52
  let main_c_22 : IVec S_ 32 := constantI S_ 32 8000#32
  let main_v54 : IVec S200000 32 := broadcastInDim S200000 ![] bcast_S_S200000 main_c_22
  let main_v55 : IVec S200000 1 := cmpi .slt main_arg9 main_v54
  let main_c_23 : IVec S_ 1 := constantI S_ 1 1#1
  let main_v56 : IVec S_ 1 := (fun x v => Host.reduce IntOp.andi x v reducesTo_S200000_S_d0 h_S_) main_v55 main_c_23
  let main_v57 : IVec S_ 1 := andi main_v53 main_v56
  main_v57

def fn_part2 {F : FTy → Type} [FloatOps F] (main_arg7 : IVec S400000 32) (main_arg8 : IVec S400000 32) (main_arg9 : IVec S200000 32) (main_v33 : IVec S_ 1) : IVec S_ 1 :=
  let main_c_12 : IVec S_ 32 := constantI S_ 32 0#32
  let main_v34 : IVec S400000 32 := broadcastInDim S400000 ![] bcast_S_S400000 main_c_12
  let main_v35 : IVec S400000 1 := cmpi .sge main_arg7 main_v34
  let main_c_13 : IVec S_ 1 := constantI S_ 1 1#1
  let main_v36 : IVec S_ 1 := (fun x v => Host.reduce IntOp.andi x v reducesTo_S400000_S_d0 h_S_) main_v35 main_c_13
  let main_v37 : IVec S_ 1 := andi main_v33 main_v36
  let main_c_14 : IVec S_ 32 := constantI S_ 32 200000#32
  let main_v38 : IVec S400000 32 := broadcastInDim S400000 ![] bcast_S_S400000 main_c_14
  let main_v39 : IVec S400000 1 := cmpi .slt main_arg7 main_v38
  let main_c_15 : IVec S_ 1 := constantI S_ 1 1#1
  let main_v40 : IVec S_ 1 := (fun x v => Host.reduce IntOp.andi x v reducesTo_S400000_S_d0 h_S_) main_v39 main_c_15
  let main_v41 : IVec S_ 1 := andi main_v37 main_v40
  let main_c_16 : IVec S_ 32 := constantI S_ 32 0#32
  let main_v42 : IVec S400000 32 := broadcastInDim S400000 ![] bcast_S_S400000 main_c_16
  let main_v43 : IVec S400000 1 := cmpi .sge main_arg8 main_v42
  let main_c_17 : IVec S_ 1 := constantI S_ 1 1#1
  let main_v44 : IVec S_ 1 := (fun x v => Host.reduce IntOp.andi x v reducesTo_S400000_S_d0 h_S_) main_v43 main_c_17
  let main_v45 : IVec S_ 1 := andi main_v41 main_v44
  let main_c_18 : IVec S_ 32 := constantI S_ 32 200000#32
  let main_v46 : IVec S400000 32 := broadcastInDim S400000 ![] bcast_S_S400000 main_c_18
  let main_v47 : IVec S400000 1 := cmpi .slt main_arg8 main_v46
  let main_c_19 : IVec S_ 1 := constantI S_ 1 1#1
  let main_v48 : IVec S_ 1 := (fun x v => Host.reduce IntOp.andi x v reducesTo_S400000_S_d0 h_S_) main_v47 main_c_19
  let main_v49 : IVec S_ 1 := andi main_v45 main_v48
  fn_part3 (F := F) main_arg9 main_v49

def fn_part1 {F : FTy → Type} [FloatOps F] (main_arg4 : FVec F S9x128 .f32) (main_arg5 : FVec F S3x128 .f32) (main_arg6 : FVec F S3x128 .f32) (main_arg7 : IVec S400000 32) (main_arg8 : IVec S400000 32) (main_arg9 : IVec S200000 32) (main_v13 : IVec S_ 1) (main_v16 : IVec S9x128x128 1) : IVec S_ 1 :=
  let main_c_5 : IVec S_ 1 := constantI S_ 1 1#1
  let main_v17 : IVec S_ 1 := (fun x v => Host.reduce IntOp.andi x v reducesTo_S9x128x128_S_d0_1_2 h_S_) main_v16 main_c_5
  let main_v18 : IVec S_ 1 := andi main_v13 main_v17
  let main_v19 : FVec F S9x128 .f32 := Host.absf main_arg4
  let main_cst_6 : FVec F S_ .f32 := constant S_ .f32 0x7F800000#32
  let main_v20 : FVec F S9x128 .f32 := broadcastInDim S9x128 ![] bcast_S_S9x128 main_cst_6
  let main_v21 : IVec S9x128 1 := cmpf .olt main_v19 main_v20
  let main_c_7 : IVec S_ 1 := constantI S_ 1 1#1
  let main_v22 : IVec S_ 1 := (fun x v => Host.reduce IntOp.andi x v reducesTo_S9x128_S_d0_1 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S200000x128 .f32) (main_arg1 : FVec F S400000x128 .f32) (main_arg2 : FVec F S8000x128 .f32) (main_arg3 : FVec F S9x128x128 .f32) (main_arg4 : FVec F S9x128 .f32) (main_arg5 : FVec F S3x128 .f32) (main_arg6 : FVec F S3x128 .f32) (main_arg7 : IVec S400000 32) (main_arg8 : IVec S400000 32) (main_arg9 : IVec S200000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S8000x128 .f32 := Host.absf main_arg2
  let main_cst_2 : FVec F S_ .f32 := constant S_ .f32 0x7F800000#32
  let main_v10 : FVec F S8000x128 .f32 := broadcastInDim S8000x128 ![] bcast_S_S8000x128 main_cst_2
  let main_v11 : IVec S8000x128 1 := cmpf .olt main_v9 main_v10
  let main_c_3 : IVec S_ 1 := constantI S_ 1 1#1
  let main_v12 : IVec S_ 1 := (fun x v => Host.reduce IntOp.andi x v reducesTo_S8000x128_S_d0_1 h_S_) main_v11 main_c_3
  let main_v13 : IVec S_ 1 := andi main_v8 main_v12
  let main_v14 : FVec F S9x128x128 .f32 := Host.absf main_arg3
  let main_cst_4 : FVec F S_ .f32 := constant S_ .f32 0x7F800000#32
  let main_v15 : FVec F S9x128x128 .f32 := broadcastInDim S9x128x128 ![] bcast_S_S9x128x128 main_cst_4
  let main_v16 : IVec S9x128x128 1 := cmpf .olt main_v14 main_v15
  fn_part1 (F := F) main_arg4 main_arg5 main_arg6 main_arg7 main_arg8 main_arg9 main_v13 main_v16
-- ==== Kernel.lean ====
abbrev S200000x128 : Shape := ⟨2, ![200000, 128]⟩
abbrev S400000x128 : Shape := ⟨2, ![400000, 128]⟩
abbrev S8000x128 : Shape := ⟨2, ![8000, 128]⟩
abbrev S9x128x128 : Shape := ⟨3, ![9, 128, 128]⟩
abbrev S9x128 : Shape := ⟨2, ![9, 128]⟩
abbrev S3x128 : Shape := ⟨2, ![3, 128]⟩
abbrev S400000 : Shape := ⟨1, ![400000]⟩
abbrev S200000 : Shape := ⟨1, ![200000]⟩
abbrev S2 : Shape := ⟨1, ![2]⟩
abbrev S3 : Shape := ⟨1, ![3]⟩
abbrev S_ : Shape := ⟨0, ![]⟩
abbrev S2x1 : Shape := ⟨2, ![2, 1]⟩
abbrev S2x128x128 : Shape := ⟨3, ![2, 128, 128]⟩
abbrev S2x128 : Shape := ⟨2, ![2, 128]⟩
abbrev S3x1 : Shape := ⟨2, ![3, 1]⟩
abbrev S3x128x128 : Shape := ⟨3, ![3, 128, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4000x128 : Shape := ⟨2, ![4000, 128]⟩
abbrev S2000x128 : Shape := ⟨2, ![2000, 128]⟩
abbrev S400000x1 : Shape := ⟨2, ![400000, 1]⟩
abbrev S1 : Shape := ⟨1, ![1]⟩
abbrev S1x1 : Shape := ⟨2, ![1, 1]⟩
abbrev S200000x1 : Shape := ⟨2, ![200000, 1]⟩
abbrev S8000 : Shape := ⟨1, ![8000]⟩
abbrev S8000x1 : Shape := ⟨2, ![8000, 1]⟩

abbrev nBuf : Space → Nat
  | .hbm => 327
  | .vmem => 92
  | .smem => 0
  | _ => 0

abbrev hbmTy0_0 (i : Nat) : BufTy := match i % 128 with
  | 0 => ⟨S200000x128, .f32⟩
  | 1 => ⟨S400000x128, .f32⟩
  | 2 => ⟨S8000x128, .f32⟩
  | 3 => ⟨S9x128x128, .f32⟩
  | 4 => ⟨S9x128, .f32⟩
  | 5 => ⟨S3x128, .f32⟩
  | 6 => ⟨S3x128, .f32⟩
  | 7 => ⟨S400000, .i32⟩
  | 8 => ⟨S400000, .i32⟩
  | 9 => ⟨S200000, .i32⟩
  | 10 => ⟨S2, .i32⟩
  | 11 => ⟨S3, .i32⟩
  | 12 => ⟨S_, .i32⟩
  | 13 => ⟨S2, .i32⟩
  | 14 => ⟨S2, .i1⟩
  | 15 => ⟨S_, .i32⟩
  | 16 => ⟨S2, .i32⟩
  | 17 => ⟨S2, .i32⟩
  | 18 => ⟨S2, .i32⟩
  | 19 => ⟨S2x1, .i32⟩
  | 20 => ⟨S2x128x128, .f32⟩
  | 21 => ⟨S_, .i32⟩
  | 22 => ⟨S2, .i32⟩
  | 23 => ⟨S2, .i1⟩
  | 24 => ⟨S_, .i32⟩
  | 25 => ⟨S2, .i32⟩
  | 26 => ⟨S2, .i32⟩
  | 27 => ⟨S2, .i32⟩
  | 28 => ⟨S2x1, .i32⟩
  | 29 => ⟨S2x128, .f32⟩
  | 30 => ⟨S_, .i32⟩
  | 31 => ⟨S3, .i32⟩
  | 32 => ⟨S3, .i1⟩
  | 33 => ⟨S_, .i32⟩
  | 34 => ⟨S3, .i32⟩
  | 35 => ⟨S3, .i32⟩
  | 36 => ⟨S3, .i32⟩
  | 37 => ⟨S3x1, .i32⟩
  | 38 => ⟨S3x128x128, .f32⟩
  | 39 => ⟨S_, .i32⟩
  | 40 => ⟨S3, .i32⟩
  | 41 => ⟨S3, .i1⟩
  | 42 => ⟨S_, .i32⟩
  | 43 => ⟨S3, .i32⟩
  | 44 => ⟨S3, .i32⟩
  | 45 => ⟨S3, .i32⟩
  | 46 => ⟨S3x1, .i32⟩
  | 47 => ⟨S3x128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S200000x128, .f32⟩
  | 65 => ⟨S200000x128, .f32⟩
  | 66 => ⟨S8000x128, .f32⟩
  | 67 => ⟨S8000x128, .f32⟩
  | 68 => ⟨S8000x128, .f32⟩
  | 69 => ⟨S_, .i32⟩
  | 70 => ⟨S400000, .i32⟩
  | 71 => ⟨S400000, .i1⟩
  | 72 => ⟨S_, .i32⟩
  | 73 => ⟨S400000, .i32⟩
  | 74 => ⟨S400000, .i32⟩
  | 75 => ⟨S400000, .i32⟩
  | 76 => ⟨S400000x1, .i32⟩
  | 77 => ⟨S1, .i32⟩
  | 78 => ⟨S_, .i32⟩
  | 79 => ⟨S400000x1, .i32⟩
  | 80 => ⟨S400000x1, .i1⟩
  | 81 => ⟨S1x1, .i32⟩
  | 82 => ⟨S400000x1, .i32⟩
  | 83 => ⟨S400000x1, .i1⟩
  | 84 => ⟨S400000x1, .i1⟩
  | 85 => ⟨S_, .i1⟩
  | 86 => ⟨S400000, .i1⟩
  | 87 => ⟨S400000x128, .f32⟩
  | 88 => ⟨S400000x128, .i1⟩
  | 89 => ⟨S_, .f32⟩
  | 90 => ⟨S400000x128, .f32⟩
  | 91 => ⟨S400000x128, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S1, .i32⟩
  | 101 => ⟨S_, .i32⟩
  | 102 => ⟨S400000x1, .i32⟩
  | 103 => ⟨S400000x1, .i1⟩
  | 104 => ⟨S1x1, .i32⟩
  | 105 => ⟨S400000x1, .i32⟩
  | 106 => ⟨S400000x1, .i1⟩
  | 107 => ⟨S400000x1, .i1⟩
  | 108 => ⟨S_, .i1⟩
  | 109 => ⟨S400000, .i1⟩
  | 110 => ⟨S400000x128, .f32⟩
  | 111 => ⟨S400000x128, .i1⟩
  | 112 => ⟨S_, .f32⟩
  | 113 => ⟨S400000x128, .f32⟩
  | 114 => ⟨S400000x128, .f32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S1, .i32⟩
  | 124 => ⟨S_, .i32⟩
  | 125 => ⟨S400000x1, .i32⟩
  | 126 => ⟨S400000x1, .i1⟩
  | 127 => ⟨S1x1, .i32⟩
  | _ => ⟨S200000x128, .f32⟩

abbrev hbmTy0_1 (i : Nat) : BufTy := match i % 128 with
  | 0 => ⟨S400000x1, .i32⟩
  | 1 => ⟨S400000x1, .i1⟩
  | 2 => ⟨S400000x1, .i1⟩
  | 3 => ⟨S_, .i1⟩
  | 4 => ⟨S400000, .i1⟩
  | 5 => ⟨S400000, .i32⟩
  | 6 => ⟨S_, .i32⟩
  | 7 => ⟨S400000, .i32⟩
  | 8 => ⟨S400000, .i32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S1, .i32⟩
  | 18 => ⟨S_, .i32⟩
  | 19 => ⟨S400000x1, .i32⟩
  | 20 => ⟨S400000x1, .i1⟩
  | 21 => ⟨S1x1, .i32⟩
  | 22 => ⟨S400000x1, .i32⟩
  | 23 => ⟨S400000x1, .i1⟩
  | 24 => ⟨S400000x1, .i1⟩
  | 25 => ⟨S_, .i1⟩
  | 26 => ⟨S400000, .i1⟩
  | 27 => ⟨S400000x128, .f32⟩
  | 28 => ⟨S400000x128, .i1⟩
  | 29 => ⟨S_, .f32⟩
  | 30 => ⟨S400000x128, .f32⟩
  | 31 => ⟨S400000x128, .f32⟩
  | 32 => ⟨S1x128x128, .f32⟩
  | 33 => ⟨S1x128, .f32⟩
  | 34 => ⟨S400000x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S1x128, .f32⟩
  | 44 => ⟨S1x128, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S1, .i32⟩
  | 54 => ⟨S_, .i32⟩
  | 55 => ⟨S400000x1, .i32⟩
  | 56 => ⟨S400000x1, .i1⟩
  | 57 => ⟨S1x1, .i32⟩
  | 58 => ⟨S400000x1, .i32⟩
  | 59 => ⟨S400000x1, .i1⟩
  | 60 => ⟨S400000x1, .i1⟩
  | 61 => ⟨S_, .i1⟩
  | 62 => ⟨S400000, .i1⟩
  | 63 => ⟨S400000x128, .f32⟩
  | 64 => ⟨S400000x128, .i1⟩
  | 65 => ⟨S_, .f32⟩
  | 66 => ⟨S400000x128, .f32⟩
  | 67 => ⟨S400000x128, .f32⟩
  | 68 => ⟨S1x128, .f32⟩
  | 69 => ⟨S1x128, .f32⟩
  | 70 => ⟨S400000x128, .f32⟩
  | 71 => ⟨S400000x128, .f32⟩
  | 72 => ⟨S400000x128, .f32⟩
  | 73 => ⟨S_, .f32⟩
  | 74 => ⟨S200000x128, .f32⟩
  | 75 => ⟨S400000x1, .i32⟩
  | 76 => ⟨S200000x128, .f32⟩
  | 77 => ⟨S_, .f32⟩
  | 78 => ⟨S200000x128, .f32⟩
  | 79 => ⟨S400000x1, .i32⟩
  | 80 => ⟨S200000x128, .f32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S1, .i32⟩
  | 90 => ⟨S_, .i32⟩
  | 91 => ⟨S200000x1, .i32⟩
  | 92 => ⟨S200000x1, .i1⟩
  | 93 => ⟨S1x1, .i32⟩
  | 94 => ⟨S200000x1, .i32⟩
  | 95 => ⟨S200000x1, .i1⟩
  | 96 => ⟨S200000x1, .i1⟩
  | 97 => ⟨S_, .i1⟩
  | 98 => ⟨S200000, .i1⟩
  | 99 => ⟨S200000x128, .f32⟩
  | 100 => ⟨S200000x128, .i1⟩
  | 101 => ⟨S_, .f32⟩
  | 102 => ⟨S200000x128, .f32⟩
  | 103 => ⟨S200000x128, .f32⟩
  | 104 => ⟨S1x128x128, .f32⟩
  | 105 => ⟨S1x128, .f32⟩
  | 106 => ⟨S200000x128, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S200000x128, .f32⟩
  | 120 => ⟨S_, .f32⟩
  | 121 => ⟨S8000x128, .f32⟩
  | 122 => ⟨S200000x1, .i32⟩
  | 123 => ⟨S8000x128, .f32⟩
  | 124 => ⟨S_, .f32⟩
  | 125 => ⟨S200000, .f32⟩
  | 126 => ⟨S_, .f32⟩
  | 127 => ⟨S8000, .f32⟩
  | _ => ⟨S200000x128, .f32⟩

abbrev hbmTy0_2 (i : Nat) : BufTy := match i % 128 with
  | 0 => ⟨S200000x1, .i32⟩
  | 1 => ⟨S8000, .f32⟩
  | 2 => ⟨S_, .i32⟩
  | 3 => ⟨S400000, .i32⟩
  | 4 => ⟨S400000, .i1⟩
  | 5 => ⟨S_, .i32⟩
  | 6 => ⟨S400000, .i32⟩
  | 7 => ⟨S400000, .i32⟩
  | 8 => ⟨S400000, .i32⟩
  | 9 => ⟨S400000x1, .i32⟩
  | 10 => ⟨S1, .i32⟩
  | 11 => ⟨S_, .i32⟩
  | 12 => ⟨S400000x1, .i32⟩
  | 13 => ⟨S400000x1, .i1⟩
  | 14 => ⟨S1x1, .i32⟩
  | 15 => ⟨S400000x1, .i32⟩
  | 16 => ⟨S400000x1, .i1⟩
  | 17 => ⟨S400000x1, .i1⟩
  | 18 => ⟨S_, .i1⟩
  | 19 => ⟨S400000, .i1⟩
  | 20 => ⟨S400000, .i32⟩
  | 21 => ⟨S_, .i32⟩
  | 22 => ⟨S400000, .i32⟩
  | 23 => ⟨S400000, .i32⟩
  | 24 => ⟨S_, .f32⟩
  | 25 => ⟨S8000x128, .f32⟩
  | 26 => ⟨S400000x1, .i32⟩
  | 27 => ⟨S8000x128, .f32⟩
  | 28 => ⟨S_, .f32⟩
  | 29 => ⟨S400000, .f32⟩
  | 30 => ⟨S_, .f32⟩
  | 31 => ⟨S8000, .f32⟩
  | 32 => ⟨S400000x1, .i32⟩
  | 33 => ⟨S8000, .f32⟩
  | 34 => ⟨S8000x128, .f32⟩
  | 35 => ⟨S8000x1, .f32⟩
  | 36 => ⟨S1x128, .f32⟩
  | 37 => ⟨S8000x128, .f32⟩
  | 38 => ⟨S8000x128, .f32⟩
  | 39 => ⟨S8000x128, .f32⟩
  | 40 => ⟨S8000x128, .f32⟩
  | 41 => ⟨S_, .f32⟩
  | 42 => ⟨S8000, .f32⟩
  | 43 => ⟨S8000, .f32⟩
  | 44 => ⟨S8000x1, .f32⟩
  | 45 => ⟨S8000x128, .f32⟩
  | 46 => ⟨S8000x128, .f32⟩
  | 47 => ⟨S8000x128, .f32⟩
  | 48 => ⟨S8000x1, .f32⟩
  | 49 => ⟨S1x128, .f32⟩
  | 50 => ⟨S8000x128, .f32⟩
  | 51 => ⟨S8000x128, .f32⟩
  | 52 => ⟨S8000x128, .f32⟩
  | 53 => ⟨S8000x128, .f32⟩
  | 54 => ⟨S_, .f32⟩
  | 55 => ⟨S8000x128, .f32⟩
  | 56 => ⟨S8000x128, .f32⟩
  | 57 => ⟨S8000x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S8000x128, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S2x128x128, .f32⟩
  | .local _ .vmem, ⟨3, _⟩ => ⟨S2x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S2000x128, .f32⟩
  | .local _ .vmem, ⟨9, _⟩ => ⟨S2000x128, .f32⟩
  | .local _ .vmem, ⟨10, _⟩ => ⟨S3x128x128, .f32⟩
  | .local _ .vmem, ⟨11, _⟩ => ⟨S3x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S1x128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S1x128, .f32⟩
  | .local _ .vmem, ⟨31, _⟩ => ⟨S1x128, .f32⟩
  | .local _ .vmem, ⟨32, _⟩ => ⟨S4000x128, .f32⟩
  | .local _ .vmem, ⟨33, _⟩ => ⟨S4000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S1x128x128, .f32⟩
  | .local _ .vmem, ⟨51, _⟩ => ⟨S1x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S4000x128, .f32⟩
  | .local _ .vmem, ⟨56, _⟩ => ⟨S4000x128, .f32⟩
  | .local _ .vmem, ⟨57, _⟩ => ⟨S4000x128, .f32⟩
  | .local _ .vmem, ⟨58, _⟩ => ⟨S4000x128, .f32⟩
  | .local _ .vmem, ⟨59, _⟩ => ⟨S4000x128, .f32⟩
  | .local _ .vmem, ⟨60, _⟩ => ⟨S1x128, .f32⟩
  | .local _ .vmem, ⟨61, _⟩ => ⟨S1x128, .f32⟩
  | .local _ .vmem, ⟨62, _⟩ => ⟨S4000x128, .f32⟩
  | .local _ .vmem, ⟨63, _⟩ => ⟨S4000x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S4000x128, .f32⟩
  | .local _ .vmem, ⟨69, _⟩ => ⟨S4000x128, .f32⟩
  | .local _ .vmem, ⟨70, _⟩ => ⟨S4000x128, .f32⟩
  | .local _ .vmem, ⟨71, _⟩ => ⟨S4000x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S1x128, .f32⟩
  | .local _ .vmem, ⟨81, _⟩ => ⟨S1x128, .f32⟩
  | .local _ .vmem, ⟨82, _⟩ => ⟨S2000x128, .f32⟩
  | .local _ .vmem, ⟨83, _⟩ => ⟨S2000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S2000x128, .f32⟩
  | .local _ .vmem, ⟨89, _⟩ => ⟨S2000x128, .f32⟩
  | .local _ .vmem, ⟨90, _⟩ => ⟨S2000x128, .f32⟩
  | .local _ .vmem, ⟨91, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_v1 : Ref sig .tc := ⟨.hbm, 14, rfl⟩
abbrev main_c_2 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_c_6 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_7 : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44_0 : Ref sig .tc := ⟨.hbm, 64, rfl⟩
abbrev main_v44_1 : Ref sig .tc := ⟨.hbm, 65, rfl⟩
abbrev main_v45_0 : Ref sig .tc := ⟨.hbm, 66, rfl⟩
abbrev main_v45_1 : Ref sig .tc := ⟨.hbm, 67, rfl⟩
abbrev main_v45_2 : Ref sig .tc := ⟨.hbm, 68, rfl⟩
abbrev main_call0_c : Ref sig .tc := ⟨.hbm, 69, rfl⟩
abbrev main_call0_v0 : Ref sig .tc := ⟨.hbm, 70, rfl⟩
abbrev main_call0_v1 : Ref sig .tc := ⟨.hbm, 71, rfl⟩
abbrev main_call0_c_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_c_1 : Ref sig .tc := ⟨.hbm, 77, rfl⟩
abbrev main_call0_c_2 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_c_3 : Ref sig .tc := ⟨.hbm, 85, rfl⟩
abbrev main_call0_v12 : Ref sig .tc := ⟨.hbm, 86, rfl⟩
abbrev main_call0_v13 : Ref sig .tc := ⟨.hbm, 87, rfl⟩
abbrev main_call0_v14 : Ref sig .tc := ⟨.hbm, 88, rfl⟩
abbrev main_call0_cst : Ref sig .tc := ⟨.hbm, 89, rfl⟩
abbrev main_call0_v15 : Ref sig .tc := ⟨.hbm, 90, rfl⟩
abbrev main_v46 : Ref sig .tc := ⟨.hbm, 91, rfl⟩
abbrev main_call1_c : Ref sig .tc := ⟨.hbm, 92, rfl⟩
abbrev main_call1_v0 : Ref sig .tc := ⟨.hbm, 93, rfl⟩
abbrev main_call1_v1 : Ref sig .tc := ⟨.hbm, 94, rfl⟩
abbrev main_call1_c_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_c_1 : Ref sig .tc := ⟨.hbm, 100, rfl⟩
abbrev main_call1_c_2 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_c_3 : Ref sig .tc := ⟨.hbm, 108, rfl⟩
abbrev main_call1_v12 : Ref sig .tc := ⟨.hbm, 109, rfl⟩
abbrev main_call1_v13 : Ref sig .tc := ⟨.hbm, 110, rfl⟩
abbrev main_call1_v14 : Ref sig .tc := ⟨.hbm, 111, rfl⟩
abbrev main_call1_cst : Ref sig .tc := ⟨.hbm, 112, rfl⟩
abbrev main_call1_v15 : Ref sig .tc := ⟨.hbm, 113, rfl⟩
abbrev main_v47 : Ref sig .tc := ⟨.hbm, 114, rfl⟩
abbrev main_call2_c : Ref sig .tc := ⟨.hbm, 115, rfl⟩
abbrev main_call2_v0 : Ref sig .tc := ⟨.hbm, 116, rfl⟩
abbrev main_call2_v1 : Ref sig .tc := ⟨.hbm, 117, rfl⟩
abbrev main_call2_c_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_c_1 : Ref sig .tc := ⟨.hbm, 123, rfl⟩
abbrev main_call2_c_2 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_3 : Ref sig .tc := ⟨.hbm, 131, rfl⟩
abbrev main_call2_v12 : Ref sig .tc := ⟨.hbm, 132, rfl⟩
abbrev main_call2_v13 : Ref sig .tc := ⟨.hbm, 133, rfl⟩
abbrev main_call2_c_4 : Ref sig .tc := ⟨.hbm, 134, rfl⟩
abbrev main_call2_v14 : Ref sig .tc := ⟨.hbm, 135, rfl⟩
abbrev main_v48 : Ref sig .tc := ⟨.hbm, 136, rfl⟩
abbrev main_call3_c : Ref sig .tc := ⟨.hbm, 137, rfl⟩
abbrev main_call3_v0 : Ref sig .tc := ⟨.hbm, 138, rfl⟩
abbrev main_call3_v1 : Ref sig .tc := ⟨.hbm, 139, rfl⟩
abbrev main_call3_c_0 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_c_1 : Ref sig .tc := ⟨.hbm, 145, rfl⟩
abbrev main_call3_c_2 : Ref sig .tc := ⟨.hbm, 146, rfl⟩
abbrev main_call3_v6 : Ref sig .tc := ⟨.hbm, 147, rfl⟩
abbrev main_call3_v7 : Ref sig .tc := ⟨.hbm, 148, rfl⟩
abbrev main_call3_v8 : Ref sig .tc := ⟨.hbm, 149, rfl⟩
abbrev main_call3_v9 : Ref sig .tc := ⟨.hbm, 150, rfl⟩
abbrev main_call3_v10 : Ref sig .tc := ⟨.hbm, 151, rfl⟩
abbrev main_call3_v11 : Ref sig .tc := ⟨.hbm, 152, rfl⟩
abbrev main_call3_c_3 : Ref sig .tc := ⟨.hbm, 153, rfl⟩
abbrev main_call3_v12 : Ref sig .tc := ⟨.hbm, 154, rfl⟩
abbrev main_call3_v13 : Ref sig .tc := ⟨.hbm, 155, rfl⟩
abbrev main_call3_v14 : Ref sig .tc := ⟨.hbm, 156, rfl⟩
abbrev main_call3_cst : Ref sig .tc := ⟨.hbm, 157, rfl⟩
abbrev main_call3_v15 : Ref sig .tc := ⟨.hbm, 158, rfl⟩
abbrev main_v49 : Ref sig .tc := ⟨.hbm, 159, rfl⟩
abbrev main_v50 : Ref sig .tc := ⟨.hbm, 160, rfl⟩
abbrev main_v51 : Ref sig .tc := ⟨.hbm, 161, rfl⟩
abbrev main_v52_0 : Ref sig .tc := ⟨.hbm, 162, rfl⟩
abbrev main_v52_1 : Ref sig .tc := ⟨.hbm, 163, rfl⟩
abbrev main_v52_2 : Ref sig .tc := ⟨.hbm, 164, rfl⟩
abbrev main_cst : Ref sig .tc := ⟨.hbm, 165, rfl⟩
abbrev main_v53 : Ref sig .tc := ⟨.hbm, 166, rfl⟩
abbrev main_v54 : Ref sig .tc := ⟨.hbm, 167, rfl⟩
abbrev main_cst_9 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_call4_c : Ref sig .tc := ⟨.hbm, 173, rfl⟩
abbrev main_call4_v0 : Ref sig .tc := ⟨.hbm, 174, rfl⟩
abbrev main_call4_v1 : Ref sig .tc := ⟨.hbm, 175, rfl⟩
abbrev main_call4_c_0 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_call4_v5 : Ref sig .tc := ⟨.hbm, 180, rfl⟩
abbrev main_call4_c_1 : Ref sig .tc := ⟨.hbm, 181, rfl⟩
abbrev main_call4_c_2 : Ref sig .tc := ⟨.hbm, 182, rfl⟩
abbrev main_call4_v6 : Ref sig .tc := ⟨.hbm, 183, rfl⟩
abbrev main_call4_v7 : Ref sig .tc := ⟨.hbm, 184, rfl⟩
abbrev main_call4_v8 : Ref sig .tc := ⟨.hbm, 185, rfl⟩
abbrev main_call4_v9 : Ref sig .tc := ⟨.hbm, 186, rfl⟩
abbrev main_call4_v10 : Ref sig .tc := ⟨.hbm, 187, rfl⟩
abbrev main_call4_v11 : Ref sig .tc := ⟨.hbm, 188, rfl⟩
abbrev main_call4_c_3 : Ref sig .tc := ⟨.hbm, 189, rfl⟩
abbrev main_call4_v12 : Ref sig .tc := ⟨.hbm, 190, rfl⟩
abbrev main_call4_v13 : Ref sig .tc := ⟨.hbm, 191, rfl⟩
abbrev main_call4_v14 : Ref sig .tc := ⟨.hbm, 192, rfl⟩
abbrev main_call4_cst : Ref sig .tc := ⟨.hbm, 193, rfl⟩
abbrev main_call4_v15 : Ref sig .tc := ⟨.hbm, 194, rfl⟩
abbrev main_v59 : Ref sig .tc := ⟨.hbm, 195, rfl⟩
abbrev main_v60 : Ref sig .tc := ⟨.hbm, 196, rfl⟩
abbrev main_v61 : Ref sig .tc := ⟨.hbm, 197, rfl⟩
abbrev main_v62_0 : Ref sig .tc := ⟨.hbm, 198, rfl⟩
abbrev main_v62_1 : Ref sig .tc := ⟨.hbm, 199, rfl⟩
abbrev main_v62_2 : Ref sig .tc := ⟨.hbm, 200, rfl⟩
abbrev main_cst_10 : Ref sig .tc := ⟨.hbm, 201, rfl⟩
abbrev main_v63 : Ref sig .tc := ⟨.hbm, 202, rfl⟩
abbrev main_v64 : Ref sig .tc := ⟨.hbm, 203, rfl⟩
abbrev main_v65 : Ref sig .tc := ⟨.hbm, 204, rfl⟩
abbrev main_cst_11 : Ref sig .tc := ⟨.hbm, 205, rfl⟩
abbrev main_v66 : Ref sig .tc := ⟨.hbm, 206, rfl⟩
abbrev main_v67 : Ref sig .tc := ⟨.hbm, 207, rfl⟩
abbrev main_v68 : Ref sig .tc := ⟨.hbm, 208, rfl⟩
abbrev main_call5_c : Ref sig .tc := ⟨.hbm, 209, rfl⟩
abbrev main_call5_v0 : Ref sig .tc := ⟨.hbm, 210, rfl⟩
abbrev main_call5_v1 : Ref sig .tc := ⟨.hbm, 211, rfl⟩
abbrev main_call5_c_0 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_call5_v5 : Ref sig .tc := ⟨.hbm, 216, rfl⟩
abbrev main_call5_c_1 : Ref sig .tc := ⟨.hbm, 217, rfl⟩
abbrev main_call5_c_2 : Ref sig .tc := ⟨.hbm, 218, rfl⟩
abbrev main_call5_v6 : Ref sig .tc := ⟨.hbm, 219, rfl⟩
abbrev main_call5_v7 : Ref sig .tc := ⟨.hbm, 220, rfl⟩
abbrev main_call5_v8 : Ref sig .tc := ⟨.hbm, 221, rfl⟩
abbrev main_call5_v9 : Ref sig .tc := ⟨.hbm, 222, rfl⟩
abbrev main_call5_v10 : Ref sig .tc := ⟨.hbm, 223, rfl⟩
abbrev main_call5_v11 : Ref sig .tc := ⟨.hbm, 224, rfl⟩
abbrev main_call5_c_3 : Ref sig .tc := ⟨.hbm, 225, rfl⟩
abbrev main_call5_v12 : Ref sig .tc := ⟨.hbm, 226, rfl⟩
abbrev main_call5_v13 : Ref sig .tc := ⟨.hbm, 227, rfl⟩
abbrev main_call5_v14 : Ref sig .tc := ⟨.hbm, 228, rfl⟩
abbrev main_call5_cst : Ref sig .tc := ⟨.hbm, 229, rfl⟩
abbrev main_call5_v15 : Ref sig .tc := ⟨.hbm, 230, rfl⟩
abbrev main_v69 : Ref sig .tc := ⟨.hbm, 231, rfl⟩
abbrev main_v70 : Ref sig .tc := ⟨.hbm, 232, rfl⟩
abbrev main_v71 : Ref sig .tc := ⟨.hbm, 233, rfl⟩
abbrev main_v72_0 : Ref sig .tc := ⟨.hbm, 234, rfl⟩
abbrev main_v72_1 : Ref sig .tc := ⟨.hbm, 235, rfl⟩
abbrev main_v72_2 : Ref sig .tc := ⟨.hbm, 236, rfl⟩
abbrev main_cst_12 : Ref sig .tc := ⟨.hbm, 237, rfl⟩
abbrev main_v73 : Ref sig .tc := ⟨.hbm, 238, rfl⟩
abbrev main_v74 : Ref sig .tc := ⟨.hbm, 239, rfl⟩
abbrev main_cst_13 : Ref sig .tc := ⟨.hbm, 240, rfl⟩
abbrev main_v75 : Ref sig .tc := ⟨.hbm, 241, rfl⟩
abbrev main_v76 : Ref sig .tc := ⟨.hbm, 242, rfl⟩
abbrev main_v77 : Ref sig .tc := ⟨.hbm, 243, rfl⟩
abbrev main_v78 : Ref sig .tc := ⟨.hbm, 244, rfl⟩
abbrev main_v79 : Ref sig .tc := ⟨.hbm, 245, rfl⟩
abbrev main_v80 : Ref sig .tc := ⟨.hbm, 246, rfl⟩
abbrev main_v81 : Ref sig .tc := ⟨.hbm, 247, rfl⟩
abbrev main_cst_14 : Ref sig .tc := ⟨.hbm, 248, rfl⟩
abbrev main_v82 : Ref sig .tc := ⟨.hbm, 249, rfl⟩
abbrev main_v83 : Ref sig .tc := ⟨.hbm, 250, rfl⟩
abbrev main_v84 : Ref sig .tc := ⟨.hbm, 251, rfl⟩
abbrev main_cst_15 : Ref sig .tc := ⟨.hbm, 252, rfl⟩
abbrev main_v85 : Ref sig .tc := ⟨.hbm, 253, rfl⟩
abbrev main_cst_16 : Ref sig .tc := ⟨.hbm, 254, rfl⟩
abbrev main_v86 : Ref sig .tc := ⟨.hbm, 255, rfl⟩
abbrev main_v87 : Ref sig .tc := ⟨.hbm, 256, rfl⟩
abbrev main_v88 : Ref sig .tc := ⟨.hbm, 257, rfl⟩
abbrev main_call6_c : Ref sig .tc := ⟨.hbm, 258, rfl⟩
abbrev main_call6_v0 : Ref sig .tc := ⟨.hbm, 259, rfl⟩
abbrev main_call6_v1 : Ref sig .tc := ⟨.hbm, 260, rfl⟩
abbrev main_call6_c_0 : Ref sig .tc := ⟨.hbm, 261, rfl⟩
abbrev main_call6_v2 : Ref sig .tc := ⟨.hbm, 262, rfl⟩
abbrev main_call6_v3 : Ref sig .tc := ⟨.hbm, 263, rfl⟩
abbrev main_call6_v4 : Ref sig .tc := ⟨.hbm, 264, rfl⟩
abbrev main_call6_v5 : Ref sig .tc := ⟨.hbm, 265, rfl⟩
abbrev main_call6_c_1 : Ref sig .tc := ⟨.hbm, 266, rfl⟩
abbrev main_call6_c_2 : Ref sig .tc := ⟨.hbm, 267, rfl⟩
abbrev main_call6_v6 : Ref sig .tc := ⟨.hbm, 268, rfl⟩
abbrev main_call6_v7 : Ref sig .tc := ⟨.hbm, 269, rfl⟩
abbrev main_call6_v8 : Ref sig .tc := ⟨.hbm, 270, rfl⟩
abbrev main_call6_v9 : Ref sig .tc := ⟨.hbm, 271, rfl⟩
abbrev main_call6_v10 : Ref sig .tc := ⟨.hbm, 272, rfl⟩
abbrev main_call6_v11 : Ref sig .tc := ⟨.hbm, 273, rfl⟩
abbrev main_call6_c_3 : Ref sig .tc := ⟨.hbm, 274, rfl⟩
abbrev main_call6_v12 : Ref sig .tc := ⟨.hbm, 275, rfl⟩
abbrev main_call6_v13 : Ref sig .tc := ⟨.hbm, 276, rfl⟩
abbrev main_call6_c_4 : Ref sig .tc := ⟨.hbm, 277, rfl⟩
abbrev main_call6_v14 : Ref sig .tc := ⟨.hbm, 278, rfl⟩
abbrev main_v89 : Ref sig .tc := ⟨.hbm, 279, rfl⟩
abbrev main_cst_17 : Ref sig .tc := ⟨.hbm, 280, rfl⟩
abbrev main_v90 : Ref sig .tc := ⟨.hbm, 281, rfl⟩
abbrev main_v91 : Ref sig .tc := ⟨.hbm, 282, rfl⟩
abbrev main_v92 : Ref sig .tc := ⟨.hbm, 283, rfl⟩
abbrev main_cst_18 : Ref sig .tc := ⟨.hbm, 284, rfl⟩
abbrev main_v93 : Ref sig .tc := ⟨.hbm, 285, rfl⟩
abbrev main_cst_19 : Ref sig .tc := ⟨.hbm, 286, rfl⟩
abbrev main_v94 : Ref sig .tc := ⟨.hbm, 287, rfl⟩
abbrev main_v95 : Ref sig .tc := ⟨.hbm, 288, rfl⟩
abbrev main_v96 : Ref sig .tc := ⟨.hbm, 289, rfl⟩
abbrev main_v97 : Ref sig .tc := ⟨.hbm, 290, rfl⟩
abbrev main_v98 : Ref sig .tc := ⟨.hbm, 291, rfl⟩
abbrev main_v99 : Ref sig .tc := ⟨.hbm, 292, rfl⟩
abbrev main_v100 : Ref sig .tc := ⟨.hbm, 293, rfl⟩
abbrev main_v101 : Ref sig .tc := ⟨.hbm, 294, rfl⟩
abbrev main_v102 : Ref sig .tc := ⟨.hbm, 295, rfl⟩
abbrev main_v103 : Ref sig .tc := ⟨.hbm, 296, rfl⟩
abbrev main_cst_20 : Ref sig .tc := ⟨.hbm, 297, rfl⟩
abbrev main_v104 : Ref sig .tc := ⟨.hbm, 298, rfl⟩
abbrev main_v105 : Ref sig .tc := ⟨.hbm, 299, rfl⟩
abbrev main_v106 : Ref sig .tc := ⟨.hbm, 300, rfl⟩
abbrev main_v107 : Ref sig .tc := ⟨.hbm, 301, rfl⟩
abbrev main_v108 : Ref sig .tc := ⟨.hbm, 302, rfl⟩
abbrev main_v109 : Ref sig .tc := ⟨.hbm, 303, rfl⟩
abbrev main_v110 : Ref sig .tc := ⟨.hbm, 304, rfl⟩
abbrev main_v111 : Ref sig .tc := ⟨.hbm, 305, rfl⟩
abbrev main_v112 : Ref sig .tc := ⟨.hbm, 306, rfl⟩
abbrev main_v113 : Ref sig .tc := ⟨.hbm, 307, rfl⟩
abbrev main_v114 : Ref sig .tc := ⟨.hbm, 308, rfl⟩
abbrev main_v115 : Ref sig .tc := ⟨.hbm, 309, rfl⟩
abbrev main_cst_21 : Ref sig .tc := ⟨.hbm, 310, rfl⟩
abbrev main_v116 : Ref sig .tc := ⟨.hbm, 311, rfl⟩
abbrev main_v117 : Ref sig .tc := ⟨.hbm, 312, rfl⟩
abbrev main_v118_0 : Ref sig .tc := ⟨.hbm, 313, rfl⟩
abbrev main_v118_1 : Ref sig .tc := ⟨.hbm, 314, rfl⟩
abbrev main_v118_2 : Ref sig .tc := ⟨.hbm, 315, rfl⟩
abbrev main_cst_22 : Ref sig .tc := ⟨.hbm, 316, rfl⟩
abbrev main_v119 : Ref sig .tc := ⟨.hbm, 317, rfl⟩
abbrev main_v120 : Ref sig .tc := ⟨.hbm, 318, rfl⟩
abbrev main_cst_23 : Ref sig .tc := ⟨.hbm, 319, rfl⟩
abbrev main_v121 : Ref sig .tc := ⟨.hbm, 320, rfl⟩
abbrev main_v122 : Ref sig .tc := ⟨.hbm, 321, rfl⟩
abbrev main_v123 : Ref sig .tc := ⟨.hbm, 322, rfl⟩
abbrev main_v124 : Ref sig .tc := ⟨.hbm, 323, rfl⟩
abbrev main_v125 : Ref sig .tc := ⟨.hbm, 324, rfl⟩
abbrev main_v126 : Ref sig .tc := ⟨.hbm, 325, rfl⟩
abbrev main_v127 : Ref sig .tc := ⟨.hbm, 326, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc3_stg7_0 : Ref sig .tc := ⟨.vmem, 42, rfl⟩
abbrev cc3_stg7_1 : Ref sig .tc := ⟨.vmem, 43, rfl⟩
abbrev cc3_stg8_0 : Ref sig .tc := ⟨.vmem, 44, rfl⟩
abbrev cc3_stg8_1 : Ref sig .tc := ⟨.vmem, 45, rfl⟩
abbrev cc3_stg9_0 : Ref sig .tc := ⟨.vmem, 46, rfl⟩
abbrev cc3_stg9_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg3_1 : Ref sig .tc := ⟨.vmem, 53, rfl⟩
abbrev cc4_stg4_0 : Ref sig .tc := ⟨.vmem, 54, rfl⟩
abbrev cc4_stg4_1 : Ref sig .tc := ⟨.vmem, 55, rfl⟩
abbrev cc4_stg5_0 : Ref sig .tc := ⟨.vmem, 56, rfl⟩
abbrev cc4_stg5_1 : Ref sig .tc := ⟨.vmem, 57, rfl⟩
abbrev cc4_stg6_0 : Ref sig .tc := ⟨.vmem, 58, rfl⟩
abbrev cc4_stg6_1 : Ref sig .tc := ⟨.vmem, 59, rfl⟩
abbrev cc4_stg7_0 : Ref sig .tc := ⟨.vmem, 60, rfl⟩
abbrev cc4_stg8_0 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg2_0 : Ref sig .tc := ⟨.vmem, 65, rfl⟩
abbrev cc5_stg3_0 : Ref sig .tc := ⟨.vmem, 66, rfl⟩
abbrev cc5_stg4_0 : Ref sig .tc := ⟨.vmem, 67, rfl⟩
abbrev cc5_stg5_0 : Ref sig .tc := ⟨.vmem, 68, rfl⟩
abbrev cc5_stg5_1 : Ref sig .tc := ⟨.vmem, 69, rfl⟩
abbrev cc5_stg6_0 : Ref sig .tc := ⟨.vmem, 70, rfl⟩
abbrev cc5_stg6_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg1_1 : Ref sig .tc := ⟨.vmem, 75, rfl⟩
abbrev cc6_stg2_0 : Ref sig .tc := ⟨.vmem, 76, rfl⟩
abbrev cc6_stg2_1 : Ref sig .tc := ⟨.vmem, 77, rfl⟩
abbrev cc6_stg3_0 : Ref sig .tc := ⟨.vmem, 78, rfl⟩
abbrev cc6_stg3_1 : Ref sig .tc := ⟨.vmem, 79, rfl⟩
abbrev cc6_stg4_0 : Ref sig .tc := ⟨.vmem, 80, rfl⟩
abbrev cc6_stg5_0 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg2_0 : Ref sig .tc := ⟨.vmem, 85, rfl⟩
abbrev cc7_stg3_0 : Ref sig .tc := ⟨.vmem, 86, rfl⟩
abbrev cc7_stg4_0 : Ref sig .tc := ⟨.vmem, 87, rfl⟩
abbrev cc7_stg5_0 : Ref sig .tc := ⟨.vmem, 88, rfl⟩
abbrev cc7_stg5_1 : Ref sig .tc := ⟨.vmem, 89, rfl⟩
abbrev cc7_stg6_0 : Ref sig .tc := ⟨.vmem, 90, rfl⟩
abbrev cc7_stg6_1 : Ref sig .tc := ⟨.vmem, 91, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41
abbrev cc3_sem7_0 : DmaSem sig := 42
abbrev cc3_sem7_1 : DmaSem sig := 43
abbrev cc3_sem8_0 : DmaSem sig := 44
abbrev cc3_sem8_1 : DmaSem sig := 45
abbrev cc3_sem9_0 : DmaSem sig := 46
abbrev cc3_sem9_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem3_1 : DmaSem sig := 53
abbrev cc4_sem4_0 : DmaSem sig := 54
abbrev cc4_sem4_1 : DmaSem sig := 55
abbrev cc4_sem5_0 : DmaSem sig := 56
abbrev cc4_sem5_1 : DmaSem sig := 57
abbrev cc4_sem6_0 : DmaSem sig := 58
abbrev cc4_sem6_1 : DmaSem sig := 59
abbrev cc4_sem7_0 : DmaSem sig := 60
abbrev cc4_sem8_0 : DmaSem sig := 61
abbrev cc5_sem0_0 : DmaSem sig := 62
abbrev cc5_sem0_1 : DmaSem sig := 63
abbrev cc5_sem1_0 : DmaSem sig := 64
abbrev cc5_sem2_0 : DmaSem sig := 65
abbrev cc5_sem3_0 : DmaSem sig := 66
abbrev cc5_sem4_0 : DmaSem sig := 67
abbrev cc5_sem5_0 : DmaSem sig := 68
abbrev cc5_sem5_1 : DmaSem sig := 69
abbrev cc5_sem6_0 : DmaSem sig := 70
abbrev cc5_sem6_1 : DmaSem sig := 71
abbrev cc6_sem0_0 : DmaSem sig := 72
abbrev cc6_sem0_1 : DmaSem sig := 73
abbrev cc6_sem1_0 : DmaSem sig := 74
abbrev cc6_sem1_1 : DmaSem sig := 75
abbrev cc6_sem2_0 : DmaSem sig := 76
abbrev cc6_sem2_1 : DmaSem sig := 77
abbrev cc6_sem3_0 : DmaSem sig := 78
abbrev cc6_sem3_1 : DmaSem sig := 79
abbrev cc6_sem4_0 : DmaSem sig := 80
abbrev cc6_sem5_0 : DmaSem sig := 81
abbrev cc7_sem0_0 : DmaSem sig := 82
abbrev cc7_sem0_1 : DmaSem sig := 83
abbrev cc7_sem1_0 : DmaSem sig := 84
abbrev cc7_sem2_0 : DmaSem sig := 85
abbrev cc7_sem3_0 : DmaSem sig := 86
abbrev cc7_sem4_0 : DmaSem sig := 87
abbrev cc7_sem5_0 : DmaSem sig := 88
abbrev cc7_sem5_1 : DmaSem sig := 89
abbrev cc7_sem6_0 : DmaSem sig := 90
abbrev cc7_sem6_1 : DmaSem sig := 91

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S4000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S4000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  bcast_S_S2 : S_.BroadcastsInDim S2 (![] : Fin 0 → Fin S2.rank)
  bcast_S2_S2x1_0 : S2.BroadcastsInDim S2x1 (![0] : Fin 1 → Fin S2x1.rank)
  bcast_S_S3 : S_.BroadcastsInDim S3 (![] : Fin 0 → Fin S3.rank)
  bcast_S3_S3x1_0 : S3.BroadcastsInDim S3x1 (![0] : Fin 1 → Fin S3x1.rank)
  slices_S9x128x128_S1x128x128_1_0_0 : S9x128x128.Slices ![1, 0, 0] S1x128x128
  shapeCasts_S1x128x128_S128x128 : S1x128x128.ShapeCasts S128x128
  slices_S9x128_S1x128_1_0 : S9x128.Slices ![1, 0] S1x128
  shapeCasts_S1x128_S128 : S1x128.ShapeCasts S128
  slices_S9x128x128_S1x128x128_3_0_0 : S9x128x128.Slices ![3, 0, 0] S1x128x128
  slices_S9x128_S1x128_3_0 : S9x128.Slices ![3, 0] S1x128
  slices_S9x128x128_S1x128x128_6_0_0 : S9x128x128.Slices ![6, 0, 0] S1x128x128
  slices_S9x128_S1x128_6_0 : S9x128.Slices ![6, 0] S1x128
  slices_S9x128x128_S1x128x128_7_0_0 : S9x128x128.Slices ![7, 0, 0] S1x128x128
  slices_S9x128_S1x128_7_0 : S9x128.Slices ![7, 0] S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S2x128x128_S1x128x128_0_0_0 : ∀ a, (![0, 0, 0] : Fin 3 → Nat) a + S1x128x128.size a ≤ S2x128x128.size a
  h_S1x128x128 : 0 < S1x128x128.numel
  inb_S2x128_S1x128_0_0 : ∀ a, (![0, 0] : Fin 2 → Nat) a + S1x128.size a ≤ S2x128.size a
  h_S1x128 : 0 < S1x128.numel
  shapeCasts_S128_S1x128 : S128.ShapeCasts S1x128
  broadcasts_S1x128_S4000x128 : S1x128.Broadcasts S4000x128
  inb_S2x128x128_S1x128x128_1_0_0 : ∀ a, (![1, 0, 0] : Fin 3 → Nat) a + S1x128x128.size a ≤ S2x128x128.size a
  inb_S2x128_S1x128_1_0 : ∀ a, (![1, 0] : Fin 2 → Nat) a + S1x128.size a ≤ S2x128.size a
  inb_S2000x128_S2000x128_0_0 : ∀ a, (![0, 0] : Fin 2 → Nat) a + S2000x128.size a ≤ S2000x128.size a
  h_S2000x128 : 0 < S2000x128.numel
  inb_S3x128x128_S1x128x128_0_0_0 : ∀ a, (![0, 0, 0] : Fin 3 → Nat) a + S1x128x128.size a ≤ S3x128x128.size a
  inb_S3x128_S1x128_0_0 : ∀ a, (![0, 0] : Fin 2 → Nat) a + S1x128.size a ≤ S3x128.size a
  broadcasts_S1x128_S2000x128 : S1x128.Broadcasts S2000x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  bcast_S128x128_S1x128x128_1_2 : S128x128.BroadcastsInDim S1x128x128 (![1, 2] : Fin 2 → Fin S1x128x128.rank)
  bcast_S128_S1x128_1 : S128.BroadcastsInDim S1x128 (![1] : Fin 1 → Fin S1x128.rank)
  inb_S1x128_S1x128_0_0 : ∀ a, (![0, 0] : Fin 2 → Nat) a + S1x128.size a ≤ S1x128.size a
  inb_S1x128x128_S1x128x128_0_0_0 : ∀ a, (![0, 0, 0] : Fin 3 → Nat) a + S1x128x128.size a ≤ S1x128x128.size a
  shapeCasts_S4000x128_S4000x128 : S4000x128.ShapeCasts S4000x128
  shapeCasts_S1x128_S1x128 : S1x128.ShapeCasts S1x128
  reduces_S4000x128_S128 : S4000x128.Reduces [0] S128
  bcast_S_S1x128 : S_.BroadcastsInDim S1x128 (![] : Fin 0 → Fin S1x128.rank)
  slices_S3x128_S1x128_1_0 : S3x128.Slices ![1, 0] S1x128
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  slices_S3x128_S1x128_0_0 : S3x128.Slices ![0, 0] S1x128
  bcast_S_S8000x128 : S_.BroadcastsInDim S8000x128 (![] : Fin 0 → Fin S8000x128.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x128_0_1 : S8000x1.BroadcastsInDim S8000x128 (![0, 1] : Fin 2 → Fin S8000x128.rank)
  bcast_S1x128_S8000x128_0_1 : S1x128.BroadcastsInDim S8000x128 (![0, 1] : Fin 2 → Fin S8000x128.rank)
  shapeCasts_S2000x128_S2000x128 : S2000x128.ShapeCasts S2000x128
  reduces_S2000x128_S128 : S2000x128.Reduces [0] S128
  slices_S3x128_S1x128_2_0 : S3x128.Slices ![2, 0] S1x128
  gather_S9x128x128_S2x1_S2x128x128_12_0_n_n_0_1_1128128_wf : GatherDims.WF S9x128x128 S2x1 S2x128x128 [1, 2] [0] [] [0] [] 1 ![1, 128, 128]
  gather_S9x128_S2x1_S2x128_1_0_n_n_0_1_1128_wf : GatherDims.WF S9x128 S2x1 S2x128 [1] [0] [] [0] [] 1 ![1, 128]
  gather_S9x128x128_S3x1_S3x128x128_12_0_n_n_0_1_1128128_wf : GatherDims.WF S9x128x128 S3x1 S3x128x128 [1, 2] [0] [] [0] [] 1 ![1, 128, 128]
  gather_S9x128_S3x1_S3x128_1_0_n_n_0_1_1128_wf : GatherDims.WF S9x128 S3x1 S3x128 [1] [0] [] [0] [] 1 ![1, 128]
  dot_S4000x128_S128x128_S4000x128_1_0_0_1_n_n_wf : DotDims.WF S4000x128 S128x128 S4000x128 [1] [0] [0] [1] [] []
  dot_S2000x128_S128x128_S2000x128_1_0_0_1_n_n_wf : DotDims.WF S2000x128 S128x128 S2000x128 [1] [0] [0] [1] [] []
  gather_S200000x128_S400000x1_S400000x128_1_0_n_n_0_1_1128_wf : GatherDims.WF S200000x128 S400000x1 S400000x128 [1] [0] [] [0] [] 1 ![1, 128]
  gather_S200000_S400000x1_S400000_n_0_n_n_0_1_1_wf : GatherDims.WF S200000 S400000x1 S400000 [] [0] [] [0] [] 1 ![1]
  gather_S8000x128_S400000x1_S400000x128_1_0_n_n_0_1_1128_wf : GatherDims.WF S8000x128 S400000x1 S400000x128 [1] [0] [] [0] [] 1 ![1, 128]
  scatter_S200000x128_S400000x1_S400000x128_1_0_0_1_wf : ScatterDims.WF S200000x128 S400000x1 S400000x128 [1] [0] [0] 1
  gather_S8000x128_S200000x1_S200000x128_1_0_n_n_0_1_1128_wf : GatherDims.WF S8000x128 S200000x1 S200000x128 [1] [0] [] [0] [] 1 ![1, 128]
  scatter_S8000x128_S200000x1_S200000x128_1_0_0_1_wf : ScatterDims.WF S8000x128 S200000x1 S200000x128 [1] [0] [0] 1
  scatter_S8000_S200000x1_S200000_n_0_0_1_wf : ScatterDims.WF S8000 S200000x1 S200000 [] [0] [0] 1
  scatter_S8000x128_S400000x1_S400000x128_1_0_0_1_wf : ScatterDims.WF S8000x128 S400000x1 S400000x128 [1] [0] [0] 1
  scatter_S8000_S400000x1_S400000_n_0_0_1_wf : ScatterDims.WF S8000 S400000x1 S400000 [] [0] [0] 1
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128x128.size a ≤ S2x128x128.size a
  hwx0_1 : ∀ i : grid0.Coords, EltTy.bits .f32 = 32 ∨ (Rect.block (s := S2x128x128) S2x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S200000x128.size a
  hwx0_4 : ∀ i : grid0.Coords, EltTy.bits .f32 = 32 ∨ (Rect.block (s := S200000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S8000x128.size a
  hwx1_0 : ∀ i : grid1.Coords, EltTy.bits .f32 = 32 ∨ (Rect.block (s := S8000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128x128.size a ≤ S3x128x128.size a
  hwx1_1 : ∀ i : grid1.Coords, EltTy.bits .f32 = 32 ∨ (Rect.block (s := S3x128x128) S3x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128.size a ≤ S3x128.size a
  hwx1_2 : ∀ i : grid1.Coords, EltTy.bits .f32 = 32 ∨ (Rect.block (s := S3x128) S3x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S8000x128.size a
  hwx1_3 : ∀ i : grid1.Coords, EltTy.bits .f32 = 32 ∨ (Rect.block (s := S8000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S8000x128.size a
  hwx1_4 : ∀ i : grid1.Coords, EltTy.bits .f32 = 32 ∨ (Rect.block (s := S8000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S8000x128.size a
  hwx1_5 : ∀ i : grid1.Coords, EltTy.bits .f32 = 32 ∨ (Rect.block (s := S8000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .f32 = 32 ∨ (Rect.block (s := S400000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S400000x128.size a
  hwx2_1 : ∀ i : grid2.Coords, EltTy.bits .f32 = 32 ∨ (Rect.block (s := S400000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S400000x128.size a
  hwx2_2 : ∀ i : grid2.Coords, EltTy.bits .f32 = 32 ∨ (Rect.block (s := S400000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S400000x128.size a
  hwx2_3 : ∀ i : grid2.Coords, EltTy.bits .f32 = 32 ∨ (Rect.block (s := S400000x128) S4000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128x128.size a ≤ S1x128x128.size a
  hwx2_4 : ∀ i : grid2.Coords, EltTy.bits .f32 = 32 ∨ (Rect.block (s := S1x128x128) S1x128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S400000x128.size a
  hwx2_6 : ∀ i : grid2.Coords, EltTy.bits .f32 = 32 ∨ (Rect.block (s := S400000x128) S4000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S400000x128.size a
  hwx3_0 : ∀ i : grid3.Coords, EltTy.bits .f32 = 32 ∨ (Rect.block (s := S400000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S400000x128.size a
  hwx3_5 : ∀ i : grid3.Coords, EltTy.bits .f32 = 32 ∨ (Rect.block (s := S400000x128) S4000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S400000x128.size a
  hwx3_6 : ∀ i : grid3.Coords, EltTy.bits .f32 = 32 ∨ (Rect.block (s := S400000x128) S4000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S400000x128.size a
  hwx3_7 : ∀ i : grid3.Coords, EltTy.bits .f32 = 32 ∨ (Rect.block (s := S400000x128) S4000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x128.size a ≤ S400000x128.size a
  hwx3_8 : ∀ i : grid3.Coords, EltTy.bits .f32 = 32 ∨ (Rect.block (s := S400000x128) S4000x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x128.size a ≤ S400000x128.size a
  hwx3_9 : ∀ i : grid3.Coords, EltTy.bits .f32 = 32 ∨ (Rect.block (s := S400000x128) S4000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S200000x128.size a
  hwx4_0 : ∀ i : grid4.Coords, EltTy.bits .f32 = 32 ∨ (Rect.block (s := S200000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128x128.size a ≤ S1x128x128.size a
  hwx4_1 : ∀ i : grid4.Coords, EltTy.bits .f32 = 32 ∨ (Rect.block (s := S1x128x128) S1x128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x128.size a ≤ S200000x128.size a
  hwx4_3 : ∀ i : grid4.Coords, EltTy.bits .f32 = 32 ∨ (Rect.block (s := S200000x128) S4000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S200000x128.size a
  hwx4_4 : ∀ i : grid4.Coords, EltTy.bits .f32 = 32 ∨ (Rect.block (s := S200000x128) S4000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S200000x128.size a
  hwx4_5 : ∀ i : grid4.Coords, EltTy.bits .f32 = 32 ∨ (Rect.block (s := S200000x128) S4000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S200000x128.size a
  hwx4_6 : ∀ i : grid4.Coords, EltTy.bits .f32 = 32 ∨ (Rect.block (s := S200000x128) S4000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S200000x128.size a
  hwx5_0 : ∀ i : grid5.Coords, EltTy.bits .f32 = 32 ∨ (Rect.block (s := S200000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S200000x128.size a
  hwx5_5 : ∀ i : grid5.Coords, EltTy.bits .f32 = 32 ∨ (Rect.block (s := S200000x128) S4000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S200000x128.size a
  hwx5_6 : ∀ i : grid5.Coords, EltTy.bits .f32 = 32 ∨ (Rect.block (s := S200000x128) S4000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S8000x128.size a
  hwx6_0 : ∀ i : grid6.Coords, EltTy.bits .f32 = 32 ∨ (Rect.block (s := S8000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S8000x128.size a
  hwx6_1 : ∀ i : grid6.Coords, EltTy.bits .f32 = 32 ∨ (Rect.block (s := S8000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S8000x128.size a
  hwx6_2 : ∀ i : grid6.Coords, EltTy.bits .f32 = 32 ∨ (Rect.block (s := S8000x128) S2000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S8000x128.size a
  hwx6_3 : ∀ i : grid6.Coords, EltTy.bits .f32 = 32 ∨ (Rect.block (s := S8000x128) S2000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S8000x128.size a
  hwx7_0 : ∀ i : grid7.Coords, EltTy.bits .f32 = 32 ∨ (Rect.block (s := S8000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S8000x128.size a
  hwx7_5 : ∀ i : grid7.Coords, EltTy.bits .f32 = 32 ∨ (Rect.block (s := S8000x128) S2000x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S8000x128.size a
  hwx7_6 : ∀ i : grid7.Coords, EltTy.bits .f32 = 32 ∨ (Rect.block (s := S8000x128) S2000x128.size (cc7_transform_6 i) (hinb7_6 i)).WholeWords (EltTy.packing .f32)

variable [Facts₀]

def gather_S9x128x128_S2x1_S2x128x128_12_0_n_n_0_1_1128128 : GatherDims S9x128x128 S2x1 S2x128x128 where
  offsetDims := [1, 2]
  collapsedSliceDims := [0]
  operandBatchingDims := []
  startIndicesBatchingDims := []
  startIndexMap := [0]
  indexVectorDim := 1
  sliceSizes := ![1, 128, 128]
  wf := gather_S9x128x128_S2x1_S2x128x128_12_0_n_n_0_1_1128128_wf
def gather_S9x128_S2x1_S2x128_1_0_n_n_0_1_1128 : GatherDims S9x128 S2x1 S2x128 where
  offsetDims := [1]
  collapsedSliceDims := [0]
  operandBatchingDims := []
  startIndicesBatchingDims := []
  startIndexMap := [0]
  indexVectorDim := 1
  sliceSizes := ![1, 128]
  wf := gather_S9x128_S2x1_S2x128_1_0_n_n_0_1_1128_wf
def gather_S9x128x128_S3x1_S3x128x128_12_0_n_n_0_1_1128128 : GatherDims S9x128x128 S3x1 S3x128x128 where
  offsetDims := [1, 2]
  collapsedSliceDims := [0]
  operandBatchingDims := []
  startIndicesBatchingDims := []
  startIndexMap := [0]
  indexVectorDim := 1
  sliceSizes := ![1, 128, 128]
  wf := gather_S9x128x128_S3x1_S3x128x128_12_0_n_n_0_1_1128128_wf
def gather_S9x128_S3x1_S3x128_1_0_n_n_0_1_1128 : GatherDims S9x128 S3x1 S3x128 where
  offsetDims := [1]
  collapsedSliceDims := [0]
  operandBatchingDims := []
  startIndicesBatchingDims := []
  startIndexMap := [0]
  indexVectorDim := 1
  sliceSizes := ![1, 128]
  wf := gather_S9x128_S3x1_S3x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def gather_S200000_S400000x1_S400000_n_0_n_n_0_1_1 : GatherDims S200000 S400000x1 S400000 where
  offsetDims := []
  collapsedSliceDims := [0]
  operandBatchingDims := []
  startIndicesBatchingDims := []
  startIndexMap := [0]
  indexVectorDim := 1
  sliceSizes := ![1]
  wf := gather_S200000_S400000x1_S400000_n_0_n_n_0_1_1_wf
def gather_S8000x128_S400000x1_S400000x128_1_0_n_n_0_1_1128 : GatherDims S8000x128 S400000x1 S400000x128 where
  offsetDims := [1]
  collapsedSliceDims := [0]
  operandBatchingDims := []
  startIndicesBatchingDims := []
  startIndexMap := [0]
  indexVectorDim := 1
  sliceSizes := ![1, 128]
  wf := gather_S8000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def gather_S8000x128_S200000x1_S200000x128_1_0_n_n_0_1_1128 : GatherDims S8000x128 S200000x1 S200000x128 where
  offsetDims := [1]
  collapsedSliceDims := [0]
  operandBatchingDims := []
  startIndicesBatchingDims := []
  startIndexMap := [0]
  indexVectorDim := 1
  sliceSizes := ![1, 128]
  wf := gather_S8000x128_S200000x1_S200000x128_1_0_n_n_0_1_1128_wf
def scatter_S8000x128_S200000x1_S200000x128_1_0_0_1 : ScatterDims S8000x128 S200000x1 S200000x128 where
  updateWindowDims := [1]
  insertedWindowDims := [0]
  scatterDimsToOperandDims := [0]
  indexVectorDim := 1
  wf := scatter_S8000x128_S200000x1_S200000x128_1_0_0_1_wf
def scatter_S8000_S200000x1_S200000_n_0_0_1 : ScatterDims S8000 S200000x1 S200000 where
  updateWindowDims := []
  insertedWindowDims := [0]
  scatterDimsToOperandDims := [0]
  indexVectorDim := 1
  wf := scatter_S8000_S200000x1_S200000_n_0_0_1_wf
def scatter_S8000x128_S400000x1_S400000x128_1_0_0_1 : ScatterDims S8000x128 S400000x1 S400000x128 where
  updateWindowDims := [1]
  insertedWindowDims := [0]
  scatterDimsToOperandDims := [0]
  indexVectorDim := 1
  wf := scatter_S8000x128_S400000x1_S400000x128_1_0_0_1_wf
def scatter_S8000_S400000x1_S400000_n_0_0_1 : ScatterDims S8000 S400000x1 S400000 where
  updateWindowDims := []
  insertedWindowDims := [0]
  scatterDimsToOperandDims := [0]
  indexVectorDim := 1
  wf := scatter_S8000_S400000x1_S400000_n_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S3x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S3x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45_1) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v45_2) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v52_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v52_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v52_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg1) S4000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v59) S4000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v62_0) S4000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v62_1) S4000x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v62_2) S4000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_arg0) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S4000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v68) S4000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v69) S4000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v72_0) S4000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v72_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v72_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v72_0) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg0) S4000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v81) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v108) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v117) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v45_2) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v118_0) S2000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v118_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v118_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v118_0) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v120) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v124) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v125) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v126) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg2) S2000x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v127) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S200000x128 : Shape := ⟨2, ![200000, 128]⟩
abbrev S400000x128 : Shape := ⟨2, ![400000, 128]⟩
abbrev S8000x128 : Shape := ⟨2, ![8000, 128]⟩
abbrev S9x128x128 : Shape := ⟨3, ![9, 128, 128]⟩
abbrev S9x128 : Shape := ⟨2, ![9, 128]⟩
abbrev S3x128 : Shape := ⟨2, ![3, 128]⟩
abbrev S400000 : Shape := ⟨1, ![400000]⟩
abbrev S200000 : Shape := ⟨1, ![200000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S200000x1 : Shape := ⟨2, ![200000, 1]⟩
abbrev S400000x1 : Shape := ⟨2, ![400000, 1]⟩
abbrev S8000 : Shape := ⟨1, ![8000]⟩
abbrev S8000x1 : Shape := ⟨2, ![8000, 1]⟩

abbrev nBuf : Space → Nat
  | .hbm => 352
  | .vmem => 0
  | .smem => 0
  | _ => 0

abbrev hbmTy0_0 (i : Nat) : BufTy := match i % 128 with
  | 0 => ⟨S200000x128, .f32⟩
  | 1 => ⟨S400000x128, .f32⟩
  | 2 => ⟨S8000x128, .f32⟩
  | 3 => ⟨S9x128x128, .f32⟩
  | 4 => ⟨S9x128, .f32⟩
  | 5 => ⟨S3x128, .f32⟩
  | 6 => ⟨S3x128, .f32⟩
  | 7 => ⟨S400000, .i32⟩
  | 8 => ⟨S400000, .i32⟩
  | 9 => ⟨S200000, .i32⟩
  | 10 => ⟨S1x128x128, .f32⟩
  | 11 => ⟨S128x128, .f32⟩
  | 12 => ⟨S200000x128, .f32⟩
  | 13 => ⟨S1x128, .f32⟩
  | 14 => ⟨S128, .f32⟩
  | 15 => ⟨S1x128, .f32⟩
  | 16 => ⟨S200000x128, .f32⟩
  | 17 => ⟨S200000x128, .f32⟩
  | 18 => ⟨S1x128x128, .f32⟩
  | 19 => ⟨S128x128, .f32⟩
  | 20 => ⟨S8000x128, .f32⟩
  | 21 => ⟨S1x128, .f32⟩
  | 22 => ⟨S128, .f32⟩
  | 23 => ⟨S1x128, .f32⟩
  | 24 => ⟨S8000x128, .f32⟩
  | 25 => ⟨S8000x128, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x128, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x128, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000x128, .f32⟩
  | 53 => ⟨S400000x128, .f32⟩
  | 54 => ⟨S1x128x128, .f32⟩
  | 55 => ⟨S128x128, .f32⟩
  | 56 => ⟨S400000x128, .f32⟩
  | 57 => ⟨S1x128, .f32⟩
  | 58 => ⟨S128, .f32⟩
  | 59 => ⟨S1x128, .f32⟩
  | 60 => ⟨S400000x128, .f32⟩
  | 61 => ⟨S400000x128, .f32⟩
  | 62 => ⟨S400000x128, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x128, .f32⟩
  | 72 => ⟨S400000x128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S400000x128, .f32⟩
  | 86 => ⟨S400000x128, .f32⟩
  | 87 => ⟨S400000x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S1x128, .f32⟩
  | 102 => ⟨S400000x128, .f32⟩
  | 103 => ⟨S400000x128, .f32⟩
  | 104 => ⟨S_, .f32⟩
  | 105 => ⟨S128, .f32⟩
  | 106 => ⟨S128, .f32⟩
  | 107 => ⟨S128, .f32⟩
  | 108 => ⟨S1x128, .f32⟩
  | 109 => ⟨S400000x128, .f32⟩
  | 110 => ⟨S400000x128, .f32⟩
  | 111 => ⟨S1x128, .f32⟩
  | 112 => ⟨S128, .f32⟩
  | 113 => ⟨S1x128, .f32⟩
  | 114 => ⟨S400000x128, .f32⟩
  | 115 => ⟨S400000x128, .f32⟩
  | 116 => ⟨S1x128, .f32⟩
  | 117 => ⟨S128, .f32⟩
  | 118 => ⟨S1x128, .f32⟩
  | 119 => ⟨S400000x128, .f32⟩
  | 120 => ⟨S400000x128, .f32⟩
  | 121 => ⟨S_, .f32⟩
  | 122 => ⟨S400000x128, .f32⟩
  | 123 => ⟨S400000x128, .f32⟩
  | 124 => ⟨S400000x128, .f32⟩
  | 125 => ⟨S1x128x128, .f32⟩
  | 126 => ⟨S128x128, .f32⟩
  | 127 => ⟨S200000x128, .f32⟩
  | _ => ⟨S200000x128, .f32⟩

abbrev hbmTy0_1 (i : Nat) : BufTy := match i % 128 with
  | 0 => ⟨S1x128, .f32⟩
  | 1 => ⟨S128, .f32⟩
  | 2 => ⟨S1x128, .f32⟩
  | 3 => ⟨S200000x128, .f32⟩
  | 4 => ⟨S200000x128, .f32⟩
  | 5 => ⟨S400000x128, .f32⟩
  | 6 => ⟨S400000x128, .f32⟩
  | 7 => ⟨S_, .f32⟩
  | 8 => ⟨S400000x128, .f32⟩
  | 9 => ⟨S400000x128, .f32⟩
  | 10 => ⟨S_, .f32⟩
  | 11 => ⟨S400000x128, .f32⟩
  | 12 => ⟨S400000x128, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000x128, .f32⟩
  | 22 => ⟨S400000x128, .f32⟩
  | 23 => ⟨S_, .f32⟩
  | 24 => ⟨S200000x128, .f32⟩
  | 25 => ⟨S400000x1, .i32⟩
  | 26 => ⟨S200000x128, .f32⟩
  | 27 => ⟨S_, .f32⟩
  | 28 => ⟨S200000x128, .f32⟩
  | 29 => ⟨S400000x1, .i32⟩
  | 30 => ⟨S200000x128, .f32⟩
  | 31 => ⟨S_, .f32⟩
  | 32 => ⟨S200000x128, .f32⟩
  | 33 => ⟨S200000x128, .f32⟩
  | 34 => ⟨S200000x128, .f32⟩
  | 35 => ⟨S1x128x128, .f32⟩
  | 36 => ⟨S128x128, .f32⟩
  | 37 => ⟨S8000x128, .f32⟩
  | 38 => ⟨S1x128, .f32⟩
  | 39 => ⟨S128, .f32⟩
  | 40 => ⟨S1x128, .f32⟩
  | 41 => ⟨S8000x128, .f32⟩
  | 42 => ⟨S8000x128, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x128, .f32⟩
  | 52 => ⟨S1x128x128, .f32⟩
  | 53 => ⟨S128x128, .f32⟩
  | 54 => ⟨S200000x128, .f32⟩
  | 55 => ⟨S1x128, .f32⟩
  | 56 => ⟨S128, .f32⟩
  | 57 => ⟨S1x128, .f32⟩
  | 58 => ⟨S200000x128, .f32⟩
  | 59 => ⟨S200000x128, .f32⟩
  | 60 => ⟨S200000x128, .f32⟩
  | 61 => ⟨S200000x128, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S200000x128, .f32⟩
  | 75 => ⟨S200000x128, .f32⟩
  | 76 => ⟨S200000x128, .f32⟩
  | 77 => ⟨S_, .f32⟩
  | 78 => ⟨S_, .f32⟩
  | 79 => ⟨S_, .f32⟩
  | 80 => ⟨S_, .f32⟩
  | 81 => ⟨S128, .f32⟩
  | 82 => ⟨S128, .f32⟩
  | 83 => ⟨S128, .f32⟩
  | 84 => ⟨S_, .f32⟩
  | 85 => ⟨S_, .i1⟩
  | 86 => ⟨S_, .f32⟩
  | 87 => ⟨S_, .f32⟩
  | 88 => ⟨S128, .f32⟩
  | 89 => ⟨S128, .f32⟩
  | 90 => ⟨S1x128, .f32⟩
  | 91 => ⟨S200000x128, .f32⟩
  | 92 => ⟨S200000x128, .f32⟩
  | 93 => ⟨S_, .f32⟩
  | 94 => ⟨S128, .f32⟩
  | 95 => ⟨S128, .f32⟩
  | 96 => ⟨S128, .f32⟩
  | 97 => ⟨S1x128, .f32⟩
  | 98 => ⟨S200000x128, .f32⟩
  | 99 => ⟨S200000x128, .f32⟩
  | 100 => ⟨S1x128, .f32⟩
  | 101 => ⟨S128, .f32⟩
  | 102 => ⟨S1x128, .f32⟩
  | 103 => ⟨S200000x128, .f32⟩
  | 104 => ⟨S200000x128, .f32⟩
  | 105 => ⟨S1x128, .f32⟩
  | 106 => ⟨S128, .f32⟩
  | 107 => ⟨S1x128, .f32⟩
  | 108 => ⟨S200000x128, .f32⟩
  | 109 => ⟨S200000x128, .f32⟩
  | 110 => ⟨S_, .f32⟩
  | 111 => ⟨S200000x128, .f32⟩
  | 112 => ⟨S200000x128, .f32⟩
  | 113 => ⟨S200000x128, .f32⟩
  | 114 => ⟨S1x128x128, .f32⟩
  | 115 => ⟨S128x128, .f32⟩
  | 116 => ⟨S200000x128, .f32⟩
  | 117 => ⟨S1x128, .f32⟩
  | 118 => ⟨S128, .f32⟩
  | 119 => ⟨S1x128, .f32⟩
  | 120 => ⟨S200000x128, .f32⟩
  | 121 => ⟨S200000x128, .f32⟩
  | 122 => ⟨S1x128x128, .f32⟩
  | 123 => ⟨S128x128, .f32⟩
  | 124 => ⟨S400000x128, .f32⟩
  | 125 => ⟨S1x128, .f32⟩
  | 126 => ⟨S128, .f32⟩
  | 127 => ⟨S1x128, .f32⟩
  | _ => ⟨S200000x128, .f32⟩

abbrev hbmTy0_2 (i : Nat) : BufTy := match i % 128 with
  | 0 => ⟨S400000x128, .f32⟩
  | 1 => ⟨S400000x128, .f32⟩
  | 2 => ⟨S_, .i32⟩
  | 3 => ⟨S400000, .i32⟩
  | 4 => ⟨S400000, .i1⟩
  | 5 => ⟨S_, .i32⟩
  | 6 => ⟨S400000, .i32⟩
  | 7 => ⟨S400000, .i32⟩
  | 8 => ⟨S400000, .i32⟩
  | 9 => ⟨S400000x1, .i32⟩
  | 10 => ⟨S400000, .i32⟩
  | 11 => ⟨S_, .f32⟩
  | 12 => ⟨S8000x128, .f32⟩
  | 13 => ⟨S400000x1, .i32⟩
  | 14 => ⟨S8000x128, .f32⟩
  | 15 => ⟨S_, .f32⟩
  | 16 => ⟨S8000x128, .f32⟩
  | 17 => ⟨S8000x128, .f32⟩
  | 18 => ⟨S_, .f32⟩
  | 19 => ⟨S8000x128, .f32⟩
  | 20 => ⟨S200000x1, .i32⟩
  | 21 => ⟨S8000x128, .f32⟩
  | 22 => ⟨S_, .f32⟩
  | 23 => ⟨S200000, .f32⟩
  | 24 => ⟨S_, .f32⟩
  | 25 => ⟨S8000, .f32⟩
  | 26 => ⟨S200000x1, .i32⟩
  | 27 => ⟨S8000, .f32⟩
  | 28 => ⟨S_, .f32⟩
  | 29 => ⟨S8000, .f32⟩
  | 30 => ⟨S8000, .f32⟩
  | 31 => ⟨S8000x1, .f32⟩
  | 32 => ⟨S8000x128, .f32⟩
  | 33 => ⟨S8000x128, .f32⟩
  | 34 => ⟨S8000x128, .f32⟩
  | 35 => ⟨S1x128x128, .f32⟩
  | 36 => ⟨S128x128, .f32⟩
  | 37 => ⟨S8000x128, .f32⟩
  | 38 => ⟨S1x128, .f32⟩
  | 39 => ⟨S128, .f32⟩
  | 40 => ⟨S1x128, .f32⟩
  | 41 => ⟨S8000x128, .f32⟩
  | 42 => ⟨S8000x128, .f32⟩
  | 43 => ⟨S8000x128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S8000x128, .f32⟩
  | 57 => ⟨S8000x128, .f32⟩
  | 58 => ⟨S8000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S8000x128, .f32⟩
  | 74 => ⟨S8000x128, .f32⟩
  | 75 => ⟨S_, .f32⟩
  | 76 => ⟨S128, .f32⟩
  | 77 => ⟨S128, .f32⟩
  | 78 => ⟨S128, .f32⟩
  | 79 => ⟨S1x128, .f32⟩
  | 80 => ⟨S8000x128, .f32⟩
  | 81 => ⟨S8000x128, .f32⟩
  | 82 => ⟨S1x128, .f32⟩
  | 83 => ⟨S128, .f32⟩
  | 84 => ⟨S1x128, .f32⟩
  | 85 => ⟨S8000x128, .f32⟩
  | 86 => ⟨S8000x128, .f32⟩
  | 87 => ⟨S1x128, .f32⟩
  | 88 => ⟨S128, .f32⟩
  | 89 => ⟨S1x128, .f32⟩
  | 90 => ⟨S8000x128, .f32⟩
  | 91 => ⟨S8000x128, .f32⟩
  | 92 => ⟨S_, .f32⟩
  | 93 => ⟨S8000x128, .f32⟩
  | 94 => ⟨S8000x128, .f32⟩
  | 95 => ⟨S8000x128, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_5 : Ref sig .tc := ⟨.hbm, 63, rfl⟩
abbrev main_v47 : Ref sig .tc := ⟨.hbm, 64, rfl⟩
abbrev main_v48 : Ref sig .tc := ⟨.hbm, 65, rfl⟩
abbrev main_c_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_c_8 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_cst_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_cst_1 : Ref sig .tc := ⟨.hbm, 89, rfl⟩
abbrev main_call0_v8 : Ref sig .tc := ⟨.hbm, 90, rfl⟩
abbrev main_call0_cst_2 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_cst_3 : Ref sig .tc := ⟨.hbm, 95, rfl⟩
abbrev main_call0_v12 : Ref sig .tc := ⟨.hbm, 96, rfl⟩
abbrev main_call0_cst_4 : Ref sig .tc := ⟨.hbm, 97, rfl⟩
abbrev main_call0_call0_v0 : Ref sig .tc := ⟨.hbm, 98, rfl⟩
abbrev main_call0_call0_v1 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_9 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call1_cst : Ref sig .tc := ⟨.hbm, 121, rfl⟩
abbrev main_call1_v0 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_10 : Ref sig .tc := ⟨.hbm, 135, rfl⟩
abbrev main_v90 : Ref sig .tc := ⟨.hbm, 136, rfl⟩
abbrev main_v91 : Ref sig .tc := ⟨.hbm, 137, rfl⟩
abbrev main_cst_11 : Ref sig .tc := ⟨.hbm, 138, rfl⟩
abbrev main_v92 : Ref sig .tc := ⟨.hbm, 139, rfl⟩
abbrev main_v93 : Ref sig .tc := ⟨.hbm, 140, rfl⟩
abbrev main_c_12 : Ref sig .tc := ⟨.hbm, 141, rfl⟩
abbrev main_v94 : Ref sig .tc := ⟨.hbm, 142, rfl⟩
abbrev main_v95 : Ref sig .tc := ⟨.hbm, 143, rfl⟩
abbrev main_c_13 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_14 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_15 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_16 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_17 : Ref sig .tc := ⟨.hbm, 171, rfl⟩
abbrev main_v119 : Ref sig .tc := ⟨.hbm, 172, rfl⟩
abbrev main_v120 : Ref sig .tc := ⟨.hbm, 173, rfl⟩
abbrev main_c_18 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_19 : Ref sig .tc := ⟨.hbm, 190, rfl⟩
abbrev main_v136 : Ref sig .tc := ⟨.hbm, 191, rfl⟩
abbrev main_cst_20 : Ref sig .tc := ⟨.hbm, 192, rfl⟩
abbrev main_v137 : Ref sig .tc := ⟨.hbm, 193, rfl⟩
abbrev main_v138 : Ref sig .tc := ⟨.hbm, 194, rfl⟩
abbrev main_c_21 : Ref sig .tc := ⟨.hbm, 195, rfl⟩
abbrev main_call2_cst : Ref sig .tc := ⟨.hbm, 196, rfl⟩
abbrev main_call2_v0 : Ref sig .tc := ⟨.hbm, 197, rfl⟩
abbrev main_call2_v1 : Ref sig .tc := ⟨.hbm, 198, rfl⟩
abbrev main_call2_cst_0 : Ref sig .tc := ⟨.hbm, 199, rfl⟩
abbrev main_call2_v2 : Ref sig .tc := ⟨.hbm, 200, rfl⟩
abbrev main_call2_v3 : Ref sig .tc := ⟨.hbm, 201, rfl⟩
abbrev main_call2_v4 : Ref sig .tc := ⟨.hbm, 202, rfl⟩
abbrev main_call2_v5 : Ref sig .tc := ⟨.hbm, 203, rfl⟩
abbrev main_call2_v6 : Ref sig .tc := ⟨.hbm, 204, rfl⟩
abbrev main_call2_v7 : Ref sig .tc := ⟨.hbm, 205, rfl⟩
abbrev main_call2_cst_1 : Ref sig .tc := ⟨.hbm, 206, rfl⟩
abbrev main_call2_v8 : Ref sig .tc := ⟨.hbm, 207, rfl⟩
abbrev main_call2_cst_2 : Ref sig .tc := ⟨.hbm, 208, rfl⟩
abbrev main_call2_v9 : Ref sig .tc := ⟨.hbm, 209, rfl⟩
abbrev main_call2_v10 : Ref sig .tc := ⟨.hbm, 210, rfl⟩
abbrev main_call2_v11 : Ref sig .tc := ⟨.hbm, 211, rfl⟩
abbrev main_call2_cst_3 : Ref sig .tc := ⟨.hbm, 212, rfl⟩
abbrev main_call2_v12 : Ref sig .tc := ⟨.hbm, 213, rfl⟩
abbrev main_call2_cst_4 : Ref sig .tc := ⟨.hbm, 214, rfl⟩
abbrev main_call2_call0_v0 : Ref sig .tc := ⟨.hbm, 215, rfl⟩
abbrev main_call2_call0_v1 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_cst_22 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_call3_cst : Ref sig .tc := ⟨.hbm, 238, rfl⟩
abbrev main_call3_v0 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_c_23 : Ref sig .tc := ⟨.hbm, 258, rfl⟩
abbrev main_v177 : Ref sig .tc := ⟨.hbm, 259, rfl⟩
abbrev main_v178 : Ref sig .tc := ⟨.hbm, 260, rfl⟩
abbrev main_c_24 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_cst_25 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_cst_26 : Ref sig .tc := ⟨.hbm, 271, rfl⟩
abbrev main_v187 : Ref sig .tc := ⟨.hbm, 272, rfl⟩
abbrev main_v188 : Ref sig .tc := ⟨.hbm, 273, rfl⟩
abbrev main_cst_27 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_cst_28 : Ref sig .tc := ⟨.hbm, 278, rfl⟩
abbrev main_v192 : Ref sig .tc := ⟨.hbm, 279, rfl⟩
abbrev main_cst_29 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_cst_30 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_cst_31 : Ref sig .tc := ⟨.hbm, 300, rfl⟩
abbrev main_v211 : Ref sig .tc := ⟨.hbm, 301, rfl⟩
abbrev main_cst_32 : Ref sig .tc := ⟨.hbm, 302, rfl⟩
abbrev main_v212 : Ref sig .tc := ⟨.hbm, 303, rfl⟩
abbrev main_v213 : Ref sig .tc := ⟨.hbm, 304, rfl⟩
abbrev main_c_33 : Ref sig .tc := ⟨.hbm, 305, rfl⟩
abbrev main_call4_cst : Ref sig .tc := ⟨.hbm, 306, rfl⟩
abbrev main_call4_v0 : Ref sig .tc := ⟨.hbm, 307, rfl⟩
abbrev main_call4_v1 : Ref sig .tc := ⟨.hbm, 308, rfl⟩
abbrev main_call4_cst_0 : Ref sig .tc := ⟨.hbm, 309, rfl⟩
abbrev main_call4_v2 : Ref sig .tc := ⟨.hbm, 310, rfl⟩
abbrev main_call4_v3 : Ref sig .tc := ⟨.hbm, 311, rfl⟩
abbrev main_call4_v4 : Ref sig .tc := ⟨.hbm, 312, rfl⟩
abbrev main_call4_v5 : Ref sig .tc := ⟨.hbm, 313, rfl⟩
abbrev main_call4_v6 : Ref sig .tc := ⟨.hbm, 314, rfl⟩
abbrev main_call4_v7 : Ref sig .tc := ⟨.hbm, 315, rfl⟩
abbrev main_call4_cst_1 : Ref sig .tc := ⟨.hbm, 316, rfl⟩
abbrev main_call4_v8 : Ref sig .tc := ⟨.hbm, 317, rfl⟩
abbrev main_call4_cst_2 : Ref sig .tc := ⟨.hbm, 318, rfl⟩
abbrev main_call4_v9 : Ref sig .tc := ⟨.hbm, 319, rfl⟩
abbrev main_call4_v10 : Ref sig .tc := ⟨.hbm, 320, rfl⟩
abbrev main_call4_v11 : Ref sig .tc := ⟨.hbm, 321, rfl⟩
abbrev main_call4_cst_3 : Ref sig .tc := ⟨.hbm, 322, rfl⟩
abbrev main_call4_v12 : Ref sig .tc := ⟨.hbm, 323, rfl⟩
abbrev main_call4_cst_4 : Ref sig .tc := ⟨.hbm, 324, rfl⟩
abbrev main_call4_call0_v0 : Ref sig .tc := ⟨.hbm, 325, rfl⟩
abbrev main_call4_call0_v1 : Ref sig .tc := ⟨.hbm, 326, rfl⟩
abbrev main_v214 : Ref sig .tc := ⟨.hbm, 327, rfl⟩
abbrev main_v215 : Ref sig .tc := ⟨.hbm, 328, rfl⟩
abbrev main_v216 : Ref sig .tc := ⟨.hbm, 329, rfl⟩
abbrev main_v217 : Ref sig .tc := ⟨.hbm, 330, rfl⟩
abbrev main_cst_34 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_call5_cst : Ref sig .tc := ⟨.hbm, 348, rfl⟩
abbrev main_call5_v0 : Ref sig .tc := ⟨.hbm, 349, rfl⟩
abbrev main_v234 : Ref sig .tc := ⟨.hbm, 350, rfl⟩
abbrev main_v235 : Ref sig .tc := ⟨.hbm, 351, rfl⟩

abbrev nD : Nat := 1
abbrev τ : Topo := Topo.v7x

variable {F : FTy → Type} [FloatOps F]

class Facts₀ : Prop where
  slices_S9x128x128_S1x128x128_0_0_0 : S9x128x128.Slices ![0, 0, 0] S1x128x128
  shapeCasts_S1x128x128_S128x128 : S1x128x128.ShapeCasts S128x128
  slices_S9x128_S1x128_0_0 : S9x128.Slices ![0, 0] S1x128
  shapeCasts_S1x128_S128 : S1x128.ShapeCasts S128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S9x128x128_S1x128x128_2_0_0 : S9x128x128.Slices ![2, 0, 0] S1x128x128
  slices_S9x128_S1x128_2_0 : S9x128.Slices ![2, 0] S1x128
  bcast_S1x128_S8000x128_0_1 : S1x128.BroadcastsInDim S8000x128 (![0, 1] : Fin 2 → Fin S8000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S400000 : S_.BroadcastsInDim S400000 (![] : Fin 0 → Fin S400000.rank)
  bcast_S400000_S400000x1_0 : S400000.BroadcastsInDim S400000x1 (![0] : Fin 1 → Fin S400000x1.rank)
  slices_S9x128x128_S1x128x128_1_0_0 : S9x128x128.Slices ![1, 0, 0] S1x128x128
  slices_S9x128_S1x128_1_0 : S9x128.Slices ![1, 0] S1x128
  bcast_S1x128_S400000x128_0_1 : S1x128.BroadcastsInDim S400000x128 (![0, 1] : Fin 2 → Fin S400000x128.rank)
  reducesTo_S400000x128_S128_d0 : S400000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128_S1x128_1_0 : S3x128.Slices ![1, 0] S1x128
  bcast_S_S400000x128 : S_.BroadcastsInDim S400000x128 (![] : Fin 0 → Fin S400000x128.rank)
  slices_S9x128x128_S1x128x128_4_0_0 : S9x128x128.Slices ![4, 0, 0] S1x128x128
  slices_S9x128_S1x128_4_0 : S9x128.Slices ![4, 0] S1x128
  bcast_S_S200000x128 : S_.BroadcastsInDim S200000x128 (![] : Fin 0 → Fin S200000x128.rank)
  slices_S9x128x128_S1x128x128_5_0_0 : S9x128x128.Slices ![5, 0, 0] S1x128x128
  slices_S9x128_S1x128_5_0 : S9x128.Slices ![5, 0] S1x128
  slices_S9x128x128_S1x128x128_3_0_0 : S9x128x128.Slices ![3, 0, 0] S1x128x128
  slices_S9x128_S1x128_3_0 : S9x128.Slices ![3, 0] S1x128
  reducesTo_S200000x128_S128_d0 : S200000x128.ReducesTo [0] S128
  slices_S3x128_S1x128_0_0 : S3x128.Slices ![0, 0] S1x128
  slices_S9x128x128_S1x128x128_6_0_0 : S9x128x128.Slices ![6, 0, 0] S1x128x128
  slices_S9x128_S1x128_6_0 : S9x128.Slices ![6, 0] S1x128
  slices_S9x128x128_S1x128x128_7_0_0 : S9x128x128.Slices ![7, 0, 0] S1x128x128
  slices_S9x128_S1x128_7_0 : S9x128.Slices ![7, 0] S1x128
  bcast_S_S8000x128 : S_.BroadcastsInDim S8000x128 (![] : Fin 0 → Fin S8000x128.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x128_0_1 : S8000x1.BroadcastsInDim S8000x128 (![0, 1] : Fin 2 → Fin S8000x128.rank)
  slices_S9x128x128_S1x128x128_8_0_0 : S9x128x128.Slices ![8, 0, 0] S1x128x128
  slices_S9x128_S1x128_8_0 : S9x128.Slices ![8, 0] S1x128
  reducesTo_S8000x128_S128_d0 : S8000x128.ReducesTo [0] S128
  slices_S3x128_S1x128_2_0 : S3x128.Slices ![2, 0] S1x128
  dot_S200000x128_S128x128_S200000x128_1_0_0_1_n_n_wf : DotDims.WF S200000x128 S128x128 S200000x128 [1] [0] [0] [1] [] []
  dot_S8000x128_S128x128_S8000x128_1_0_0_1_n_n_wf : DotDims.WF S8000x128 S128x128 S8000x128 [1] [0] [0] [1] [] []
  gather_S8000x128_S200000x1_S200000x128_1_0_n_n_0_1_1128_wf : GatherDims.WF S8000x128 S200000x1 S200000x128 [1] [0] [] [0] [] 1 ![1, 128]
  gather_S200000x128_S400000x1_S400000x128_1_0_n_n_0_1_1128_wf : GatherDims.WF S200000x128 S400000x1 S400000x128 [1] [0] [] [0] [] 1 ![1, 128]
  dot_S400000x128_S128x128_S400000x128_1_0_0_1_n_n_wf : DotDims.WF S400000x128 S128x128 S400000x128 [1] [0] [0] [1] [] []
  scatter_S200000x128_S400000x1_S400000x128_1_0_0_1_wf : ScatterDims.WF S200000x128 S400000x1 S400000x128 [1] [0] [0] 1
  gather_S200000_S400000x1_S400000_n_0_n_n_0_1_1_wf : GatherDims.WF S200000 S400000x1 S400000 [] [0] [] [0] [] 1 ![1]
  scatter_S8000x128_S400000x1_S400000x128_1_0_0_1_wf : ScatterDims.WF S8000x128 S400000x1 S400000x128 [1] [0] [0] 1
  scatter_S8000x128_S200000x1_S200000x128_1_0_0_1_wf : ScatterDims.WF S8000x128 S200000x1 S200000x128 [1] [0] [0] 1
  scatter_S8000_S200000x1_S200000_n_0_0_1_wf : ScatterDims.WF S8000 S200000x1 S200000 [] [0] [0] 1

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S8000x128_S200000x1_S200000x128_1_0_n_n_0_1_1128 : GatherDims S8000x128 S200000x1 S200000x128 where
  offsetDims := [1]
  collapsedSliceDims := [0]
  operandBatchingDims := []
  startIndicesBatchingDims := []
  startIndexMap := [0]
  indexVectorDim := 1
  sliceSizes := ![1, 128]
  wf := gather_S8000x128_S200000x1_S200000x128_1_0_n_n_0_1_1128_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def gather_S200000_S400000x1_S400000_n_0_n_n_0_1_1 : GatherDims S200000 S400000x1 S400000 where
  offsetDims := []
  collapsedSliceDims := [0]
  operandBatchingDims := []
  startIndicesBatchingDims := []
  startIndexMap := [0]
  indexVectorDim := 1
  sliceSizes := ![1]
  wf := gather_S200000_S400000x1_S400000_n_0_n_n_0_1_1_wf
def scatter_S8000x128_S400000x1_S400000x128_1_0_0_1 : ScatterDims S8000x128 S400000x1 S400000x128 where
  updateWindowDims := [1]
  insertedWindowDims := [0]
  scatterDimsToOperandDims := [0]
  indexVectorDim := 1
  wf := scatter_S8000x128_S400000x1_S400000x128_1_0_0_1_wf
def scatter_S8000x128_S200000x1_S200000x128_1_0_0_1 : ScatterDims S8000x128 S200000x1 S200000x128 where
  updateWindowDims := [1]
  insertedWindowDims := [0]
  scatterDimsToOperandDims := [0]
  indexVectorDim := 1
  wf := scatter_S8000x128_S200000x1_S200000x128_1_0_0_1_wf
def scatter_S8000_S200000x1_S200000_n_0_0_1 : ScatterDims S8000 S200000x1 S200000 where
  updateWindowDims := []
  insertedWindowDims := [0]
  scatterDimsToOperandDims := [0]
  indexVectorDim := 1
  wf := scatter_S8000_S200000x1_S200000_n_0_0_1_wf

class Facts : Prop extends Facts₀ where

variable [Facts]
-- ==== Proof.RefOps.lean ====
import proofs.«403924_j58969900974273_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg3 main_v0 (extractStridedSlice S1x128x128 ![0, 0, 0] · slices_S9x128x128_S1x128x128_0_0_0),
    reshape main_v0 main_v1 rfl shapeCasts_S1x128x128_S128x128,
    binary main_arg0 main_v1 main_v2 (fun l r => Host.dotGeneral dot_S200000x128_S128x128_S200000x128_1_0_0_1_n_n none l r),
    unary main_arg4 main_v3 (extractStridedSlice S1x128 ![0, 0] · slices_S9x128_S1x128_0_0),
    reshape main_v3 main_v4 rfl shapeCasts_S1x128_S128,
    unary main_v4 main_v5 (broadcastInDim S1x128 ![1] bcast_S128_S1x128_1),
    unary main_v5 main_v6 (broadcastInDim S200000x128 ![0, 1] bcast_S1x128_S200000x128_0_1),
    binary main_v2 main_v6 main_v7 addf,
    unary main_arg3 main_v8 (extractStridedSlice S1x128x128 ![2, 0, 0] · slices_S9x128x128_S1x128x128_2_0_0),
    reshape main_v8 main_v9 rfl shapeCasts_S1x128x128_S128x128,
    binary main_arg2 main_v9 main_v10 (fun l r => Host.dotGeneral dot_S8000x128_S128x128_S8000x128_1_0_0_1_n_n none l r),
    unary main_arg4 main_v11 (extractStridedSlice S1x128 ![2, 0] · slices_S9x128_S1x128_2_0),
    reshape main_v11 main_v12 rfl shapeCasts_S1x128_S128,
    unary main_v12 main_v13 (broadcastInDim S1x128 ![1] bcast_S128_S1x128_1),
    unary main_v13 main_v14 (broadcastInDim S8000x128 ![0, 1] bcast_S1x128_S8000x128_0_1),
    binary main_v10 main_v14 main_v15 addf,
    nullary main_c (constantI S_ 32 0#32),
    unary main_c main_v16 (broadcastInDim S200000 ![] bcast_S_S200000),
    binary main_arg9 main_v16 main_v17 (cmpi .slt),
    nullary main_c_0 (constantI S_ 32 8000#32),
    unary main_c_0 main_v18 (broadcastInDim S200000 ![] bcast_S_S200000),
    binary main_arg9 main_v18 main_v19 addi,
    ternary main_v17 main_v19 main_arg9 main_v20 select,
    unary main_v20 main_v21 (broadcastInDim S200000x1 ![0] bcast_S200000_S200000x1_0),
    binary main_v15 main_v21 main_v22 (fun x i => Host.gather gather_S8000x128_S200000x1_S200000x128_1_0_n_n_0_1_1128 x i),
    nullary main_c_1 (constantI S_ 32 0#32),
    unary main_c_1 main_v23 (broadcastInDim S400000 ![] bcast_S_S400000),
    binary main_arg7 main_v23 main_v24 (cmpi .slt),
    nullary main_c_2 (constantI S_ 32 200000#32),
    unary main_c_2 main_v25 (broadcastInDim S400000 ![] bcast_S_S400000),
    binary main_arg7 main_v25 main_v26 addi,
    ternary main_v24 main_v26 main_arg7 main_v27 select,
    unary main_v27 main_v28 (broadcastInDim S400000x1 ![0] bcast_S400000_S400000x1_0),
    binary main_v7 main_v28 main_v29 (fun x i => Host.gather gather_S200000x128_S400000x1_S400000x128_1_0_n_n_0_1_1128 x i),
    nullary main_c_3 (constantI S_ 32 0#32),
    unary main_c_3 main_v30 (broadcastInDim S400000 ![] bcast_S_S400000),
    binary main_arg8 main_v30 main_v31 (cmpi .slt),
    nullary main_c_4 (constantI S_ 32 200000#32),
    unary main_c_4 main_v32 (broadcastInDim S400000 ![] bcast_S_S400000),
    binary main_arg8 main_v32 main_v33 addi,
    ternary main_v31 main_v33 main_arg8 main_v34 select,
    unary main_v34 main_v35 (broadcastInDim S400000x1 ![0] bcast_S400000_S400000x1_0),
    binary main_v7 main_v35 main_v36 (fun x i => Host.gather gather_S200000x128_S400000x1_S400000x128_1_0_n_n_0_1_1128 x i),
    binary main_v29 main_v36 main_v37 addf,
    unary main_arg3 main_v38 (extractStridedSlice S1x128x128 ![1, 0, 0] · slices_S9x128x128_S1x128x128_1_0_0),
    reshape main_v38 main_v39 rfl shapeCasts_S1x128x128_S128x128,
    binary main_arg1 main_v39 main_v40 (fun l r => Host.dotGeneral dot_S400000x128_S128x128_S400000x128_1_0_0_1_n_n none l r),
    unary main_arg4 main_v41 (extractStridedSlice S1x128 ![1, 0] · slices_S9x128_S1x128_1_0),
    reshape main_v41 main_v42 rfl shapeCasts_S1x128_S128,
    unary main_v42 main_v43 (broadcastInDim S1x128 ![1] bcast_S128_S1x128_1),
    unary main_v43 main_v44 (broadcastInDim S400000x128 ![0, 1] bcast_S1x128_S400000x128_0_1),
    binary main_v40 main_v44 main_v45 addf,
    binary main_v37 main_v45 main_v46 addf,
    nullary main_c_5 (constantI S_ 32 0#32),
    unary main_c_5 main_v47 (broadcastInDim S400000 ![] bcast_S_S400000),
    binary main_arg7 main_v47 main_v48 (cmpi .slt),
    nullary main_c_6 (constantI S_ 32 200000#32),
    unary main_c_6 main_v49 (broadcastInDim S400000 ![] bcast_S_S400000),
    binary main_arg7 main_v49 main_v50 addi,
    ternary main_v48 main_v50 main_arg7 main_v51 select ]

set_option maxRecDepth 4096 in
theorem ops0_sub : (ops0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

set_option maxRecDepth 4096 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops1a : List (HloOp τ sig (Elt F)) :=
  [ unary main_v51 main_v52 (broadcastInDim S400000x1 ![0] bcast_S400000_S400000x1_0),
    binary main_v22 main_v52 main_v53 (fun x i => Host.gather gather_S200000x128_S400000x1_S400000x128_1_0_n_n_0_1_1128 x i),
    binary main_v46 main_v53 main_v54 addf,
    nullary main_cst (constant S_ .f32 0x00000000#32),
    binary main_v54 main_cst main_v55 (fun x v => Host.reduceAdd x v reducesTo_S400000x128_S128_d0 h_S_),
    nullary main_cst_7 (constant S_ .f32 0x48C35000#32),
    unary main_cst_7 main_v56 (broadcastInDim S128 ![] bcast_S_S128),
    binary main_v55 main_v56 main_v57 Host.divf,
    nullary main_c_8 (constantI S_ 32 0#32),
    TRef.nullary main_call0.cst (constant S_ .f32 0x00000000#32),
    TRef.binary (.of main_v54 : TRef sig ⟨S400000x128, .f32⟩) main_call0.cst main_call0.v0 (fun x v => Host.reduceAdd x v reducesTo_S400000x128_S128_d0 h_S_),
    TRef.unary main_call0.v0 main_call0.v1 (broadcastInDim S1x128 ![1] bcast_S128_S1x128_1),
    TRef.nullary main_call0.cst_0 (constant S_ .f32 0x48C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S400000x128 ![0, 1] bcast_S1x128_S400000x128_0_1),
    TRef.binary (.of main_v54 : TRef sig ⟨S400000x128, .f32⟩) main_call0.v4 main_call0.v5 subf,
    TRef.binary main_call0.v5 main_call0.v5 main_call0.v6 mulf,
    TRef.unary (.of main_c_8 : TRef sig ⟨S_, .i32⟩) main_call0.v7 (sitofp .f32),
    TRef.nullary main_call0.cst_1 (constant S_ .f32 0x48C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S400000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v57 main_v59 (broadcastInDim S1x128 ![1] bcast_S128_S1x128_1),
    unary main_v59 main_v60 (broadcastInDim S400000x128 ![0, 1] bcast_S1x128_S400000x128_0_1),
    binary main_v54 main_v60 main_v61 subf,
    nullary main_cst_9 (constant S_ .f32 0x3727C5AC#32),
    unary main_cst_9 main_v62 (broadcastInDim S128 ![] bcast_S_S128),
    binary main_v58 main_v62 main_v63 addf,
    unary main_v63 main_v64 Host.rsqrt,
    unary main_v64 main_v65 (broadcastInDim S1x128 ![1] bcast_S128_S1x128_1),
    unary main_v65 main_v66 (broadcastInDim S400000x128 ![0, 1] bcast_S1x128_S400000x128_0_1),
    binary main_v61 main_v66 main_v67 mulf,
    unary main_arg5 main_v68 (extractStridedSlice S1x128 ![1, 0] · slices_S3x128_S1x128_1_0),
    reshape main_v68 main_v69 rfl shapeCasts_S1x128_S128,
    unary main_v69 main_v70 (broadcastInDim S1x128 ![1] bcast_S128_S1x128_1),
    unary main_v70 main_v71 (broadcastInDim S400000x128 ![0, 1] bcast_S1x128_S400000x128_0_1),
    binary main_v67 main_v71 main_v72 mulf,
    unary main_arg6 main_v73 (extractStridedSlice S1x128 ![1, 0] · slices_S3x128_S1x128_1_0),
    reshape main_v73 main_v74 rfl shapeCasts_S1x128_S128,
    unary main_v74 main_v75 (broadcastInDim S1x128 ![1] bcast_S128_S1x128_1),
    unary main_v75 main_v76 (broadcastInDim S400000x128 ![0, 1] bcast_S1x128_S400000x128_0_1),
    binary main_v72 main_v76 main_v77 addf,
    TRef.nullary main_call1.cst (constant S_ .f32 0x00000000#32),
    TRef.unary main_call1.cst main_call1.v0 (broadcastInDim S400000x128 ![] bcast_S_S400000x128),
    TRef.binary (.of main_v77 : TRef sig ⟨S400000x128, .f32⟩) main_call1.v0 main_call1.v1 maximumf,
    binary main_arg1 main_v78 main_v79 addf ]

abbrev ops1b : List (HloOp τ sig (Elt F)) :=
  [ unary main_arg3 main_v80 (extractStridedSlice S1x128x128 ![4, 0, 0] · slices_S9x128x128_S1x128x128_4_0_0),
    reshape main_v80 main_v81 rfl shapeCasts_S1x128x128_S128x128,
    binary main_arg0 main_v81 main_v82 (fun l r => Host.dotGeneral dot_S200000x128_S128x128_S200000x128_1_0_0_1_n_n none l r),
    unary main_arg4 main_v83 (extractStridedSlice S1x128 ![4, 0] · slices_S9x128_S1x128_4_0),
    reshape main_v83 main_v84 rfl shapeCasts_S1x128_S128,
    unary main_v84 main_v85 (broadcastInDim S1x128 ![1] bcast_S128_S1x128_1),
    unary main_v85 main_v86 (broadcastInDim S200000x128 ![0, 1] bcast_S1x128_S200000x128_0_1),
    binary main_v82 main_v86 main_v87 addf,
    unary main_v79 main_v88 (Host.negf),
    unary main_v88 main_v89 (Host.exp),
    nullary main_cst_10 (constant S_ .f32 0x3F800000#32),
    unary main_cst_10 main_v90 (broadcastInDim S400000x128 ![] bcast_S_S400000x128),
    binary main_v90 main_v89 main_v91 addf,
    nullary main_cst_11 (constant S_ .f32 0x3F800000#32),
    unary main_cst_11 main_v92 (broadcastInDim S400000x128 ![] bcast_S_S400000x128),
    binary main_v92 main_v91 main_v93 Host.divf,
    nullary main_c_12 (constantI S_ 32 0#32),
    unary main_c_12 main_v94 (broadcastInDim S400000 ![] bcast_S_S400000),
    binary main_arg7 main_v94 main_v95 (cmpi .slt),
    nullary main_c_13 (constantI S_ 32 200000#32),
    unary main_c_13 main_v96 (broadcastInDim S400000 ![] bcast_S_S400000),
    binary main_arg7 main_v96 main_v97 addi,
    ternary main_v95 main_v97 main_arg7 main_v98 select,
    unary main_v98 main_v99 (broadcastInDim S400000x1 ![0] bcast_S400000_S400000x1_0),
    binary main_v87 main_v99 main_v100 (fun x i => Host.gather gather_S200000x128_S400000x1_S400000x128_1_0_n_n_0_1_1128 x i),
    binary main_v93 main_v100 main_v101 mulf,
    nullary main_cst_14 (constant S_ .f32 0x00000000#32),
    unary main_cst_14 main_v102 (broadcastInDim S200000x128 ![] bcast_S_S200000x128) ]

abbrev ops1 : List (HloOp τ sig (Elt F)) := ops1a ++ ops1b

set_option maxRecDepth 4096 in
theorem ops1_sub : (ops1 : List (HloOp τ sig (Elt F))).Forall fun op => op.bufs ⊆ tcRefs τ sig :=
  ⟨unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub ..⟩

set_option maxRecDepth 4096 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops2 : List (HloOp τ sig (Elt F)) :=
  [ unary main_arg8 main_v103 (broadcastInDim S400000x1 ![0] bcast_S400000_S400000x1_0),
    ternary main_v102 main_v103 main_v101 main_v104 (fun x i u => Host.scatterAdd scatter_S200000x128_S400000x1_S400000x128_1_0_0_1 x i u),
    nullary main_cst_15 (constant S_ .f32 0x00000000#32),
    unary main_cst_15 main_v105 (broadcastInDim S200000x128 ![] bcast_S_S200000x128),
    unary main_arg8 main_v106 (broadcastInDim S400000x1 ![0] bcast_S400000_S400000x1_0),
    ternary main_v105 main_v106 main_v93 main_v107 (fun x i u => Host.scatterAdd scatter_S200000x128_S400000x1_S400000x128_1_0_0_1 x i u),
    nullary main_cst_16 (constant S_ .f32 0x358637BD#32),
    unary main_cst_16 main_v108 (broadcastInDim S200000x128 ![] bcast_S_S200000x128),
    binary main_v107 main_v108 main_v109 addf,
    binary main_v104 main_v109 main_v110 Host.divf,
    unary main_arg3 main_v111 (extractStridedSlice S1x128x128 ![5, 0, 0] · slices_S9x128x128_S1x128x128_5_0_0),
    reshape main_v111 main_v112 rfl shapeCasts_S1x128x128_S128x128,
    binary main_arg2 main_v112 main_v113 (fun l r => Host.dotGeneral dot_S8000x128_S128x128_S8000x128_1_0_0_1_n_n none l r),
    unary main_arg4 main_v114 (extractStridedSlice S1x128 ![5, 0] · slices_S9x128_S1x128_5_0),
    reshape main_v114 main_v115 rfl shapeCasts_S1x128_S128,
    unary main_v115 main_v116 (broadcastInDim S1x128 ![1] bcast_S128_S1x128_1),
    unary main_v116 main_v117 (broadcastInDim S8000x128 ![0, 1] bcast_S1x128_S8000x128_0_1),
    binary main_v113 main_v117 main_v118 addf,
    nullary main_c_17 (constantI S_ 32 0#32),
    unary main_c_17 main_v119 (broadcastInDim S200000 ![] bcast_S_S200000),
    binary main_arg9 main_v119 main_v120 (cmpi .slt),
    nullary main_c_18 (constantI S_ 32 8000#32),
    unary main_c_18 main_v121 (broadcastInDim S200000 ![] bcast_S_S200000),
    binary main_arg9 main_v121 main_v122 addi,
    ternary main_v120 main_v122 main_arg9 main_v123 select,
    unary main_v123 main_v124 (broadcastInDim S200000x1 ![0] bcast_S200000_S200000x1_0),
    binary main_v118 main_v124 main_v125 (fun x i => Host.gather gather_S8000x128_S200000x1_S200000x128_1_0_n_n_0_1_1128 x i),
    unary main_arg3 main_v126 (extractStridedSlice S1x128x128 ![3, 0, 0] · slices_S9x128x128_S1x128x128_3_0_0),
    reshape main_v126 main_v127 rfl shapeCasts_S1x128x128_S128x128,
    binary main_arg0 main_v127 main_v128 (fun l r => Host.dotGeneral dot_S200000x128_S128x128_S200000x128_1_0_0_1_n_n none l r),
    unary main_arg4 main_v129 (extractStridedSlice S1x128 ![3, 0] · slices_S9x128_S1x128_3_0),
    reshape main_v129 main_v130 rfl shapeCasts_S1x128_S128,
    unary main_v130 main_v131 (broadcastInDim S1x128 ![1] bcast_S128_S1x128_1),
    unary main_v131 main_v132 (broadcastInDim S200000x128 ![0, 1] bcast_S1x128_S200000x128_0_1),
    binary main_v128 main_v132 main_v133 addf,
    binary main_v133 main_v110 main_v134 addf,
    binary main_v134 main_v125 main_v135 addf,
    nullary main_cst_19 (constant S_ .f32 0x00000000#32),
    binary main_v135 main_cst_19 main_v136 (fun x v => Host.reduceAdd x v reducesTo_S200000x128_S128_d0 h_S_),
    nullary main_cst_20 (constant S_ .f32 0x48435000#32),
    unary main_cst_20 main_v137 (broadcastInDim S128 ![] bcast_S_S128),
    binary main_v136 main_v137 main_v138 Host.divf,
    nullary main_c_21 (constantI S_ 32 0#32),
    TRef.nullary main_call2.cst (constant S_ .f32 0x00000000#32),
    TRef.binary (.of main_v135 : TRef sig ⟨S200000x128, .f32⟩) main_call2.cst main_call2.v0 (fun x v => Host.reduceAdd x v reducesTo_S200000x128_S128_d0 h_S_),
    TRef.unary main_call2.v0 main_call2.v1 (broadcastInDim S1x128 ![1] bcast_S128_S1x128_1),
    TRef.nullary main_call2.cst_0 (constant S_ .f32 0x48435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S200000x128 ![0, 1] bcast_S1x128_S200000x128_0_1),
    TRef.binary (.of main_v135 : TRef sig ⟨S200000x128, .f32⟩) main_call2.v4 main_call2.v5 subf,
    TRef.binary main_call2.v5 main_call2.v5 main_call2.v6 mulf,
    TRef.unary (.of main_c_21 : TRef sig ⟨S_, .i32⟩) main_call2.v7 (sitofp .f32),
    TRef.nullary main_call2.cst_1 (constant S_ .f32 0x48435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S200000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v138 main_v140 (broadcastInDim S1x128 ![1] bcast_S128_S1x128_1),
    unary main_v140 main_v141 (broadcastInDim S200000x128 ![0, 1] bcast_S1x128_S200000x128_0_1),
    binary main_v135 main_v141 main_v142 subf,
    nullary main_cst_22 (constant S_ .f32 0x3727C5AC#32),
    unary main_cst_22 main_v143 (broadcastInDim S128 ![] bcast_S_S128),
    binary main_v139 main_v143 main_v144 addf,
    unary main_v144 main_v145 Host.rsqrt,
    unary main_v145 main_v146 (broadcastInDim S1x128 ![1] bcast_S128_S1x128_1),
    unary main_v146 main_v147 (broadcastInDim S200000x128 ![0, 1] bcast_S1x128_S200000x128_0_1),
    binary main_v142 main_v147 main_v148 mulf,
    unary main_arg5 main_v149 (extractStridedSlice S1x128 ![0, 0] · slices_S3x128_S1x128_0_0),
    reshape main_v149 main_v150 rfl shapeCasts_S1x128_S128,
    unary main_v150 main_v151 (broadcastInDim S1x128 ![1] bcast_S128_S1x128_1),
    unary main_v151 main_v152 (broadcastInDim S200000x128 ![0, 1] bcast_S1x128_S200000x128_0_1),
    binary main_v148 main_v152 main_v153 mulf,
    unary main_arg6 main_v154 (extractStridedSlice S1x128 ![0, 0] · slices_S3x128_S1x128_0_0) ]

set_option maxRecDepth 4096 in
theorem ops2_sub : (ops2 : List (HloOp τ sig (Elt F))).Forall fun op => op.bufs ⊆ tcRefs τ sig :=
  ⟨unary_bufs_sub .., ternary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub ..⟩

set_option maxRecDepth 4096 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops3a : List (HloOp τ sig (Elt F)) :=
  [ reshape main_v154 main_v155 rfl shapeCasts_S1x128_S128,
    unary main_v155 main_v156 (broadcastInDim S1x128 ![1] bcast_S128_S1x128_1),
    unary main_v156 main_v157 (broadcastInDim S200000x128 ![0, 1] bcast_S1x128_S200000x128_0_1),
    binary main_v153 main_v157 main_v158 addf,
    TRef.nullary main_call3.cst (constant S_ .f32 0x00000000#32),
    TRef.unary main_call3.cst main_call3.v0 (broadcastInDim S200000x128 ![] bcast_S_S200000x128),
    TRef.binary (.of main_v158 : TRef sig ⟨S200000x128, .f32⟩) main_call3.v0 main_call3.v1 maximumf,
    binary main_arg0 main_v159 main_v160 addf ]

abbrev ops3b : List (HloOp τ sig (Elt F)) :=
  [ unary main_arg3 main_v161 (extractStridedSlice S1x128x128 ![6, 0, 0] · slices_S9x128x128_S1x128x128_6_0_0),
    reshape main_v161 main_v162 rfl shapeCasts_S1x128x128_S128x128,
    binary main_v160 main_v162 main_v163 (fun l r => Host.dotGeneral dot_S200000x128_S128x128_S200000x128_1_0_0_1_n_n none l r),
    unary main_arg4 main_v164 (extractStridedSlice S1x128 ![6, 0] · slices_S9x128_S1x128_6_0),
    reshape main_v164 main_v165 rfl shapeCasts_S1x128_S128,
    unary main_v165 main_v166 (broadcastInDim S1x128 ![1] bcast_S128_S1x128_1),
    unary main_v166 main_v167 (broadcastInDim S200000x128 ![0, 1] bcast_S1x128_S200000x128_0_1),
    binary main_v163 main_v167 main_v168 addf,
    unary main_arg3 main_v169 (extractStridedSlice S1x128x128 ![7, 0, 0] · slices_S9x128x128_S1x128x128_7_0_0),
    reshape main_v169 main_v170 rfl shapeCasts_S1x128x128_S128x128,
    binary main_v79 main_v170 main_v171 (fun l r => Host.dotGeneral dot_S400000x128_S128x128_S400000x128_1_0_0_1_n_n none l r),
    unary main_arg4 main_v172 (extractStridedSlice S1x128 ![7, 0] · slices_S9x128_S1x128_7_0),
    reshape main_v172 main_v173 rfl shapeCasts_S1x128_S128,
    unary main_v173 main_v174 (broadcastInDim S1x128 ![1] bcast_S128_S1x128_1),
    unary main_v174 main_v175 (broadcastInDim S400000x128 ![0, 1] bcast_S1x128_S400000x128_0_1),
    binary main_v171 main_v175 main_v176 addf,
    nullary main_c_23 (constantI S_ 32 0#32),
    unary main_c_23 main_v177 (broadcastInDim S400000 ![] bcast_S_S400000),
    binary main_arg8 main_v177 main_v178 (cmpi .slt),
    nullary main_c_24 (constantI S_ 32 200000#32),
    unary main_c_24 main_v179 (broadcastInDim S400000 ![] bcast_S_S400000),
    binary main_arg8 main_v179 main_v180 addi,
    ternary main_v178 main_v180 main_arg8 main_v181 select,
    unary main_v181 main_v182 (broadcastInDim S400000x1 ![0] bcast_S400000_S400000x1_0),
    binary main_arg9 main_v182 main_v183 (fun x i => Host.gather gather_S200000_S400000x1_S400000_n_0_n_n_0_1_1 x i),
    nullary main_cst_25 (constant S_ .f32 0x00000000#32),
    unary main_cst_25 main_v184 (broadcastInDim S8000x128 ![] bcast_S_S8000x128),
    unary main_v183 main_v185 (broadcastInDim S400000x1 ![0] bcast_S400000_S400000x1_0),
    ternary main_v184 main_v185 main_v176 main_v186 (fun x i u => Host.scatterAdd scatter_S8000x128_S400000x1_S400000x128_1_0_0_1 x i u),
    nullary main_cst_26 (constant S_ .f32 0x48C35000#32),
    unary main_cst_26 main_v187 (broadcastInDim S8000x128 ![] bcast_S_S8000x128),
    binary main_v186 main_v187 main_v188 Host.divf,
    nullary main_cst_27 (constant S_ .f32 0x00000000#32),
    unary main_cst_27 main_v189 (broadcastInDim S8000x128 ![] bcast_S_S8000x128),
    unary main_arg9 main_v190 (broadcastInDim S200000x1 ![0] bcast_S200000_S200000x1_0),
    ternary main_v189 main_v190 main_v168 main_v191 (fun x i u => Host.scatterAdd scatter_S8000x128_S200000x1_S200000x128_1_0_0_1 x i u),
    nullary main_cst_28 (constant S_ .f32 0x3F800000#32),
    unary main_cst_28 main_v192 (broadcastInDim S200000 ![] bcast_S_S200000),
    nullary main_cst_29 (constant S_ .f32 0x00000000#32),
    unary main_cst_29 main_v193 (broadcastInDim S8000 ![] bcast_S_S8000),
    unary main_arg9 main_v194 (broadcastInDim S200000x1 ![0] bcast_S200000_S200000x1_0),
    ternary main_v193 main_v194 main_v192 main_v195 (fun x i u => Host.scatterAdd scatter_S8000_S200000x1_S200000_n_0_0_1 x i u),
    nullary main_cst_30 (constant S_ .f32 0x3F800000#32),
    unary main_cst_30 main_v196 (broadcastInDim S8000 ![] bcast_S_S8000),
    binary main_v195 main_v196 main_v197 maximumf,
    unary main_v197 main_v198 (broadcastInDim S8000x1 ![0] bcast_S8000_S8000x1_0),
    unary main_v198 main_v199 (broadcastInDim S8000x128 ![0, 1] bcast_S8000x1_S8000x128_0_1),
    binary main_v191 main_v199 main_v200 Host.divf,
    binary main_v200 main_v188 main_v201 addf,
    unary main_arg3 main_v202 (extractStridedSlice S1x128x128 ![8, 0, 0] · slices_S9x128x128_S1x128x128_8_0_0),
    reshape main_v202 main_v203 rfl shapeCasts_S1x128x128_S128x128,
    binary main_arg2 main_v203 main_v204 (fun l r => Host.dotGeneral dot_S8000x128_S128x128_S8000x128_1_0_0_1_n_n none l r),
    unary main_arg4 main_v205 (extractStridedSlice S1x128 ![8, 0] · slices_S9x128_S1x128_8_0),
    reshape main_v205 main_v206 rfl shapeCasts_S1x128_S128 ]

abbrev ops3 : List (HloOp τ sig (Elt F)) := ops3a ++ ops3b

set_option maxRecDepth 4096 in
theorem ops3_sub : (ops3 : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., binary_bufs_sub .., unary_bufs_sub .., reshape_bufs_sub ..⟩

set_option maxRecDepth 4096 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops4 : List (HloOp τ sig (Elt F)) :=
  [ unary main_v206 main_v207 (broadcastInDim S1x128 ![1] bcast_S128_S1x128_1),
    unary main_v207 main_v208 (broadcastInDim S8000x128 ![0, 1] bcast_S1x128_S8000x128_0_1),
    binary main_v204 main_v208 main_v209 addf,
    binary main_v201 main_v209 main_v210 addf,
    nullary main_cst_31 (constant S_ .f32 0x00000000#32),
    binary main_v210 main_cst_31 main_v211 (fun x v => Host.reduceAdd x v reducesTo_S8000x128_S128_d0 h_S_),
    nullary main_cst_32 (constant S_ .f32 0x45FA0000#32),
    unary main_cst_32 main_v212 (broadcastInDim S128 ![] bcast_S_S128),
    binary main_v211 main_v212 main_v213 Host.divf,
    nullary main_c_33 (constantI S_ 32 0#32),
    TRef.nullary main_call4.cst (constant S_ .f32 0x00000000#32),
    TRef.binary (.of main_v210 : TRef sig ⟨S8000x128, .f32⟩) main_call4.cst main_call4.v0 (fun x v => Host.reduceAdd x v reducesTo_S8000x128_S128_d0 h_S_),
    TRef.unary main_call4.v0 main_call4.v1 (broadcastInDim S1x128 ![1] bcast_S128_S1x128_1),
    TRef.nullary main_call4.cst_0 (constant S_ .f32 0x45FA0000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S8000x128 ![0, 1] bcast_S1x128_S8000x128_0_1),
    TRef.binary (.of main_v210 : TRef sig ⟨S8000x128, .f32⟩) main_call4.v4 main_call4.v5 subf,
    TRef.binary main_call4.v5 main_call4.v5 main_call4.v6 mulf,
    TRef.unary (.of main_c_33 : TRef sig ⟨S_, .i32⟩) main_call4.v7 (sitofp .f32),
    TRef.nullary main_call4.cst_1 (constant S_ .f32 0x45FA0000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S8000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v213 main_v215 (broadcastInDim S1x128 ![1] bcast_S128_S1x128_1),
    unary main_v215 main_v216 (broadcastInDim S8000x128 ![0, 1] bcast_S1x128_S8000x128_0_1),
    binary main_v210 main_v216 main_v217 subf,
    nullary main_cst_34 (constant S_ .f32 0x3727C5AC#32),
    unary main_cst_34 main_v218 (broadcastInDim S128 ![] bcast_S_S128),
    binary main_v214 main_v218 main_v219 addf,
    unary main_v219 main_v220 Host.rsqrt,
    unary main_v220 main_v221 (broadcastInDim S1x128 ![1] bcast_S128_S1x128_1),
    unary main_v221 main_v222 (broadcastInDim S8000x128 ![0, 1] bcast_S1x128_S8000x128_0_1),
    binary main_v217 main_v222 main_v223 mulf,
    unary main_arg5 main_v224 (extractStridedSlice S1x128 ![2, 0] · slices_S3x128_S1x128_2_0),
    reshape main_v224 main_v225 rfl shapeCasts_S1x128_S128,
    unary main_v225 main_v226 (broadcastInDim S1x128 ![1] bcast_S128_S1x128_1),
    unary main_v226 main_v227 (broadcastInDim S8000x128 ![0, 1] bcast_S1x128_S8000x128_0_1),
    binary main_v223 main_v227 main_v228 mulf,
    unary main_arg6 main_v229 (extractStridedSlice S1x128 ![2, 0] · slices_S3x128_S1x128_2_0),
    reshape main_v229 main_v230 rfl shapeCasts_S1x128_S128,
    unary main_v230 main_v231 (broadcastInDim S1x128 ![1] bcast_S128_S1x128_1),
    unary main_v231 main_v232 (broadcastInDim S8000x128 ![0, 1] bcast_S1x128_S8000x128_0_1),
    binary main_v228 main_v232 main_v233 addf,
    TRef.nullary main_call5.cst (constant S_ .f32 0x00000000#32),
    TRef.unary main_call5.cst main_call5.v0 (broadcastInDim S8000x128 ![] bcast_S_S8000x128),
    TRef.binary (.of main_v233 : TRef sig ⟨S8000x128, .f32⟩) main_call5.v0 main_call5.v1 maximumf,
    binary main_arg2 main_v234 main_v235 addf ]

set_option maxRecDepth 4096 in
theorem ops4_sub : (ops4 : List (HloOp τ sig (Elt F))).Forall fun op => op.bufs ⊆ tcRefs τ sig :=
  ⟨unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

set_option maxRecDepth 4096 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.HandRun

end
-- ==== Proof.RefRun.lean ====
import proofs.«403924_j58969900974273_2_alg».proof.Proof.RefOps
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ ops1 ++ ops2 ++ ops3 ++ ops4

set_option maxRecDepth 8192 in
theorem main_part0_eq (c : Dev nD) : main_part0 (F := F) c = seq ops0 := rfl

set_option maxRecDepth 8192 in
theorem main_part1_eq (c : Dev nD) : main_part1 (F := F) c = seq ops1 := rfl

set_option maxRecDepth 8192 in
theorem main_part2_eq (c : Dev nD) : main_part2 (F := F) c = seq ops2 := rfl

set_option maxRecDepth 8192 in
theorem main_part3_eq (c : Dev nD) : main_part3 (F := F) c = seq ops3 := rfl

set_option maxRecDepth 8192 in
theorem main_part4_eq (c : Dev nD) : main_part4 (F := F) c = seq ops4 := rfl

theorem main_eq (c : Dev nD) : main (F := F) c = seq ops := by
  simp only [main, main_part0_eq, main_part1_eq, main_part2_eq, main_part3_eq, main_part4_eq, seq_append,
    bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨List.forall_append.2 ⟨List.forall_append.2 ⟨List.forall_append.2 ⟨ops0_sub, ops1_sub⟩,
    ops2_sub⟩, ops3_sub⟩, ops4_sub⟩

theorem ops_fresh : ∀ op ∈ (ops : List (HloOp τ sig (Elt F))), op.fresh = ∅ :=
  List.forall_iff_forall_mem.1 <| List.forall_append.2 ⟨List.forall_append.2 ⟨List.forall_append.2
    ⟨List.forall_append.2 ⟨ops0_fresh, ops1_fresh⟩, ops2_fresh⟩, ops3_fresh⟩, ops4_fresh⟩

theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

abbrev X0 (m : (ℓ : Loc nD τ sig) → Buf (Elt F) ℓ) (d : Dev nD) : Valuation τ sig (Elt F) := StableHlo.launchContents m d

abbrev X1 (m : (ℓ : Loc nD τ sig) → Buf (Elt F) ℓ) (d : Dev nD) : Valuation τ sig (Elt F) := StableHlo.after ops0 (X0 m d)

abbrev X2 (m : (ℓ : Loc nD τ sig) → Buf (Elt F) ℓ) (d : Dev nD) : Valuation τ sig (Elt F) := StableHlo.after ops1 (X1 m d)

abbrev X3 (m : (ℓ : Loc nD τ sig) → Buf (Elt F) ℓ) (d : Dev nD) : Valuation τ sig (Elt F) := StableHlo.after ops2 (X2 m d)

abbrev X4 (m : (ℓ : Loc nD τ sig) → Buf (Elt F) ℓ) (d : Dev nD) : Valuation τ sig (Elt F) := StableHlo.after ops3 (X3 m d)

abbrev X5 (m : (ℓ : Loc nD τ sig) → Buf (Elt F) ℓ) (d : Dev nD) : Valuation τ sig (Elt F) := StableHlo.after ops4 (X4 m d)

theorem after_ops (m : (ℓ : Loc nD τ sig) → Buf (Elt F) ℓ) (d : Dev nD) :
    StableHlo.after ops (X0 m d) = X5 m d := by
  simp only [ops, X5, X4, X3, X2, X1, StableHlo.after_append]

end Cert.ReferenceIdeal.HandRun

end
-- ==== Proof.SpecReal.lean ====
import Mathlib.Data.Real.Basic
import Mathlib.Algebra.BigOperators.Ring.Finset
import Mathlib.Algebra.Order.BigOperators.Ring.Finset
import Mathlib.Algebra.Order.BigOperators.Group.Finset
import Mathlib.Tactic.Ring
import Mathlib.Tactic.FieldSimp
import Mathlib.Tactic.Positivity

noncomputable section

namespace Cert.Spec

open Finset

section Stats
variable {n D : ℕ}

def colMean (x : Fin n → Fin D → ℝ) (c : Fin D) : ℝ := (∑ r, x r c) / n

def varDev (x : Fin n → Fin D → ℝ) (c : Fin D) : ℝ :=
  (∑ r, (x r c - colMean x c) * (x r c - colMean x c)) / n

def varMom (x : Fin n → Fin D → ℝ) (c : Fin D) : ℝ :=
  (∑ r, x r c * x r c) / n - colMean x c * colMean x c

theorem varDev_nonneg (x : Fin n → Fin D → ℝ) (c : Fin D) : 0 ≤ varDev x c :=
  div_nonneg (sum_nonneg fun r _ => mul_self_nonneg _) (Nat.cast_nonneg n)

theorem varMom_eq_varDev (hn : 0 < n) (x : Fin n → Fin D → ℝ) (c : Fin D) : varMom x c = varDev x c := by
  have hn' : (n : ℝ) ≠ 0 := Nat.cast_ne_zero.mpr hn.ne'
  unfold varMom varDev colMean
  simp only [sub_mul, mul_sub, sum_sub_distrib, ← sum_mul, ← mul_sum, sum_const, card_univ, Fintype.card_fin, nsmul_eq_mul]
  field_simp
  ring

theorem max_varMom (hn : 0 < n) (x : Fin n → Fin D → ℝ) (c : Fin D) : max (varMom x c) 0 = varDev x c := by
  rw [varMom_eq_varDev hn]; exact max_eq_left (varDev_nonneg x c)

end Stats

theorem masked_sum_affine {m D : ℕ} (p : Fin m → Prop) [DecidablePred p] (x : Fin m → Fin D → ℝ) (w : Fin D → ℝ) (b : ℝ) :
    (∑ k, if p k then (∑ j, x k j * w j) + b else 0)
      = (∑ j, (∑ k, if p k then x k j else 0) * w j) + (∑ k, if p k then (1 : ℝ) else 0) * b := by
  have h : ∀ k, (if p k then (∑ j, x k j * w j) + b else 0)
      = (∑ j, (if p k then x k j else 0) * w j) + (if p k then (1 : ℝ) else 0) * b := by
    intro k; split_ifs <;> simp
  simp only [h, sum_add_distrib, ← sum_mul]
  congr 1
  rw [sum_comm]
  exact sum_congr rfl fun j _ => (sum_mul _ _ _).symm

section Layer

abbrev NA : ℕ := 200000
abbrev NB : ℕ := 400000
abbrev NG : ℕ := 8000
abbrev D : ℕ := 128

variable (rsq ex : ℝ → ℝ) (ε ε' : ℝ)
variable (h : Fin NA → Fin D → ℝ) (e : Fin NB → Fin D → ℝ) (u : Fin NG → Fin D → ℝ)
variable (W : Fin 9 → Fin D → Fin D → ℝ) (b : Fin 9 → Fin D → ℝ) (γ β : Fin 3 → Fin D → ℝ)
variable (src dst : Fin NB → Fin NA) (mol : Fin NA → Fin NG)

def lin {n : ℕ} (i : Fin 9) (x : Fin n → Fin D → ℝ) (r : Fin n) (c : Fin D) : ℝ := (∑ k, x r k * W i k c) + b i c

def bn {n : ℕ} (v : Fin D → ℝ) (i : Fin 3) (x : Fin n → Fin D → ℝ) (r : Fin n) (c : Fin D) : ℝ :=
  (x r c - colMean x c) * rsq (v c + ε) * γ i c + β i c

def relu (t : ℝ) : ℝ := max t 0
def sigm (t : ℝ) : ℝ := 1 / (1 + ex (-t))

def e1R (k : Fin NB) (c : Fin D) : ℝ :=
  ((lin W b 0 h (src k) c + lin W b 0 h (dst k) c) + lin W b 1 e k c) + lin W b 2 u (mol (src k)) c
def e1K (k : Fin NB) (c : Fin D) : ℝ :=
  ((lin W b 1 e k c + lin W b 0 h (src k) c) + lin W b 0 h (dst k) c) + lin W b 2 u (mol (src k)) c
def eOutR (k : Fin NB) (c : Fin D) : ℝ :=
  e k c + relu (bn rsq ε γ β (varDev (e1R h e u W b src dst mol)) 1 (e1R h e u W b src dst mol) k c)
def eOutK (k : Fin NB) (c : Fin D) : ℝ :=
  e k c + relu (bn rsq ε γ β (fun c => max (varMom (e1K h e u W b src dst mol) c) 0) 1 (e1K h e u W b src dst mol) k c)

def hhOf (eo : Fin NB → Fin D → ℝ) (a : Fin NA) (c : Fin D) : ℝ :=
  (lin W b 3 h a c
    + (∑ k, if dst k = a then sigm ex (eo k c) * lin W b 4 h (src k) c else 0)
      / ((∑ k, if dst k = a then sigm ex (eo k c) else 0) + ε'))
  + lin W b 5 u (mol a) c
def hOutR (a : Fin NA) (c : Fin D) : ℝ :=
  let hh := hhOf ex ε' h u W b src dst mol (eOutR rsq ε h e u W b γ β src dst mol)
  h a c + relu (bn rsq ε γ β (varDev hh) 0 hh a c)
def hOutK (a : Fin NA) (c : Fin D) : ℝ :=
  let hh := hhOf ex ε' h u W b src dst mol (eOutK rsq ε h e u W b γ β src dst mol)
  h a c + relu (bn rsq ε γ β (fun c => max (varMom hh c) 0) 0 hh a c)

def cnt (g : Fin NG) : ℝ := ∑ a, if mol a = g then (1 : ℝ) else 0
def uuR (g : Fin NG) (c : Fin D) : ℝ :=
  let ho := hOutR rsq ex ε ε' h e u W b γ β src dst mol
  let eo := eOutR rsq ε h e u W b γ β src dst mol
  ((∑ a, if mol a = g then lin W b 6 ho a c else 0) / max (cnt mol g) 1
    + (∑ k, if mol (dst k) = g then lin W b 7 eo k c else 0) / (NB : ℝ))
  + lin W b 8 u g c
def uuK (g : Fin NG) (c : Fin D) : ℝ :=
  let ho := hOutK rsq ex ε ε' h e u W b γ β src dst mol
  let eo := eOutK rsq ε h e u W b γ β src dst mol
  (((∑ j, (∑ a, if mol a = g then ho a j else 0) * W 6 j c) + cnt mol g * b 6 c) / max (cnt mol g) 1
    + ((∑ j, (∑ k, if mol (dst k) = g then eo k j else 0) * W 7 j c)
        + (∑ k, if mol (dst k) = g then (1 : ℝ) else 0) * b 7 c) / (NB : ℝ))
  + lin W b 8 u g c
def uOutR (g : Fin NG) (c : Fin D) : ℝ :=
  let uu := uuR rsq ex ε ε' h e u W b γ β src dst mol
  u g c + relu (bn rsq ε γ β (varDev uu) 2 uu g c)
def uOutK (g : Fin NG) (c : Fin D) : ℝ :=
  let uu := uuK rsq ex ε ε' h e u W b γ β src dst mol
  u g c + relu (bn rsq ε γ β (fun c => max (varMom uu c) 0) 2 uu g c)

theorem e1K_eq : e1K h e u W b src dst mol = e1R h e u W b src dst mol := by
  funext k c; unfold e1K e1R; ring

theorem eOutK_eq : eOutK rsq ε h e u W b γ β src dst mol = eOutR rsq ε h e u W b γ β src dst mol := by
  funext k c; unfold eOutK eOutR
  rw [e1K_eq]
  simp only [max_varMom (by norm_num : 0 < NB)]

theorem hOutK_eq : hOutK rsq ex ε ε' h e u W b γ β src dst mol = hOutR rsq ex ε ε' h e u W b γ β src dst mol := by
  funext a c; unfold hOutK hOutR
  rw [eOutK_eq]
  simp only [max_varMom (by norm_num : 0 < NA)]

theorem uuK_eq : uuK rsq ex ε ε' h e u W b γ β src dst mol = uuR rsq ex ε ε' h e u W b γ β src dst mol := by
  funext g c; unfold uuK uuR
  rw [hOutK_eq, eOutK_eq]
  simp only [lin, masked_sum_affine, cnt]

theorem uOutK_eq : uOutK rsq ex ε ε' h e u W b γ β src dst mol = uOutR rsq ex ε ε' h e u W b γ β src dst mol := by
  funext g c; unfold uOutK uOutR
  rw [uuK_eq]
  simp only [max_varMom (by norm_num : 0 < NG)]

end Layer

end Cert.Spec

end
-- ==== Proof.Args.lean ====
import Idealize.ShloMosaic.PureOps.Ideal
import Idealize.ShloMosaic.Lib.ValueIdx
import proofs.«403924_j58969900974273_2_alg».proof.Proof.SpecReal

noncomputable section

namespace Cert.Args

open Idealize.ShloMosaic Idealize.ShloMosaic.ValueIdx Cert.Spec

structure RealArgs where
  h : Fin NA → Fin D → ℝ
  e : Fin NB → Fin D → ℝ
  u : Fin NG → Fin D → ℝ
  W : Fin 9 → Fin D → Fin D → ℝ
  b : Fin 9 → Fin D → ℝ
  γ : Fin 3 → Fin D → ℝ
  β : Fin 3 → Fin D → ℝ
  src : Fin NB → Fin NA
  dst : Fin NB → Fin NA
  mol : Fin NA → Fin NG

def coe2 {n d : ℕ} (x : Fin n → Fin d → ℝ) : (⟨2, ![n, d]⟩ : Shape).Idx → EReal := fun j => ((x (j 0) (j 1) : ℝ) : EReal)

def coe3 {k n d : ℕ} (x : Fin k → Fin n → Fin d → ℝ) : (⟨3, ![k, n, d]⟩ : Shape).Idx → EReal :=
  fun j => ((x (j 0) (j 1) (j 2) : ℝ) : EReal)

def idx1 {n N : ℕ} (f : Fin n → Fin N) : (⟨1, ![n]⟩ : Shape).Idx → BitVec 32 := fun j => BitVec.ofNat 32 (f (j 0)).val

structure Holds (R : RealArgs)
    (a0 : (⟨2, ![NA, D]⟩ : Shape).Idx → EReal) (a1 : (⟨2, ![NB, D]⟩ : Shape).Idx → EReal) (a2 : (⟨2, ![NG, D]⟩ : Shape).Idx → EReal)
    (a3 : (⟨3, ![9, D, D]⟩ : Shape).Idx → EReal) (a4 : (⟨2, ![9, D]⟩ : Shape).Idx → EReal)
    (a5 a6 : (⟨2, ![3, D]⟩ : Shape).Idx → EReal)
    (a7 a8 : (⟨1, ![NB]⟩ : Shape).Idx → BitVec 32) (a9 : (⟨1, ![NA]⟩ : Shape).Idx → BitVec 32) : Prop where
  h0 : a0 = coe2 R.h
  h1 : a1 = coe2 R.e
  h2 : a2 = coe2 R.u
  h3 : a3 = coe3 R.W
  h4 : a4 = coe2 R.b
  h5 : a5 = coe2 R.γ
  h6 : a6 = coe2 R.β
  h7 : a7 = idx1 R.src
  h8 : a8 = idx1 R.dst
  h9 : a9 = idx1 R.mol

end Cert.Args

end
-- ==== Proof.PreFacts.lean ====
import Idealize.ShloMosaic.Lib.ReduceAll
import Idealize.ShloMosaic.Lib.ValueIdx
import proofs.«403924_j58969900974273_2_alg».proof.Pre_finite_inputs
import proofs.«403924_j58969900974273_2_alg».proof.Proof.Gen.Pre_finite_inputs
import proofs.«403924_j58969900974273_2_alg».proof.Proof.Args

noncomputable section

namespace Cert.PreFacts

open Idealize.ShloMosaic Idealize.ShloMosaic.ValueIdx Cert.Spec Cert.Pre_finite_inputs

instance : Subsingleton S_.Idx := ⟨fun _ _ => funext fun d => d.elim0⟩

theorem inf_eq_top : Ideal.ofBits .f32 0x7F800000#32 = (⊤ : EReal) := by simp [Ideal.ofBits, Ideal.ieee]

theorem real_of_abs_lt_inf (x : EReal)
    (h : Ideal.cmp .olt (max x (-x)) (Ideal.ofBits .f32 0x7F800000#32) = 1#1) : x = ((x.toReal : ℝ) : EReal) := by
  rw [inf_eq_top] at h
  induction x using EReal.rec with
  | bot => simp [Ideal.cmp] at h
  | top => simp [Ideal.cmp] at h
  | coe r => rfl

theorem toNat_lt_of_signed (w : BitVec 32) (N : ℕ) (hN : N < 2 ^ 31) (h0 : IntOp.cmpi .sge w 0#32 = 1#1)
    (h1 : IntOp.cmpi .slt w (BitVec.ofNat 32 N) = 1#1) : w.toNat < N := by
  rw [IntOp.cmpi_sge, show (0#32 : BitVec 32).toInt = 0 from by decide, BitVec.toInt_pos_iff] at h0
  rw [IntOp.cmpi_slt, BitVec.toInt_eq_toNat_of_lt h0, BitVec.toInt_eq_toNat_of_lt (by rw [BitVec.toNat_ofNat]; omega),
    BitVec.toNat_ofNat] at h1
  omega

section Arrays
variable {s : Shape} {axes : List (Fin s.rank)}

theorem real_of_all (hb : S_.BroadcastsInDim s (![] : Fin 0 → Fin s.rank)) (hr : s.ReducesTo axes S_) (hu : 0 < S_.numel)
    (x : FVec Ideal s .f32)
    (e : Host.reduce IntOp.andi (cmpf .olt (Host.absf x) (broadcastInDim s ![] hb (constant S_ .f32 0x7F800000#32)))
      (constantI S_ 1 1#1) hr hu ix0 = 1#1) (i : s.Idx) : x i = (((x i).toReal : ℝ) : EReal) :=
  real_of_abs_lt_inf (x i) (Host.reduce_andi_all _ _ hr hu ix0 e i)

theorem range_of_all (N : ℕ) (hN : N < 2 ^ 31) (hb : S_.BroadcastsInDim s (![] : Fin 0 → Fin s.rank)) (hr : s.ReducesTo axes S_)
    (hu : 0 < S_.numel) (x : IVec s 32)
    (e0 : Host.reduce IntOp.andi (cmpi .sge x (broadcastInDim s ![] hb (constantI S_ 32 0#32))) (constantI S_ 1 1#1) hr hu ix0 = 1#1)
    (e1 : Host.reduce IntOp.andi (cmpi .slt x (broadcastInDim s ![] hb (constantI S_ 32 (BitVec.ofNat 32 N)))) (constantI S_ 1 1#1)
      hr hu ix0 = 1#1) (i : s.Idx) : (x i).toNat < N :=
  toNat_lt_of_signed (x i) N hN (Host.reduce_andi_all _ _ hr hu ix0 e0 i) (Host.reduce_andi_all _ _ hr hu ix0 e1 i)

end Arrays

theorem eq_coe2 {n d : ℕ} (a : (⟨2, ![n, d]⟩ : Shape).Idx → EReal) (h : ∀ i, a i = (((a i).toReal : ℝ) : EReal)) :
    a = Cert.Args.coe2 (fun r c => (a (ix2 r c)).toReal) := by
  funext j
  exact (h j).trans (congrArg (fun t => (((a t).toReal : ℝ) : EReal)) (eq_ix2 j))

theorem eq_coe3 {k n d : ℕ} (a : (⟨3, ![k, n, d]⟩ : Shape).Idx → EReal) (h : ∀ i, a i = (((a i).toReal : ℝ) : EReal)) :
    a = Cert.Args.coe3 (fun p r c => (a (ix3 p r c)).toReal) := by
  funext j
  exact (h j).trans (congrArg (fun t => (((a t).toReal : ℝ) : EReal)) (eq_ix3 j))

theorem eq_idx1 {n N : ℕ} (a : (⟨1, ![n]⟩ : Shape).Idx → BitVec 32) (h : ∀ i, (a i).toNat < N) :
    a = Cert.Args.idx1 (fun k => (⟨(a (ix1 k)).toNat, h (ix1 k)⟩ : Fin N)) := by
  funext j
  have hj : a j = BitVec.ofNat 32 (a j).toNat :=
    BitVec.eq_of_toNat_eq (by rw [BitVec.toNat_ofNat, Nat.mod_eq_of_lt (a j).isLt])
  exact hj.trans (congrArg (fun t => BitVec.ofNat 32 (a t).toNat) (eq_ix1 j))

theorem of_pre_of_facts [Cert.Pre_finite_inputs.Facts] (a0 : FVec Ideal S200000x128 .f32) (a1 : FVec Ideal S400000x128 .f32) (a2 : FVec Ideal S8000x128 .f32)
    (a3 : FVec Ideal S9x128x128 .f32) (a4 : FVec Ideal S9x128 .f32) (a5 a6 : FVec Ideal S3x128 .f32)
    (a7 a8 : IVec S400000 32) (a9 : IVec S200000 32)
    (hpre : Cert.Pre_finite_inputs.fn (F := Ideal) a0 a1 a2 a3 a4 a5 a6 a7 a8 a9 = fun _ => 1#1) :
    ∃ R : Cert.Args.RealArgs, Cert.Args.Holds R a0 a1 a2 a3 a4 a5 a6 a7 a8 a9 := by
  have e := congrFun hpre ix0
  dsimp only [fn, fn_part1, fn_part2, fn_part3] at e
  simp only [andi, IntOp.andi_eq_one] at e
  obtain ⟨⟨⟨⟨⟨⟨⟨⟨⟨⟨⟨⟨f0, f1⟩, f2⟩, f3⟩, f4⟩, f5⟩, f6⟩, s0⟩, s1⟩, d0⟩, d1⟩, m0⟩, m1⟩ := e
  have r0 := real_of_all _ _ _ a0 f0
  have r1 := real_of_all _ _ _ a1 f1
  have r2 := real_of_all _ _ _ a2 f2
  have r3 := real_of_all _ _ _ a3 f3
  have r4 := real_of_all _ _ _ a4 f4
  have r5 := real_of_all _ _ _ a5 f5
  have r6 := real_of_all _ _ _ a6 f6
  have hs := range_of_all 200000 (by norm_num) _ _ _ a7 s0 s1
  have hd := range_of_all 200000 (by norm_num) _ _ _ a8 d0 d1
  have hm := range_of_all 8000 (by norm_num) _ _ _ a9 m0 m1
  exact ⟨{
      h := fun r c => (a0 (ix2 r c)).toReal
      e := fun r c => (a1 (ix2 r c)).toReal
      u := fun r c => (a2 (ix2 r c)).toReal
      W := fun p r c => (a3 (ix3 p r c)).toReal
      b := fun r c => (a4 (ix2 r c)).toReal
      γ := fun r c => (a5 (ix2 r c)).toReal
      β := fun r c => (a6 (ix2 r c)).toReal
      src := fun k => ⟨(a7 (ix1 k)).toNat, hs (ix1 k)⟩
      dst := fun k => ⟨(a8 (ix1 k)).toNat, hd (ix1 k)⟩
      mol := fun k => ⟨(a9 (ix1 k)).toNat, hm (ix1 k)⟩ },
    ⟨eq_coe2 a0 r0, eq_coe2 a1 r1, eq_coe2 a2 r2, eq_coe3 a3 r3, eq_coe2 a4 r4, eq_coe2 a5 r5, eq_coe2 a6 r6,
      eq_idx1 a7 hs, eq_idx1 a8 hd, eq_idx1 a9 hm⟩⟩

end Cert.PreFacts

end
-- ==== Proof.CoeReal.lean ====
import Idealize.ShloMosaic.PureOps.Ideal

noncomputable section

namespace Cert.Coe

open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_8000 : Ideal.ofBits .f32 0x45FA0000#32 = ((8000 : ℝ) : EReal) := by
  simp [Ideal.ofBits, Ideal.ieee, -EReal.coe_mul]; norm_num

theorem ofBits_200000 : Ideal.ofBits .f32 0x48435000#32 = ((200000 : ℝ) : EReal) := by
  simp [Ideal.ofBits, Ideal.ieee, -EReal.coe_mul]; norm_num

theorem ofBits_400000 : Ideal.ofBits .f32 0x48C35000#32 = ((400000 : ℝ) : EReal) := by
  simp [Ideal.ofBits, Ideal.ieee, -EReal.coe_mul]; norm_num

def epsVar : ℝ := (Ideal.ofBits .f32 0x3727C5AC#32).toReal

def epsGate : ℝ := (Ideal.ofBits .f32 0x358637BD#32).toReal

private theorem pos_word_aux (w : BitVec 32) (r : ℝ) (hr : 0 < r) (h : Ideal.ofBits .f32 w = (r : EReal)) :
    Ideal.ofBits .f32 w = (((Ideal.ofBits .f32 w).toReal : ℝ) : EReal) ∧ 0 < (Ideal.ofBits .f32 w).toReal := by
  rw [h, EReal.toReal_coe]; exact ⟨rfl, hr⟩

theorem ofBits_epsVar : Ideal.ofBits .f32 0x3727C5AC#32 = ((epsVar : ℝ) : EReal) ∧ 0 < epsVar := by
  refine pos_word_aux _ ((1 : ℝ) * ((2 ^ 23 + 2606508 : ℕ) : ℝ) * (2 : ℝ) ^ ((110 : ℤ) - 127 - 23)) (by positivity) ?_
  simp [Ideal.ofBits, Ideal.ieee, -EReal.coe_mul]

theorem ofBits_epsGate : Ideal.ofBits .f32 0x358637BD#32 = ((epsGate : ℝ) : EReal) ∧ 0 < epsGate := by
  refine pos_word_aux _ ((1 : ℝ) * ((2 ^ 23 + 407485 : ℕ) : ℝ) * (2 : ℝ) ^ ((107 : ℤ) - 127 - 23)) (by positivity) ?_
  simp [Ideal.ofBits, Ideal.ieee, -EReal.coe_mul]

theorem div_coe_coe (x : ℝ) {y : ℝ} (hy : y ≠ 0) : Ideal.div (x : EReal) (y : EReal) = ((x / y : ℝ) : EReal) := by
  rw [Ideal.div_coe hy, ← EReal.coe_mul, mul_one_div]

def rsq (x : ℝ) : ℝ := (Real.sqrt x)⁻¹

theorem rsqrt_coe {x : ℝ} (hx : 0 < x) : Ideal.rsqrt (x : EReal) = ((rsq x : ℝ) : EReal) := by
  show (if x < 0 then (⊥ : EReal) else if x = 0 then ⊤ else (((Real.sqrt x)⁻¹ : ℝ) : EReal)) = _
  rw [if_neg (not_lt.mpr hx.le), if_neg hx.ne']; rfl

theorem exp_coe (x : ℝ) : Ideal.exp (x : EReal) = ((Real.exp x : ℝ) : EReal) := rfl

theorem neg_coe (x : ℝ) : -(x : EReal) = ((-x : ℝ) : EReal) := (EReal.coe_neg x).symm

theorem max_coe (x y : ℝ) : max (x : EReal) (y : EReal) = ((max x y : ℝ) : EReal) :=
  (EReal.coe_strictMono.monotone.map_max).symm

theorem logistic_coe (x : ℝ) : Ideal.logistic (x : EReal) = ((1 / (1 + Real.exp (-x)) : ℝ) : EReal) := by
  unfold Ideal.logistic
  rw [neg_coe, exp_coe, show (1 : EReal) = ((1 : ℝ) : EReal) from rfl, ← EReal.coe_add]
  exact div_coe_coe 1 (by positivity)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Coe

end
-- ==== Proof.KStages.lean ====
import proofs.«403924_j58969900974273_2_alg».proof.KernelIdeal
import proofs.«403924_j58969900974273_2_alg».proof.Proof.Args
import proofs.«403924_j58969900974273_2_alg».proof.Proof.CoeReal

noncomputable section

namespace Cert.KStages

open Cert.KernelIdeal Idealize.ShloMosaic Idealize.ShloMosaic.TcCoe Idealize.SL.Sem Cert.Spec Cert.Args

def coe1 {d : ℕ} (x : Fin d → ℝ) : (⟨1, ![d]⟩ : Shape).Idx → EReal := fun j => ((x (j 0) : ℝ) : EReal)

variable (R : RealArgs)

abbrev linR {n : ℕ} (i : Fin 9) (x : Fin n → Fin D → ℝ) : Fin n → Fin D → ℝ := lin R.W R.b i x
abbrev E1 : Fin NB → Fin D → ℝ := e1K R.h R.e R.u R.W R.b R.src R.dst R.mol
abbrev EO : Fin NB → Fin D → ℝ := eOutK Coe.rsq Coe.epsVar R.h R.e R.u R.W R.b R.γ R.β R.src R.dst R.mol
abbrev SG : Fin NB → Fin D → ℝ := fun k c => sigm Real.exp (EO R k c)
abbrev HO : Fin NA → Fin D → ℝ := hOutK Coe.rsq Real.exp Coe.epsVar Coe.epsGate R.h R.e R.u R.W R.b R.γ R.β R.src R.dst R.mol
abbrev UO : Fin NG → Fin D → ℝ := uOutK Coe.rsq Real.exp Coe.epsVar Coe.epsGate R.h R.e R.u R.W R.b R.γ R.β R.src R.dst R.mol

abbrev Val : Type := Valuation τ sig (Elt Ideal)

variable (X : Val)

def ArgsAt : Prop :=
  Holds R (X (Proc.devRef .tc main_arg0)) (X (Proc.devRef .tc main_arg1)) (X (Proc.devRef .tc main_arg2)) (X (Proc.devRef .tc main_arg3))
    (X (Proc.devRef .tc main_arg4)) (X (Proc.devRef .tc main_arg5)) (X (Proc.devRef .tc main_arg6)) (X (Proc.devRef .tc main_arg7))
    (X (Proc.devRef .tc main_arg8)) (X (Proc.devRef .tc main_arg9))

def SlicesAt : Prop :=
  X (Proc.devRef .tc main_v33) = coe2 (R.W 3) ∧ X (Proc.devRef .tc main_v35) = coe1 (R.b 3)
  ∧ X (Proc.devRef .tc main_v37) = coe2 (R.W 6) ∧ X (Proc.devRef .tc main_v39) = coe1 (R.b 6)
  ∧ X (Proc.devRef .tc main_v41) = coe2 (R.W 7) ∧ X (Proc.devRef .tc main_v43) = coe1 (R.b 7)

def At3 : Prop :=
  ArgsAt R X ∧ SlicesAt R X
  ∧ X (Proc.devRef .tc main_v29) = coe2 (R.W 1) ∧ X (Proc.devRef .tc main_v31) = coe1 (R.b 1)
  ∧ X (Proc.devRef .tc main_v44_0) = coe2 (linR R 0 R.h)
  ∧ X (Proc.devRef .tc main_v44_1) = coe2 (linR R 4 R.h)
  ∧ X (Proc.devRef .tc main_v45_0) = coe2 (linR R 2 R.u)
  ∧ X (Proc.devRef .tc main_v45_1) = coe2 (linR R 5 R.u)
  ∧ X (Proc.devRef .tc main_v45_2) = coe2 (linR R 8 R.u)

def At9 : Prop :=
  ArgsAt R X ∧ SlicesAt R X
  ∧ X (Proc.devRef .tc main_v44_1) = coe2 (linR R 4 R.h)
  ∧ X (Proc.devRef .tc main_v45_1) = coe2 (linR R 5 R.u)
  ∧ X (Proc.devRef .tc main_v45_2) = coe2 (linR R 8 R.u)
  ∧ X (Proc.devRef .tc main_v52_0) = coe2 (E1 R)
  ∧ X (Proc.devRef .tc main_v52_1) = coe2 (fun (_ : Fin 1) c => ∑ k, E1 R k c)
  ∧ X (Proc.devRef .tc main_v52_2) = coe2 (fun (_ : Fin 1) c => ∑ k, E1 R k c * E1 R k c)

def At13 : Prop :=
  ArgsAt R X ∧ SlicesAt R X
  ∧ X (Proc.devRef .tc main_v45_1) = coe2 (linR R 5 R.u)
  ∧ X (Proc.devRef .tc main_v45_2) = coe2 (linR R 8 R.u)
  ∧ X (Proc.devRef .tc main_v62_0) = coe2 (EO R)
  ∧ X (Proc.devRef .tc main_v62_1) = coe2 (SG R)
  ∧ X (Proc.devRef .tc main_v62_2) = coe2 (fun k c => SG R k c * linR R 4 R.h (R.src k) c)

def At19 : Prop :=
  ArgsAt R X ∧ SlicesAt R X
  ∧ X (Proc.devRef .tc main_v45_2) = coe2 (linR R 8 R.u)
  ∧ X (Proc.devRef .tc main_v62_0) = coe2 (EO R)
  ∧ X (Proc.devRef .tc main_v81) = coe2 (HO R)

def At25 : Prop :=
  X (Proc.devRef .tc main_v81) = coe2 (HO R)
  ∧ X (Proc.devRef .tc main_v62_0) = coe2 (EO R)
  ∧ X (Proc.devRef .tc main_v127) = coe2 (UO R)

end Cert.KStages

end
-- ==== Proof.RStages.lean ====
import proofs.«403924_j58969900974273_2_alg».proof.Proof.Args
import proofs.«403924_j58969900974273_2_alg».proof.Proof.CoeReal

noncomputable section

namespace Cert.RStages

open Cert.Spec Cert.Args

variable (R : RealArgs)

abbrev EOr : Fin NB → Fin D → ℝ := eOutR Coe.rsq Coe.epsVar R.h R.e R.u R.W R.b R.γ R.β R.src R.dst R.mol
abbrev HOr : Fin NA → Fin D → ℝ := hOutR Coe.rsq Real.exp Coe.epsVar Coe.epsGate R.h R.e R.u R.W R.b R.γ R.β R.src R.dst R.mol
abbrev UOr : Fin NG → Fin D → ℝ := uOutR Coe.rsq Real.exp Coe.epsVar Coe.epsGate R.h R.e R.u R.W R.b R.γ R.β R.src R.dst R.mol

end Cert.RStages

end
-- ==== Proof.Assembly.lean ====
import proofs.«403924_j58969900974273_2_alg».proof.Defs
import proofs.«403924_j58969900974273_2_alg».proof.Proof.Gen.Kernel.Frame
import proofs.«403924_j58969900974273_2_alg».proof.Proof.Gen.KernelIdeal.Frame
import proofs.«403924_j58969900974273_2_alg».proof.Proof.Gen.ReferenceIdeal
import proofs.«403924_j58969900974273_2_alg».proof.Proof.Gen.Pre_finite_inputs
import proofs.«403924_j58969900974273_2_alg».proof.Proof.KernelRun
import proofs.«403924_j58969900974273_2_alg».proof.Proof.RefRun
import proofs.«403924_j58969900974273_2_alg».proof.Proof.PreFacts
import proofs.«403924_j58969900974273_2_alg».proof.Proof.KStages
import proofs.«403924_j58969900974273_2_alg».proof.Proof.RStages

noncomputable section

namespace Cert.Proof.Assembly

open Idealize.ShloMosaic Idealize.ShloMosaic.TcCoe Idealize.SL.Sem Cert.Args

section
open Cert.KernelIdeal

abbrev HoldsK (R : RealArgs) (m : (ℓ : Loc nD τ sig) → Buf (Elt Ideal) ℓ) (c : Dev nD) : Prop :=
  Holds R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

def KernelValue : Prop :=
  ∀ (m : (ℓ : Loc nD τ sig) → Buf (Elt Ideal) ℓ) (ρ : Dev nD → PrngReg) (c : Dev nD) (R : RealArgs),
    HoldsK R m c → Cert.KStages.At25 R (Gen.W25 (F := Ideal) m ρ c)

end

section
open Cert.ReferenceIdeal

abbrev HoldsR (R : RealArgs) (m : (ℓ : Loc nD τ sig) → Buf (Elt Ideal) ℓ) (d : Dev nD) : Prop :=
  Holds R (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9))

def RefValue : Prop :=
  ∀ (m : (ℓ : Loc nD τ sig) → Buf (Elt Ideal) ℓ) (d : Dev nD) (R : RealArgs), HoldsR R m d →
    HandRun.X5 m d (Proc.devRef .tc main_v160) = coe2 (Cert.RStages.HOr R)
    ∧ HandRun.X5 m d (Proc.devRef .tc main_v79) = coe2 (Cert.RStages.EOr R)
    ∧ HandRun.X5 m d (Proc.devRef .tc main_v235) = coe2 (Cert.RStages.UOr R)

def RefKept : Prop :=
  ∀ (m : (ℓ : Loc nD τ sig) → Buf (Elt Ideal) ℓ) (d : Dev nD),
    HandRun.X5 m d (Proc.devRef .tc main_arg0) = m ((d.tc : Thread nD τ).loc main_arg0)
    ∧ HandRun.X5 m d (Proc.devRef .tc main_arg1) = m ((d.tc : Thread nD τ).loc main_arg1)
    ∧ HandRun.X5 m d (Proc.devRef .tc main_arg2) = m ((d.tc : Thread nD τ).loc main_arg2)
    ∧ HandRun.X5 m d (Proc.devRef .tc main_arg3) = m ((d.tc : Thread nD τ).loc main_arg3)
    ∧ HandRun.X5 m d (Proc.devRef .tc main_arg4) = m ((d.tc : Thread nD τ).loc main_arg4)
    ∧ HandRun.X5 m d (Proc.devRef .tc main_arg5) = m ((d.tc : Thread nD τ).loc main_arg5)
    ∧ HandRun.X5 m d (Proc.devRef .tc main_arg6) = m ((d.tc : Thread nD τ).loc main_arg6)
    ∧ HandRun.X5 m d (Proc.devRef .tc main_arg7) = m ((d.tc : Thread nD τ).loc main_arg7)
    ∧ HandRun.X5 m d (Proc.devRef .tc main_arg8) = m ((d.tc : Thread nD τ).loc main_arg8)
    ∧ HandRun.X5 m d (Proc.devRef .tc main_arg9) = m ((d.tc : Thread nD τ).loc main_arg9)

end

variable (hK : KernelValue) (hV : RefValue) (hKept : RefKept)

include hKept in
theorem frame_ref [hF : Cert.ReferenceIdeal.Facts] [hP : Cert.Pre_finite_inputs.Facts] : Cert.frame_ReferenceIdeal := by
  intro m ρ _
  refine (θ_run (Cert.ReferenceIdeal.defs (F := Ideal)) _ _).mono (fun r h c => ?_) (Cert.ReferenceIdeal.HandRun.run (F := Ideal) m ρ)
  have hk := hKept m c
  simp only [← Cert.ReferenceIdeal.HandRun.after_ops] at hk
  obtain ⟨k0, k1, k2, k3, k4, k5, k6, k7, k8, k9⟩ := hk
  exact ⟨(h c _).trans k0, (h c _).trans k1, (h c _).trans k2, (h c _).trans k3, (h c _).trans k4, (h c _).trans k5,
    (h c _).trans k6, (h c _).trans k7, (h c _).trans k8, (h c _).trans k9⟩

include hK hV hKept in
theorem algebraic [hKI : Cert.KernelIdeal.Facts] [hRI : Cert.ReferenceIdeal.Facts] [hP : Cert.Pre_finite_inputs.Facts] :
    Cert.algebraic_KernelIdeal_ReferenceIdeal := by
  intro m ρ m' ρ' hpre hagree
  have hex : ∀ c : Dev Cert.KernelIdeal.nD, ∃ R : RealArgs, HoldsK R m c :=
    fun c => Cert.PreFacts.of_pre_of_facts _ _ _ _ _ _ _ _ _ _ (hpre c)
  choose Rof hRof using hex
  refine ⟨fun c => coe2 (Cert.KStages.HO (Rof c)), fun c => coe2 (Cert.KStages.EO (Rof c)), fun c => coe2 (Cert.KStages.UO (Rof c)), ?_, ?_⟩
  · refine (θ_run (Cert.KernelIdeal.defs (F := Ideal)) _ _).mono (fun r h c => ?_) (Cert.KernelIdeal.RunVals.run (F := Ideal) m ρ)
    obtain ⟨r0, r1, r2, rest⟩ := h c
    obtain ⟨v0, v1, v2⟩ := hK m ρ c (Rof c) (hRof c)
    exact ⟨r0.trans v0, r1.trans v1, r2.trans v2, rest⟩
  · refine (θ_run (Cert.ReferenceIdeal.defs (F := Ideal)) _ _).mono (fun r h c => ?_) (Cert.ReferenceIdeal.HandRun.run (F := Ideal) m' ρ')
    obtain ⟨a0, a1, a2, a3, a4, a5, a6, a7, a8, a9⟩ := hagree c
    have hR' : HoldsR (Rof c) m' c := by
      unfold HoldsR; rw [a0, a1, a2, a3, a4, a5, a6, a7, a8, a9]; exact hRof c
    obtain ⟨w0, w1, w2⟩ := hV m' c (Rof c) hR'
    have hk := hKept m' c
    simp only [← Cert.ReferenceIdeal.HandRun.after_ops] at hk w0 w1 w2
    obtain ⟨k0, k1, k2, k3, k4, k5, k6, k7, k8, k9⟩ := hk
    refine ⟨(h c _).trans (w0.trans ?_), (h c _).trans (w1.trans ?_), (h c _).trans (w2.trans ?_),
      (h c _).trans k0, (h c _).trans k1, (h c _).trans k2, (h c _).trans k3, (h c _).trans k4, (h c _).trans k5,
      (h c _).trans k6, (h c _).trans k7, (h c _).trans k8, (h c _).trans k9⟩
    · exact congrArg coe2 (Cert.Spec.hOutK_eq _ _ _ _ _ _ _ _ _ _ _ _ _ _).symm
    · exact congrArg coe2 (Cert.Spec.eOutK_eq _ _ _ _ _ _ _ _ _ _ _ _).symm
    · exact congrArg coe2 (Cert.Spec.uOutK_eq _ _ _ _ _ _ _ _ _ _ _ _ _ _).symm

include hK hV hKept in
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ref hKept,
    trivial,
    algebraic hK hV hKept⟩

end Cert.Proof.Assembly

end
-- ==== Proof.KShape.lean ====
import Idealize.ShloMosaic.PureOps.Ideal
import Idealize.ShloMosaic.Lib.ValueIdx

noncomputable section

namespace Cert.KShape

open Idealize.ShloMosaic Idealize.ShloMosaic.ValueIdx

abbrev Arr2 (n d : ℕ) : Type := (⟨2, ![n, d]⟩ : Shape).Idx → EReal

abbrev Arr3 (k n d : ℕ) : Type := (⟨3, ![k, n, d]⟩ : Shape).Idx → EReal

abbrev rowOf {n d : ℕ} (j : (⟨2, ![n, d]⟩ : Shape).Idx) : Fin n := j 0
abbrev colOf {n d : ℕ} (j : (⟨2, ![n, d]⟩ : Shape).Idx) : Fin d := j 1

abbrev zeroW : EReal := Ideal.ofBits .f32 0x00000000#32
abbrev epsVarW : EReal := Ideal.ofBits .f32 0x3727C5AC#32
abbrev epsGateW : EReal := Ideal.ofBits .f32 0x358637BD#32

def affine {n k : ℕ} (x : Arr2 n 128) (W : Arr3 k 128 128) (b : Arr2 k 128) (i : Fin k) : Arr2 n 128 :=
  fun j => (∑ q : Fin 128, x (ix2 (rowOf j) q) * W (ix3 i q (colOf j))) + b (ix2 i (colOf j))

def colSum {n : ℕ} (x : Arr2 n 128) : Arr2 1 128 := fun j => ∑ r : Fin n, x (ix2 r (colOf j))

def colSumSq {n : ℕ} (x : Arr2 n 128) : Arr2 1 128 := fun j => ∑ r : Fin n, x (ix2 r (colOf j)) * x (ix2 r (colOf j))

def bondPre {n : ℕ} (e a₁ a₂ a₃ : Arr2 n 128) (W : Arr3 1 128 128) (b : Arr2 1 128) : Arr2 n 128 :=
  fun j => ((affine e W b 0 j + a₁ j) + a₂ j) + a₃ j

def atomPre {n : ℕ} (h : Arr2 n 128) (W : Arr3 1 128 128) (b : Arr2 1 128) (num den h₂ : Arr2 n 128) : Arr2 n 128 :=
  fun j => (affine h W b 0 j + Ideal.div (num j) (den j + epsGateW)) + h₂ j

def molPre {n : ℕ} (a b c : Arr2 n 128) : Arr2 n 128 := fun j => (a j + b j) + c j

def normClip {n : ℕ} (x : Arr2 n 128) (mean var γ β : Arr2 1 128) : Arr2 n 128 :=
  fun j => max ((x j - mean (ix2 0 (colOf j))) * Ideal.rsqrt (max (var (ix2 0 (colOf j))) zeroW + epsVarW)
                  * γ (ix2 0 (colOf j)) + β (ix2 0 (colOf j))) zeroW

def normRes {n : ℕ} (x : Arr2 n 128) (mean var γ β : Arr2 1 128) (resid : Arr2 n 128) : Arr2 n 128 :=
  fun j => resid j + normClip x mean var γ β j

def gate {n : ℕ} (x : Arr2 n 128) : Arr2 n 128 := fun j => Ideal.logistic (x j)

def had {n : ℕ} (x y : Arr2 n 128) : Arr2 n 128 := fun j => x j * y j

end Cert.KShape

end
-- ==== Proof.RegionIface.lean ====
import proofs.«403924_j58969900974273_2_alg».proof.Proof.Gen.KernelIdeal.Frame
import proofs.«403924_j58969900974273_2_alg».proof.Proof.KShape

noncomputable section

namespace Cert.KernelIdeal.RegionVal

open Cert.KernelIdeal Cert.KernelIdeal.Gen Idealize.ShloMosaic Idealize.ShloMosaic.TcCoe Idealize.SL.Sem

abbrev Vals : Type := (c : Dev nD) → (b : Ref sig .tc) → Buf (Elt Ideal) ((c : Thread nD τ).loc b)

set_option maxHeartbeats 8000000 in

structure RegionFacts : Prop where
  r0_out3 : ∀ (V : Vals) (c : Dev nD),
      (dat0 (F := Ideal) V c).arrAt 3 cfg0.N = KShape.affine (V c (Pipeline.arrRef spec0 0)) (V c (Pipeline.arrRef spec0 1)) (V c (Pipeline.arrRef spec0 2)) 0
  r0_out4 : ∀ (V : Vals) (c : Dev nD),
      (dat0 (F := Ideal) V c).arrAt 4 cfg0.N = KShape.affine (V c (Pipeline.arrRef spec0 0)) (V c (Pipeline.arrRef spec0 1)) (V c (Pipeline.arrRef spec0 2)) 1
  r1_out3 : ∀ (V : Vals) (c : Dev nD),
      (dat1 (F := Ideal) V c).arrAt 3 cfg1.N = KShape.affine (V c (Pipeline.arrRef spec1 0)) (V c (Pipeline.arrRef spec1 1)) (V c (Pipeline.arrRef spec1 2)) 0
  r1_out4 : ∀ (V : Vals) (c : Dev nD),
      (dat1 (F := Ideal) V c).arrAt 4 cfg1.N = KShape.affine (V c (Pipeline.arrRef spec1 0)) (V c (Pipeline.arrRef spec1 1)) (V c (Pipeline.arrRef spec1 2)) 1
  r1_out5 : ∀ (V : Vals) (c : Dev nD),
      (dat1 (F := Ideal) V c).arrAt 5 cfg1.N = KShape.affine (V c (Pipeline.arrRef spec1 0)) (V c (Pipeline.arrRef spec1 1)) (V c (Pipeline.arrRef spec1 2)) 2
  r2_out6 : ∀ (V : Vals) (c : Dev nD),
      (dat2 (F := Ideal) V c).arrAt 6 cfg2.N = KShape.bondPre (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
  r2_out7 : ∀ (V : Vals) (c : Dev nD),
      (dat2 (F := Ideal) V c).arrAt 7 cfg2.N = KShape.colSum (KShape.bondPre (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))
  r2_out8 : ∀ (V : Vals) (c : Dev nD),
      (dat2 (F := Ideal) V c).arrAt 8 cfg2.N = KShape.colSumSq (KShape.bondPre (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))
  r3_out7 : ∀ (V : Vals) (c : Dev nD),
      (dat3 (F := Ideal) V c).arrAt 7 cfg3.N = KShape.normRes (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
  r3_out8 : ∀ (V : Vals) (c : Dev nD),
      (dat3 (F := Ideal) V c).arrAt 8 cfg3.N = KShape.gate (KShape.normRes (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)))
  r3_out9 : ∀ (V : Vals) (c : Dev nD),
      (dat3 (F := Ideal) V c).arrAt 9 cfg3.N = KShape.had (KShape.gate (KShape.normRes (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)))) (V c (Pipeline.arrRef spec3 6))
  r4_out6 : ∀ (V : Vals) (c : Dev nD),
      (dat4 (F := Ideal) V c).arrAt 6 cfg4.N = KShape.atomPre (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))
  r4_out7 : ∀ (V : Vals) (c : Dev nD),
      (dat4 (F := Ideal) V c).arrAt 7 cfg4.N = KShape.colSum (KShape.atomPre (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))
  r4_out8 : ∀ (V : Vals) (c : Dev nD),
      (dat4 (F := Ideal) V c).arrAt 8 cfg4.N = KShape.colSumSq (KShape.atomPre (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))
  r5_out6 : ∀ (V : Vals) (c : Dev nD),
      (dat5 (F := Ideal) V c).arrAt 6 cfg5.N = KShape.normRes (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))
  r6_out3 : ∀ (V : Vals) (c : Dev nD),
      (dat6 (F := Ideal) V c).arrAt 3 cfg6.N = KShape.molPre (V c (Pipeline.arrRef spec6 0)) (V c (Pipeline.arrRef spec6 1)) (V c (Pipeline.arrRef spec6 2))
  r6_out4 : ∀ (V : Vals) (c : Dev nD),
      (dat6 (F := Ideal) V c).arrAt 4 cfg6.N = KShape.colSum (KShape.molPre (V c (Pipeline.arrRef spec6 0)) (V c (Pipeline.arrRef spec6 1)) (V c (Pipeline.arrRef spec6 2)))
  r6_out5 : ∀ (V : Vals) (c : Dev nD),
      (dat6 (F := Ideal) V c).arrAt 5 cfg6.N = KShape.colSumSq (KShape.molPre (V c (Pipeline.arrRef spec6 0)) (V c (Pipeline.arrRef spec6 1)) (V c (Pipeline.arrRef spec6 2)))
  r7_out6 : ∀ (V : Vals) (c : Dev nD),
      (dat7 (F := Ideal) V c).arrAt 6 cfg7.N = KShape.normRes (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))

end Cert.KernelIdeal.RegionVal

end
-- ==== Proof.RegionAffine.lean ====
import proofs.«403924_j58969900974273_2_alg».proof.Proof.KShape
import Idealize.ShloMosaic.Lib.ValueLayout
import Idealize.ShloMosaic.Lib.Pipeline.Value
import Idealize.ShloMosaic.Lib.Pipeline.FrameBody
import Idealize.ShloMosaic.Lib.StackMember
import Idealize.ShloMosaic.PureOps.Ideal.Laws

noncomputable section

namespace Cert.KernelIdeal.RegionVal.Aff

open Idealize.ShloMosaic Idealize.ShloMosaic.TcCoe Idealize.ShloMosaic.ValueIdx Idealize.SL.Sem

-- rows times the one matrix, plus the one bias row repeated down the rows, is the affine map of the three operands
theorem pay_eq {m : ℕ} (d : DotDims ⟨2, ![m, 128]⟩ ⟨2, ![128, 128]⟩ ⟨2, ![m, 128]⟩) (hd : d = DotDims.plain m 128 128)
    (h1 : (⟨3, ![1, 128, 128]⟩ : Shape).ShapeCasts ⟨2, ![128, 128]⟩) (h2 : (⟨2, ![1, 128]⟩ : Shape).ShapeCasts ⟨1, ![128]⟩)
    (h3 : (⟨1, ![128]⟩ : Shape).ShapeCasts ⟨2, ![1, 128]⟩) (hb : (⟨2, ![1, 128]⟩ : Shape).Broadcasts ⟨2, ![m, 128]⟩)
    (hl : FTy.bf16.bits < FTy.f32.bits)
    (v0 : Vec Ideal ⟨2, ![m, 128]⟩ .f32) (v2 : Vec Ideal ⟨3, ![1, 128, 128]⟩ .f32) (v6 : Vec Ideal ⟨2, ![1, 128]⟩ .f32) :
    addf (matmul d none (truncf .bf16 v0 hl) (truncf .bf16 (shapeCast _ v2 h1) hl) (constant (F := Ideal) _ .f32 0x00000000#32))
        (broadcastTo _ (shapeCast _ (shapeCast _ v6 h2) h3) hb) = KShape.affine v0 v2 v6 0 := by
  subst hd
  funext y
  obtain ⟨p, q, rfl⟩ : ∃ p q, y = ix2 p q := ⟨_, _, eq_ix2 y⟩
  refine congrArg₂ (· + ·) ?_ ((broadcastTo_1b_ab_apply _ hb p q).trans
    ((shapeCast_a_1a_apply _ h3 0 q).trans (shapeCast_1a_a_apply v6 h2 q)))
  refine ((congrFun (matmul_zero_eq_dotGeneral _ none _ _) _).trans (StackMember.dotGeneral_plain_apply none _ _ p q)).trans ?_
  exact Finset.sum_congr rfl fun k _ => congrArg (v0 (ix2 p k) * ·) (shapeCast_1ab_ab_apply v2 h1 k q)

-- with matrix i and bias row i taken out of their stacks first, this is affine map i of the rows
theorem body_eq {m K : ℕ}
    (P : Vec Ideal ⟨2, ![m, 128]⟩ .f32 → Vec Ideal ⟨3, ![1, 128, 128]⟩ .f32 → Vec Ideal ⟨2, ![1, 128]⟩ .f32 → Vec Ideal ⟨2, ![m, 128]⟩ .f32)
    (hP : ∀ v0 v2 v6, P v0 v2 v6 = KShape.affine v0 v2 v6 0)
    (x0 : Vec Ideal ⟨2, ![m, 128]⟩ .f32) (x1 : Vec Ideal ⟨3, ![K, 128, 128]⟩ .f32) (x2 : Vec Ideal ⟨2, ![K, 128]⟩ .f32) (i : Fin K)
    (inb0 inb1 inb2) :
    View.canon [⟨Rect.unit (s := ⟨2, ![m, 128]⟩) ![0, 0] ![m, 128] inb0, P (View.ld x0 (Rect.unit ![0, 0] ![m, 128] inb0))
        (View.ld x1 (Rect.unit ![i.val, 0, 0] ![1, 128, 128] inb1)) (View.ld x2 (Rect.unit ![i.val, 0] ![1, 128] inb2))⟩]
      = KShape.affine x0 x1 x2 i := by
  have z : (![0, 0] : Fin 2 → ℕ) = fun _ => 0 := funext fun a => by fin_cases a <;> rfl
  have o (n : ℕ) : 0 + 1 * n = n := (Nat.zero_add _).trans (Nat.one_mul _)
  rw [View.canon_unit_zero z, View.ld_unit_zero z, hP]
  funext y
  refine congrArg₂ (· + ·) (Finset.sum_congr rfl fun k _ => congrArg (x0 _ * ·) (congrArg x1 ?_)) (congrArg x2 ?_)
  · funext a; apply Fin.ext
    match a with
    | ⟨0, _⟩ => exact Nat.add_zero _
    | ⟨1, _⟩ => exact o _
    | ⟨2, _⟩ => exact o _
  · funext a; apply Fin.ext
    match a with
    | ⟨0, _⟩ => exact Nat.add_zero _
    | ⟨1, _⟩ => exact o _

-- an index map that sends point t to block t down the rows and block 0 across
abbrev RowIdx {N : ℕ} (ι : Fin N → Fin 2 → ℕ) : Prop := ∀ t, ι t 0 = t.val ∧ ι t 1 = 0

-- the affine map of block j of the rows is block j of the affine map of all the rows
theorem affine_block {n m K : ℕ} {X : KShape.Arr2 n 128} {W : KShape.Arr3 K 128 128} {b : KShape.Arr2 K 128} (i : Fin K)
    {e0 eo : (⟨2, ![m, 128]⟩ : Shape).Idx → (⟨2, ![n, 128]⟩ : Shape).Idx}
    {e1 : (⟨3, ![K, 128, 128]⟩ : Shape).Idx → (⟨3, ![K, 128, 128]⟩ : Shape).Idx}
    {e2 : (⟨2, ![K, 128]⟩ : Shape).Idx → (⟨2, ![K, 128]⟩ : Shape).Idx} {ι0 ιo : Fin 2 → ℕ} {j : ℕ}
    (h0 : ∀ y a, (e0 y a : ℕ) = ι0 a * ![m, 128] a + y a) (ho : ∀ y a, (eo y a : ℕ) = ιo a * ![m, 128] a + y a)
    (h1 : ∀ y a, (e1 y a : ℕ) = y a) (h2 : ∀ y a, (e2 y a : ℕ) = y a)
    (hι0 : ι0 0 = j ∧ ι0 1 = 0) (hιo : ιo 0 = j ∧ ιo 1 = 0) (y : (⟨2, ![m, 128]⟩ : Shape).Idx) :
    KShape.affine (fun z => X (e0 z)) (fun z => W (e1 z)) (fun z => b (e2 z)) i y = KShape.affine X W b i (eo y) := by
  have c : KShape.colOf (eo y) = y 1 := Fin.ext (by rw [ho, hιo.2, Nat.zero_mul, Nat.zero_add])
  have r (k : Fin 128) : e0 (ix2 (y 0) k) = ix2 (KShape.rowOf (eo y)) k := funext fun a => Fin.ext (by
    match a with
    | ⟨0, _⟩ => exact (h0 _ 0).trans (by rw [hι0.1, ← hιo.1]; exact (ho y 0).symm)
    | ⟨1, _⟩ => exact (h0 _ 1).trans (by rw [hι0.2, Nat.zero_mul]; exact Nat.zero_add _))
  unfold KShape.affine
  rw [c]
  exact congrArg₂ (· + ·) (Finset.sum_congr rfl fun k _ => congrArg₂ (· * ·) (congrArg X (r k))
    (congrArg W (funext fun a => Fin.ext (h1 _ a)))) (congrArg b (funext fun a => Fin.ext (h2 _ a)))

-- N blocks of m rows reach every row of an array of n ≤ m·N rows: row r is row r % m of block r / m
theorem cover_rows {n m N : ℕ} (hm : 0 < m) (hn : n ≤ m * N)
    {e : Fin N → (⟨2, ![m, 128]⟩ : Shape).Idx → (⟨2, ![n, 128]⟩ : Shape).Idx} {ι : Fin N → Fin 2 → ℕ}
    (he : ∀ t y a, (e t y a : ℕ) = ι t a * ![m, 128] a + y a) (hι : RowIdx ι) (i : (⟨2, ![n, 128]⟩ : Shape).Idx) :
    ∃ t y, e t y = i :=
  have hi : (i 0).val < n := (i 0).isLt
  ⟨⟨(i 0).val / m, Nat.div_lt_of_lt_mul (hi.trans_le hn)⟩, ix2 ⟨(i 0).val % m, Nat.mod_lt _ hm⟩ (i 1),
    funext (Fin.forall_fin_two.mpr ⟨Fin.ext ((he _ _ 0).trans (by rw [(hι _).1]; exact Nat.div_add_mod' _ _)),
      Fin.ext ((he _ _ 1).trans (by rw [(hι _).2, Nat.zero_mul]; exact Nat.zero_add _))⟩)⟩

end Cert.KernelIdeal.RegionVal.Aff

end
-- ==== Proof.Region0.lean ====
import proofs.«403924_j58969900974273_2_alg».proof.Proof.Gen.KernelIdeal.Frame
import proofs.«403924_j58969900974273_2_alg».proof.Proof.RegionAffine

noncomputable section

namespace Cert.KernelIdeal.RegionVal

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (c : Dev nD)

namespace R0

theorem idx : Aff.RowIdx win0_0.index ∧ Aff.RowIdx win0_3.index ∧ Aff.RowIdx win0_4.index
    ∧ (∀ t a, win0_1.index t a = 0) ∧ ∀ t a, win0_2.index t a = 0 := by
  decide +kernel

theorem pay (v0 v2 v6) : k0_pay2 (F := Ideal) v0 v2 v6 = KShape.affine v0 v2 v6 0 := Aff.pay_eq _ rfl _ _ _ _ _ v0 v2 v6

-- the affine map of the three blocks at point t is block t of the affine map of the three arrays
theorem affine_at (t : Fin cfg0.N) (i : Fin 2) {eo : S4000x128.Idx → S200000x128.Idx} {ιo : Fin 2 → ℕ}
    (ho : ∀ y a, (eo y a : ℕ) = ιo a * S4000x128.size a + y a) (hιo : ιo 0 = t.val ∧ ιo 1 = 0) (y : S4000x128.Idx) :
    KShape.affine (n := 4000) (iblk0 V c 0 t) (iblk0 V c 1 t) (iblk0 V c 2 t) i y
      = KShape.affine (V c (Pipeline.arrRef spec0 0)) (V c (Pipeline.arrRef spec0 1)) (V c (Pipeline.arrRef spec0 2)) i (eo y) :=
  Aff.affine_block i (win0_0.rect_emb_val t) ho (fun y a => win0_1.rect_emb_val_of_index_zero t a (idx.2.2.2.1 t a) y)
    (fun y a => win0_2.rect_emb_val_of_index_zero t a (idx.2.2.2.2 t a) y) (idx.1 t) hιo y

end R0

theorem r0_out3 : (dat0 (F := Ideal) V c).arrAt 3 cfg0.N
    = KShape.affine (V c (Pipeline.arrRef spec0 0)) (V c (Pipeline.arrRef spec0 1)) (V c (Pipeline.arrRef spec0 2)) 0 :=
  (dat0 (F := Ideal) V c).arrAt_eq_of_cover 3 _
    (fun t _ => funext fun y => (congrFun ((after0_3 V c t).trans (Aff.body_eq k0_pay2 R0.pay _ _ _ 0 _ _ _)) y).trans
      (R0.affine_at V c t 0 (win0_3.rect_emb_val t) (R0.idx.2.1 t) y))
    fun i =>
      have ⟨t, y, h⟩ := Aff.cover_rows (by decide) (by decide) win0_3.rect_emb_val R0.idx.2.1 i
      ⟨t, flush0_3 t, h ▸ ((cfg0.win 3).blk t).view.emb_mem_set y⟩

theorem r0_out4 : (dat0 (F := Ideal) V c).arrAt 4 cfg0.N
    = KShape.affine (V c (Pipeline.arrRef spec0 0)) (V c (Pipeline.arrRef spec0 1)) (V c (Pipeline.arrRef spec0 2)) 1 :=
  (dat0 (F := Ideal) V c).arrAt_eq_of_cover 4 _
    (fun t _ => funext fun y => (congrFun ((after0_4 V c t).trans (Aff.body_eq k0_pay3 R0.pay _ _ _ 1 _ _ _)) y).trans
      (R0.affine_at V c t 1 (win0_4.rect_emb_val t) (R0.idx.2.2.1 t) y))
    fun i =>
      have ⟨t, y, h⟩ := Aff.cover_rows (by decide) (by decide) win0_4.rect_emb_val R0.idx.2.2.1 i
      ⟨t, flush0_4 t, h ▸ ((cfg0.win 4).blk t).view.emb_mem_set y⟩

end Cert.KernelIdeal.RegionVal

end
-- ==== Proof.Region1.lean ====
import proofs.«403924_j58969900974273_2_alg».proof.Proof.Gen.KernelIdeal.Frame
import proofs.«403924_j58969900974273_2_alg».proof.Proof.RegionAffine

noncomputable section

namespace Cert.KernelIdeal.RegionVal

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b)) (c : Dev nD)

namespace R1

theorem idx : Aff.RowIdx win1_0.index ∧ Aff.RowIdx win1_3.index ∧ Aff.RowIdx win1_4.index ∧ Aff.RowIdx win1_5.index
    ∧ (∀ t a, win1_1.index t a = 0) ∧ ∀ t a, win1_2.index t a = 0 := by
  decide +kernel

theorem pay (v0 v2 v6) : k1_pay2 (F := Ideal) v0 v2 v6 = KShape.affine v0 v2 v6 0 := Aff.pay_eq _ rfl _ _ _ _ _ v0 v2 v6

-- the affine map of the three blocks at point t is block t of the affine map of the three arrays
theorem affine_at (t : Fin cfg1.N) (i : Fin 3) {eo : S2000x128.Idx → S8000x128.Idx} {ιo : Fin 2 → ℕ}
    (ho : ∀ y a, (eo y a : ℕ) = ιo a * S2000x128.size a + y a) (hιo : ιo 0 = t.val ∧ ιo 1 = 0) (y : S2000x128.Idx) :
    KShape.affine (n := 2000) (iblk1 V c 0 t) (iblk1 V c 1 t) (iblk1 V c 2 t) i y
      = KShape.affine (V c (Pipeline.arrRef spec1 0)) (V c (Pipeline.arrRef spec1 1)) (V c (Pipeline.arrRef spec1 2)) i (eo y) :=
  Aff.affine_block i (win1_0.rect_emb_val t) ho (fun y a => win1_1.rect_emb_val_of_index_zero t a (idx.2.2.2.2.1 t a) y)
    (fun y a => win1_2.rect_emb_val_of_index_zero t a (idx.2.2.2.2.2 t a) y) (idx.1 t) hιo y

end R1

theorem r1_out3 : (dat1 (F := Ideal) V c).arrAt 3 cfg1.N
    = KShape.affine (V c (Pipeline.arrRef spec1 0)) (V c (Pipeline.arrRef spec1 1)) (V c (Pipeline.arrRef spec1 2)) 0 :=
  (dat1 (F := Ideal) V c).arrAt_eq_of_cover 3 _
    (fun t _ => funext fun y => (congrFun ((after1_3 V c t).trans (Aff.body_eq k1_pay2 R1.pay _ _ _ 0 _ _ _)) y).trans
      (R1.affine_at V c t 0 (win1_3.rect_emb_val t) (R1.idx.2.1 t) y))
    fun i =>
      have ⟨t, y, h⟩ := Aff.cover_rows (by decide) (by decide) win1_3.rect_emb_val R1.idx.2.1 i
      ⟨t, flush1_3 t, h ▸ ((cfg1.win 3).blk t).view.emb_mem_set y⟩

theorem r1_out4 : (dat1 (F := Ideal) V c).arrAt 4 cfg1.N
    = KShape.affine (V c (Pipeline.arrRef spec1 0)) (V c (Pipeline.arrRef spec1 1)) (V c (Pipeline.arrRef spec1 2)) 1 :=
  (dat1 (F := Ideal) V c).arrAt_eq_of_cover 4 _
    (fun t _ => funext fun y => (congrFun ((after1_4 V c t).trans (Aff.body_eq k1_pay3 R1.pay _ _ _ 1 _ _ _)) y).trans
      (R1.affine_at V c t 1 (win1_4.rect_emb_val t) (R1.idx.2.2.1 t) y))
    fun i =>
      have ⟨t, y, h⟩ := Aff.cover_rows (by decide) (by decide) win1_4.rect_emb_val R1.idx.2.2.1 i
      ⟨t, flush1_4 t, h ▸ ((cfg1.win 4).blk t).view.emb_mem_set y⟩

theorem r1_out5 : (dat1 (F := Ideal) V c).arrAt 5 cfg1.N
    = KShape.affine (V c (Pipeline.arrRef spec1 0)) (V c (Pipeline.arrRef spec1 1)) (V c (Pipeline.arrRef spec1 2)) 2 :=
  (dat1 (F := Ideal) V c).arrAt_eq_of_cover 5 _
    (fun t _ => funext fun y => (congrFun ((after1_5 V c t).trans (Aff.body_eq k1_pay4 R1.pay _ _ _ 2 _ _ _)) y).trans
      (R1.affine_at V c t 2 (win1_5.rect_emb_val t) (R1.idx.2.2.2.1 t) y))
    fun i =>
      have ⟨t, y, h⟩ := Aff.cover_rows (by decide) (by decide) win1_5.rect_emb_val R1.idx.2.2.2.1 i
      ⟨t, flush1_5 t, h ▸ ((cfg1.win 5).blk t).view.emb_mem_set y⟩

end Cert.KernelIdeal.RegionVal

end
-- ==== Proof.BlockSums.lean ====
import proofs.«403924_j58969900974273_2_alg».proof.Proof.Gen.KernelIdeal.Skeleton
import proofs.«403924_j58969900974273_2_alg».proof.Proof.KShape
import Idealize.ShloMosaic.Lib.ValueIdx
import Idealize.ShloMosaic.Lib.Pipeline.Value
import Idealize.ShloMosaic.Lib.ValueLayout
import Idealize.ShloMosaic.Lib.StackMember
import Idealize.ShloMosaic.Lib.KernelVsHost
import Idealize.ShloMosaic.PureOps.Ideal.Laws
import Mathlib.Algebra.BigOperators.Fin
import Mathlib.Logic.Equiv.Fin.Basic

noncomputable section

namespace Cert.KernelIdeal.RegionVal.Blocks

open Idealize.ShloMosaic Idealize.ShloMosaic.ValueIdx Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- An entry (p, q) of a block whose index is (k, 0) lies at row k · (the block's rows) + p, column q. -/
theorem row_vals {sig : RefSig} {G : Pipeline.Grid} (w : Pipeline.Window sig G) (t : Fin G.N) (y : (w.xblock (G.coords t)).Idx)
    (a₀ a₁ : Fin w.shape.rank) (k : ℕ) (h : w.index t a₀ = k ∧ w.index t a₁ = 0) :
    ((w.rect t).emb y a₀ : ℕ) = k * w.size a₀ + y a₀ ∧ ((w.rect t).emb y a₁ : ℕ) = y a₁ :=
  ⟨h.1 ▸ w.rect_emb_val t y a₀, w.rect_emb_val_of_index_zero t a₁ h.2 y⟩

/-- Entry (p, q) of a 4000 × 128 block times a 128 × 128 matrix, accumulated from zero, is ∑ₖ x(p, k) · w(k, q). -/
theorem mm_apply {φ₁ φ₂ : FTy} (x : FVec Ideal S4000x128 φ₁) (w : FVec Ideal S128x128 φ₂) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) :=
  (congrFun (matmul_zero_eq_dotGeneral _ none x w) _).trans (StackMember.dotGeneral_plain_apply none x w p q)

/-- Adding a block's column sums onto a running row: column q gains ∑ₚ x(p, q). -/
theorem addColsum_apply (x : FVec Ideal S4000x128 .f32) (acc : Vec Ideal S1x128 .f32) (u : Fin 1) (q : Fin 128) :
    addf (shapeCast S1x128 acc shapeCasts_S1x128_S1x128)
        (shapeCast S1x128 (multiReduction (F := Ideal) .add [0] S128 x 0x00000000#32 reduces_S4000x128_S128 (.inl rfl) rfl)
          shapeCasts_S128_S1x128) (ix2 u q)
      = acc (ix2 u q) + ∑ p : Fin 4000, x (ix2 p q) := by
  rw [addf_apply, shapeCast_self, shapeCast_a_1a_apply]
  exact congrArg _ ((Ideal.multiReduction_add_single x _ _ _ _ (ix1 q)).trans
    (Finset.sum_congr rfl fun k _ => congrArg x (Shape.idx_ext₂ rfl rfl)))

/-- Rows 4000·t … 4000·t + 3999 of an array of rows. -/
def rowsAt {R : ℕ} (A : KShape.Arr2 R 128) (t : ℕ) (h : t * 4000 + 4000 ≤ R) : KShape.Arr2 4000 128 :=
  fun j => A (ix2 ⟨t * 4000 + (j 0).val, by have : (j 0).val < 4000 := (j 0).isLt; omega⟩ (j 1))

/-- A sum over N · 4000 rows is the sum over the N blocks of the sums over their 4000 rows. -/
theorem sum_blocks {M : Type*} [AddCommMonoid M] (N : ℕ) (g : Fin (N * 4000) → M) :
    ∑ r, g r = ∑ t : Fin N, ∑ p : Fin 4000, g ⟨t.val * 4000 + p.val, by have := t.isLt; have := p.isLt; omega⟩ := by
  rw [← Equiv.sum_comp finProdFinEquiv g, Fintype.sum_prod_type]
  exact Finset.sum_congr rfl fun t _ => Finset.sum_congr rfl fun p _ => congrArg g (Fin.ext (by
    show p.val + 4000 * t.val = t.val * 4000 + p.val; omega))

/-- A quantity that starts at z + m₀ and gains mₙ at step n is z plus the sum of the m's so far. -/
theorem run_sum {N : ℕ} (f m : (n : ℕ) → n < N → EReal) (z : EReal) (h0 : ∀ h, f 0 h = z + m 0 h)
    (hs : ∀ n h, f (n + 1) h = f n (Nat.lt_of_succ_lt h) + m (n + 1) h) :
    ∀ n h, f n h = z + ∑ s : Fin (n + 1), m s (lt_of_lt_of_le s.isLt h)
  | 0, h => by rw [h0, Fin.sum_univ_one]; rfl
  | n + 1, h => by
    rw [hs, run_sum f m z h0 hs n, add_assoc]
    exact congrArg _ (Fin.sum_univ_castSucc fun s : Fin (n + 2) => m s (lt_of_lt_of_le s.isLt h)).symm

/-- The zero word plus the sums of φ over every block's entries of a column is the sum of φ down the whole column. -/
theorem total {N : ℕ} (A : KShape.Arr2 (N * 4000) 128) (φ : EReal → EReal) (q : Fin 128)
    (hb : ∀ s : Fin N, s.val * 4000 + 4000 ≤ N * 4000) :
    KShape.zeroW + ∑ s : Fin N, ∑ p : Fin 4000, φ (rowsAt A s (hb s) (ix2 p q)) = ∑ r, φ (A (ix2 r q)) := by
  rw [show KShape.zeroW = (0 : EReal) from Ideal.ofBits_zero_f32, zero_add, sum_blocks]
  rfl

theorem total_sum {N : ℕ} (A : KShape.Arr2 (N * 4000) 128) (hb : ∀ s : Fin N, s.val * 4000 + 4000 ≤ N * 4000) (u : Fin 1) (q : Fin 128) :
    KShape.zeroW + ∑ s : Fin N, ∑ p : Fin 4000, rowsAt A s (hb s) (ix2 p q) = KShape.colSum A (ix2 u q) :=
  total A id q hb

theorem total_sq {N : ℕ} (A : KShape.Arr2 (N * 4000) 128) (hb : ∀ s : Fin N, s.val * 4000 + 4000 ≤ N * 4000) (u : Fin 1) (q : Fin 128) :
    KShape.zeroW + ∑ s : Fin N, ∑ p : Fin 4000, rowsAt A s (hb s) (ix2 p q) * rowsAt A s (hb s) (ix2 p q)
      = KShape.colSumSq A (ix2 u q) :=
  total A (fun x => x * x) q hb

/-- On a block of 4000 rows the body of the bond launch is the bond pre-normalisation of those rows. -/
theorem pay4_bond (e : Vec Ideal S4000x128 .f32) (W : Vec Ideal S1x128x128 .f32) (b : Vec Ideal S1x128 .f32)
    (a₁ a₂ a₃ : Vec Ideal S4000x128 .f32) :
    k2_pay4 (F := Ideal) e W b a₁ a₂ a₃ = KShape.bondPre (n := 4000) e a₁ a₂ a₃ W b := by
  funext j
  obtain ⟨p, q, rfl⟩ : ∃ p q, j = ix2 p q := ⟨j 0, j 1, eq_ix2 j⟩
  unfold k2_pay4
  simp only [addf_apply, shapeCast_self]
  rw [mm_apply, broadcastTo_1b_ab_apply, shapeCast_a_1a_apply, shapeCast_1a_a_apply]
  simp only [truncf_apply, shapeCast_1ab_ab_apply]
  rfl

/-- Likewise the body of the atom launch is the atom pre-normalisation of the block's rows. -/
theorem pay4_atom (h : Vec Ideal S4000x128 .f32) (W : Vec Ideal S1x128x128 .f32) (b : Vec Ideal S1x128 .f32)
    (num den h₂ : Vec Ideal S4000x128 .f32) :
    k4_pay4 (F := Ideal) h W b num den h₂ = KShape.atomPre (n := 4000) h W b num den h₂ := by
  funext j
  obtain ⟨p, q, rfl⟩ : ∃ p q, j = ix2 p q := ⟨j 0, j 1, eq_ix2 j⟩
  unfold k4_pay4
  simp only [addf_apply, divf_apply, broadcast_apply, shapeCast_self]
  rw [mm_apply, broadcastTo_1b_ab_apply, shapeCast_a_1a_apply, shapeCast_1a_a_apply]
  simp only [truncf_apply, shapeCast_1ab_ab_apply]
  rfl

/-- Both pre-normalisations act row by row, so they commute with taking a block of rows. -/
theorem bondPre_rowsAt {R : ℕ} (e a₁ a₂ a₃ : KShape.Arr2 R 128) (W : KShape.Arr3 1 128 128) (b : KShape.Arr2 1 128) (t : ℕ)
    (h : t * 4000 + 4000 ≤ R) :
    KShape.bondPre (rowsAt e t h) (rowsAt a₁ t h) (rowsAt a₂ t h) (rowsAt a₃ t h) W b = rowsAt (KShape.bondPre e a₁ a₂ a₃ W b) t h :=
  rfl

theorem atomPre_rowsAt {R : ℕ} (x num den h₂ : KShape.Arr2 R 128) (W : KShape.Arr3 1 128 128) (b : KShape.Arr2 1 128) (t : ℕ)
    (h : t * 4000 + 4000 ≤ R) :
    KShape.atomPre (rowsAt x t h) W b (rowsAt num t h) (rowsAt den t h) (rowsAt h₂ t h) = rowsAt (KShape.atomPre x W b num den h₂) t h :=
  rfl

end Cert.KernelIdeal.RegionVal.Blocks

end
-- ==== Proof.Region2Body.lean ====
import proofs.«403924_j58969900974273_2_alg».proof.Proof.Gen.KernelIdeal.Frame
import proofs.«403924_j58969900974273_2_alg».proof.Proof.BlockSums
import Idealize.ShloMosaic.Lib.Tactic

noncomputable section

namespace Cert.KernelIdeal.RegionVal.R2

open Idealize.ShloMosaic Idealize.ShloMosaic.ValueIdx Idealize.ShloMosaic.TcCoe Idealize.SL.Sem Cert.KernelIdeal Cert.KernelIdeal.Gen
open Idealize.ShloMosaic.Pipeline (Dat)
open Cert.KernelIdeal.RegionVal.Blocks

variable (V : (c : Dev nD) → (b : Ref sig .tc) → Buf (Elt Ideal) ((c : Thread nD τ).loc b)) (c : Dev nD)

theorem hr (t : Fin cfg2.N) (j : S4000x128.Idx) : t.val * 4000 + (j 0).val < 400000 := by
  have := t.isLt; have hN : cfg2.N = 100 := N_2; have : (j 0).val < 4000 := (j 0).isLt; omega

theorem hb (t : Fin cfg2.N) : t.val * 4000 + 4000 ≤ 400000 := by
  have := t.isLt; have hN : cfg2.N = 100 := N_2; omega

theorem emb0 (t : Fin cfg2.N) (j : S4000x128.Idx) :
    ((cfg2.win 0).blk t).view.emb j = ix2 ⟨t.val * 4000 + (j 0).val, hr t j⟩ (j 1) :=
  have h := row_vals win2_0 t j (0 : Fin 2) (1 : Fin 2) _
    ((by decide +kernel : ∀ t : Fin grid2.N, win2_0.index t (0 : Fin 2) = t.val ∧ win2_0.index t (1 : Fin 2) = 0) t)
  Shape.idx_ext₂ h.1 h.2

theorem emb1 (t : Fin cfg2.N) (j : S4000x128.Idx) :
    ((cfg2.win 1).blk t).view.emb j = ix2 ⟨t.val * 4000 + (j 0).val, hr t j⟩ (j 1) :=
  have h := row_vals win2_1 t j (0 : Fin 2) (1 : Fin 2) _
    ((by decide +kernel : ∀ t : Fin grid2.N, win2_1.index t (0 : Fin 2) = t.val ∧ win2_1.index t (1 : Fin 2) = 0) t)
  Shape.idx_ext₂ h.1 h.2

theorem emb2 (t : Fin cfg2.N) (j : S4000x128.Idx) :
    ((cfg2.win 2).blk t).view.emb j = ix2 ⟨t.val * 4000 + (j 0).val, hr t j⟩ (j 1) :=
  have h := row_vals win2_2 t j (0 : Fin 2) (1 : Fin 2) _
    ((by decide +kernel : ∀ t : Fin grid2.N, win2_2.index t (0 : Fin 2) = t.val ∧ win2_2.index t (1 : Fin 2) = 0) t)
  Shape.idx_ext₂ h.1 h.2

theorem emb3 (t : Fin cfg2.N) (j : S4000x128.Idx) :
    ((cfg2.win 3).blk t).view.emb j = ix2 ⟨t.val * 4000 + (j 0).val, hr t j⟩ (j 1) :=
  have h := row_vals win2_3 t j (0 : Fin 2) (1 : Fin 2) _
    ((by decide +kernel : ∀ t : Fin grid2.N, win2_3.index t (0 : Fin 2) = t.val ∧ win2_3.index t (1 : Fin 2) = 0) t)
  Shape.idx_ext₂ h.1 h.2

theorem emb6 (t : Fin cfg2.N) (j : S4000x128.Idx) :
    ((cfg2.win 6).blk t).view.emb j = ix2 ⟨t.val * 4000 + (j 0).val, hr t j⟩ (j 1) :=
  have h := row_vals win2_6 t j (0 : Fin 2) (1 : Fin 2) _
    ((by decide +kernel : ∀ t : Fin grid2.N, win2_6.index t (0 : Fin 2) = t.val ∧ win2_6.index t (1 : Fin 2) = 0) t)
  Shape.idx_ext₂ h.1 h.2

theorem emb4 (t : Fin cfg2.N) (j : S1x128x128.Idx) : ((cfg2.win 4).blk t).view.emb j = j :=
  funext fun a => Fin.ext (win2_4.rect_emb_val_of_index_zero t a
    ((by decide +kernel : ∀ (t : Fin grid2.N) (a : Fin 3), win2_4.index t a = 0) t a) j)

theorem emb5 (t : Fin cfg2.N) (j : S1x128.Idx) : ((cfg2.win 5).blk t).view.emb j = j :=
  funext fun a => Fin.ext (win2_5.rect_emb_val_of_index_zero t a
    ((by decide +kernel : ∀ (t : Fin grid2.N) (a : Fin 2), win2_5.index t a = 0) t a) j)

theorem emb7 (t : Fin cfg2.N) (j : S1x128.Idx) : ((cfg2.win 7).blk t).view.emb j = j :=
  funext fun a => Fin.ext (win2_7.rect_emb_val_of_index_zero t a
    ((by decide +kernel : ∀ (t : Fin grid2.N) (a : Fin 2), win2_7.index t a = 0) t a) j)

theorem emb8 (t : Fin cfg2.N) (j : S1x128.Idx) : ((cfg2.win 8).blk t).view.emb j = j :=
  funext fun a => Fin.ext (win2_8.rect_emb_val_of_index_zero t a
    ((by decide +kernel : ∀ (t : Fin grid2.N) (a : Fin 2), win2_8.index t a = 0) t a) j)

theorem in0 (t : Fin cfg2.N) : iblk2 V c 0 t = rowsAt (V c (Pipeline.arrRef spec2 0)) t.val (hb t) :=
  funext fun j => congrArg (V c _) (emb0 t j)

theorem in1 (t : Fin cfg2.N) : iblk2 V c 1 t = rowsAt (V c (Pipeline.arrRef spec2 1)) t.val (hb t) :=
  funext fun j => congrArg (V c _) (emb1 t j)

theorem in2 (t : Fin cfg2.N) : iblk2 V c 2 t = rowsAt (V c (Pipeline.arrRef spec2 2)) t.val (hb t) :=
  funext fun j => congrArg (V c _) (emb2 t j)

theorem in3 (t : Fin cfg2.N) : iblk2 V c 3 t = rowsAt (V c (Pipeline.arrRef spec2 3)) t.val (hb t) :=
  funext fun j => congrArg (V c _) (emb3 t j)

theorem in4 (t : Fin cfg2.N) : iblk2 V c 4 t = V c (Pipeline.arrRef spec2 4) :=
  funext fun j => congrArg (V c _) (emb4 t j)

theorem in5 (t : Fin cfg2.N) : iblk2 V c 5 t = V c (Pipeline.arrRef spec2 5) :=
  funext fun j => congrArg (V c _) (emb5 t j)

/-- The launch's first output over all 400000 rows, and block t of it as the body forms it from the inputs' blocks. -/
abbrev X : KShape.Arr2 400000 128 :=
  KShape.bondPre (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))

abbrev blkX (t : Fin cfg2.N) : Vec Ideal S4000x128 .f32 := k2_pay4 (F := Ideal) (iblk2 V c 0 t) (iblk2 V c 4 t) (iblk2 V c 5 t) (iblk2 V c 1 t) (iblk2 V c 2 t) (iblk2 V c 3 t)

theorem blkX_eq (t : Fin cfg2.N) : blkX V c t = rowsAt (X V c) t.val (hb t) := by
  unfold blkX
  rw [in0, in1, in2, in3, in4, in5, pay4_bond, bondPre_rowsAt]

/-- Block 0 yields its block of the first output, and starts both running rows from the zero row. -/
theorem outs_zero (h : 0 < cfg2.N) : outsAt2 V c 0 h = (blkX V c ⟨0, h⟩,
    k2_pay5 (F := Ideal) (iblk2 V c 0 ⟨0, h⟩) (iblk2 V c 4 ⟨0, h⟩) (iblk2 V c 5 ⟨0, h⟩) (iblk2 V c 1 ⟨0, h⟩) (iblk2 V c 2 ⟨0, h⟩) (iblk2 V c 3 ⟨0, h⟩) (k2_pay2 (F := Ideal)),
    k2_pay1 (F := Ideal) (blkX V c ⟨0, h⟩) (k2_pay3 (F := Ideal))) := by
  rw [outsAt2_A V c ⟨0, h⟩ rfl]
  unfold out2_A_6 out2_A_7 out2_A_8
  rw [View.read_writes_eq_canon _ _ _ (cover2_A_6 _ _ _ _ _ _ _ _ _ _ _ _ _ _ _ _ _ _ _ _ _ _ _ _ _ _ _), View.read_writes_eq_canon _ _ _ (cover2_A_7 _ _ _ _ _ _ _ _ _ _ _ _ _ _ _ _ _ _ _ _ _ _ _ _ _ _ _),
    View.read_writes_eq_canon _ _ _ (cover2_A_8 _ _ _ _ _ _ _ _ _ _ _ _ _ _ _ _ _ _ _ _ _ _ _ _ _ _ _)]
  unfold kernelRun2_A
  dsimp only
  sl_unfold_words
  rw [View.canon_unit_zero hz2]
  simp only [View.canon_cons_unit_zero (S := S1x128) hz2, View.readCov_unit_zero (S := S1x128) _ hz2, View.readAt_eq_ld,
    (hs2_0 _).read_unread, (hs2_1 _).read_unread, (hs2_2 _).read_unread, (hs2_3 _).read_unread, (hs2_4 _).read_unread, (hs2_5 _).read_unread, View.ld_unit_zero (S := S4000x128) hz2, View.ld_unit_zero (S := S1x128) hz2,
    View.ld_unit_zero (S := S1x128x128) hz3]

/-- A later block yields its block, and continues both running rows from the block before. -/
theorem outs_succ (n : ℕ) (h : n + 1 < cfg2.N) : outsAt2 V c (n + 1) h = (blkX V c ⟨n + 1, h⟩,
    k2_pay5 (F := Ideal) (iblk2 V c 0 ⟨n + 1, h⟩) (iblk2 V c 4 ⟨n + 1, h⟩) (iblk2 V c 5 ⟨n + 1, h⟩) (iblk2 V c 1 ⟨n + 1, h⟩) (iblk2 V c 2 ⟨n + 1, h⟩) (iblk2 V c 3 ⟨n + 1, h⟩) (outsAt2 V c n (Nat.lt_of_succ_lt h)).2.1,
    k2_pay1 (F := Ideal) (blkX V c ⟨n + 1, h⟩) (outsAt2 V c n (Nat.lt_of_succ_lt h)).2.2) := by
  have hN : cfg2.N = 100 := N_2
  rw [outsAt2_B V c ⟨n + 1, h⟩ (by dsimp only; omega)]
  unfold out2_B_6 out2_B_7 out2_B_8
  rw [View.read_writes_eq_canon _ _ _ (cover2_B_6 _ _ _ _ _ _ _ _ _ _ _ _ _ _ _ _ _ _ _ _ _ _ _ _ _ _ _ _ _), View.read_writes_eq_canon _ _ _ (cover2_B_7 _ _ _ _ _ _ _ _ _ _ _ _ _ _ _ _ _ _ _ _ _ _ _ _ _ _ _ _ _),
    View.read_writes_eq_canon _ _ _ (cover2_B_8 _ _ _ _ _ _ _ _ _ _ _ _ _ _ _ _ _ _ _ _ _ _ _ _ _ _ _ _ _)]
  unfold kernelRun2_B
  dsimp only
  sl_unfold_words
  simp only [View.canon_unit_zero (S := S4000x128) hz2, View.canon_unit_zero (S := S1x128) hz2, View.readAt_eq_ld,
    (hs2_0 _).read_unread, (hs2_1 _).read_unread, (hs2_2 _).read_unread, (hs2_3 _).read_unread, (hs2_4 _).read_unread, (hs2_5 _).read_unread, (hs2_7 _).read_unread, (hs2_8 _).read_unread,
    View.ld_unit_zero (S := S4000x128) hz2, View.ld_unit_zero (S := S1x128) hz2, View.ld_unit_zero (S := S1x128x128) hz3]
  rfl

end Cert.KernelIdeal.RegionVal.R2

end
-- ==== Proof.Region2.lean ====
import proofs.«403924_j58969900974273_2_alg».proof.Proof.Region2Body

noncomputable section

namespace Cert.KernelIdeal.RegionVal.R2

open Idealize.ShloMosaic Idealize.ShloMosaic.ValueIdx Idealize.ShloMosaic.TcCoe Idealize.SL.Sem Cert.KernelIdeal Cert.KernelIdeal.Gen
open Idealize.ShloMosaic.Pipeline (Dat)
open Cert.KernelIdeal.RegionVal.Blocks

variable (V : (c : Dev nD) → (b : Ref sig .tc) → Buf (Elt Ideal) ((c : Thread nD τ).loc b)) (c : Dev nD)

theorem outs6 (t : Fin cfg2.N) : (outsAt2 V c t.val t.isLt).1 = rowsAt (X V c) t.val (hb t) := by
  obtain ⟨_ | n, h⟩ := t
  · rw [outs_zero, blkX_eq]
  · rw [outs_succ, blkX_eq]

/-- After block n a running row holds the zero word plus the column sums (of the entries, of their squares) of blocks 0 … n. -/
theorem outs7 (u : Fin 1) (q : Fin 128) (n : ℕ) (h : n < cfg2.N) : (outsAt2 V c n h).2.1 (ix2 u q)
    = KShape.zeroW + ∑ s : Fin (n + 1), ∑ p : Fin 4000, blkX V c ⟨s, lt_of_lt_of_le s.isLt h⟩ (ix2 p q) :=
  run_sum (fun n h => (outsAt2 V c n h).2.1 (ix2 u q)) (fun n h => ∑ p : Fin 4000, blkX V c ⟨n, h⟩ (ix2 p q)) _
    (fun h => by rw [outs_zero]; exact addColsum_apply _ _ u q)
    (fun n h => by rw [outs_succ]; exact addColsum_apply _ _ u q) n h

theorem outs8 (u : Fin 1) (q : Fin 128) (n : ℕ) (h : n < cfg2.N) : (outsAt2 V c n h).2.2 (ix2 u q)
    = KShape.zeroW + ∑ s : Fin (n + 1), ∑ p : Fin 4000, blkX V c ⟨s, lt_of_lt_of_le s.isLt h⟩ (ix2 p q) * blkX V c ⟨s, lt_of_lt_of_le s.isLt h⟩ (ix2 p q) :=
  run_sum (fun n h => (outsAt2 V c n h).2.2 (ix2 u q)) (fun n h => ∑ p : Fin 4000, blkX V c ⟨n, h⟩ (ix2 p q) * blkX V c ⟨n, h⟩ (ix2 p q)) _
    (fun h => by rw [outs_zero]; exact addColsum_apply _ _ u q)
    (fun n h => by rw [outs_succ]; exact addColsum_apply _ _ u q) n h

theorem flushed6_eq (t : Fin cfg2.N) :
    (dat2 (F := Ideal) V c).flushed 6 t = ((cfg2.win 6).blk t).view.read (Elt Ideal) (X V c) := by
  show (cfg2.win 6).cut (grid2.coords t) ((dat2 (F := Ideal) V c).after 6 t) = _
  rw [after2_6, outs6]
  exact funext fun j => (congrArg (X V c) (emb6 t j)).symm

/-- Row r lies in block r / 4000, at offset r % 4000. -/
theorem cover6 (i : S400000x128.Idx) : ∃ t : Fin cfg2.N, (cfg2.win 6).flush t = true ∧ i ∈ ((cfg2.win 6).blk t).view.set := by
  have hN : cfg2.N = 100 := N_2
  have h0 : (i 0).val < 400000 := (i 0).isLt
  obtain ⟨t, ht⟩ : ∃ t : Fin cfg2.N, t.val = (i 0).val / 4000 := ⟨⟨_, by omega⟩, rfl⟩
  have hi : ((cfg2.win 6).blk t).view.emb (ix2 ⟨(i 0).val % 4000, Nat.mod_lt _ (by norm_num)⟩ (i 1)) = i :=
    (emb6 t _).trans (Shape.idx_ext₂ (by show t.val * 4000 + (i 0).val % 4000 = (i 0).val; omega) rfl)
  exact ⟨t, flush2_6 t, hi ▸ View.emb_mem_set _ _⟩

theorem last7 (n : ℕ) (h : n < cfg2.N) (hn : n = 99) (u : Fin 1) (q : Fin 128) :
    (outsAt2 V c n h).2.1 (ix2 u q) = KShape.colSum (X V c) (ix2 u q) := by
  subst hn
  rw [outs7]
  simp only [blkX_eq]
  exact total_sum (N := 100) (X V c) _ u q

theorem read7 (t : Fin cfg2.N) (G : KShape.Arr2 1 128) (j : S1x128.Idx) :
    (((cfg2.win 7).blk t).view.read (Elt Ideal) G : Vec Ideal S1x128 .f32) j = G j :=
  congrArg G (emb7 t j)

theorem flushed7_eq (t : Fin cfg2.N) (hf : (cfg2.win 7).flush t = true) :
    (dat2 (F := Ideal) V c).flushed 7 t = ((cfg2.win 7).blk t).view.read (Elt Ideal) (KShape.colSum (X V c)) := by
  have hN : cfg2.N = 100 := N_2
  have h99 : t.val = 99 := by have := (flush2_7 t).mp hf; have := t.isLt; omega
  show (cfg2.win 7).cut (grid2.coords t) ((dat2 (F := Ideal) V c).after 7 t) = _
  rw [after2_7]
  show ((outsAt2 V c t.val t.isLt).2.1 : Vec Ideal S1x128 .f32)
    = (((cfg2.win 7).blk t).view.read (Elt Ideal) (KShape.colSum (X V c)) : Vec Ideal S1x128 .f32)
  funext j
  rw [read7]
  obtain ⟨u, q, rfl⟩ : ∃ (u : Fin 1) (q : Fin 128), j = ix2 u q := ⟨j 0, j 1, eq_ix2 j⟩
  exact last7 V c _ _ h99 u q

theorem cover7 (i : S1x128.Idx) : ∃ t : Fin cfg2.N, (cfg2.win 7).flush t = true ∧ i ∈ ((cfg2.win 7).blk t).view.set :=
  have h : 99 < cfg2.N := by have hN : cfg2.N = 100 := N_2; omega
  ⟨⟨99, h⟩, (flush2_7 _).mpr rfl, emb7 ⟨99, h⟩ i ▸ View.emb_mem_set _ i⟩

theorem last8 (n : ℕ) (h : n < cfg2.N) (hn : n = 99) (u : Fin 1) (q : Fin 128) :
    (outsAt2 V c n h).2.2 (ix2 u q) = KShape.colSumSq (X V c) (ix2 u q) := by
  subst hn
  rw [outs8]
  simp only [blkX_eq]
  exact total_sq (N := 100) (X V c) _ u q

theorem read8 (t : Fin cfg2.N) (G : KShape.Arr2 1 128) (j : S1x128.Idx) :
    (((cfg2.win 8).blk t).view.read (Elt Ideal) G : Vec Ideal S1x128 .f32) j = G j :=
  congrArg G (emb8 t j)

theorem flushed8_eq (t : Fin cfg2.N) (hf : (cfg2.win 8).flush t = true) :
    (dat2 (F := Ideal) V c).flushed 8 t = ((cfg2.win 8).blk t).view.read (Elt Ideal) (KShape.colSumSq (X V c)) := by
  have hN : cfg2.N = 100 := N_2
  have h99 : t.val = 99 := by have := (flush2_8 t).mp hf; have := t.isLt; omega
  show (cfg2.win 8).cut (grid2.coords t) ((dat2 (F := Ideal) V c).after 8 t) = _
  rw [after2_8]
  show ((outsAt2 V c t.val t.isLt).2.2 : Vec Ideal S1x128 .f32)
    = (((cfg2.win 8).blk t).view.read (Elt Ideal) (KShape.colSumSq (X V c)) : Vec Ideal S1x128 .f32)
  funext j
  rw [read8]
  obtain ⟨u, q, rfl⟩ : ∃ (u : Fin 1) (q : Fin 128), j = ix2 u q := ⟨j 0, j 1, eq_ix2 j⟩
  exact last8 V c _ _ h99 u q

theorem cover8 (i : S1x128.Idx) : ∃ t : Fin cfg2.N, (cfg2.win 8).flush t = true ∧ i ∈ ((cfg2.win 8).blk t).view.set :=
  have h : 99 < cfg2.N := by have hN : cfg2.N = 100 := N_2; omega
  ⟨⟨99, h⟩, (flush2_8 _).mpr rfl, emb8 ⟨99, h⟩ i ▸ View.emb_mem_set _ i⟩

end Cert.KernelIdeal.RegionVal.R2

namespace Cert.KernelIdeal.RegionVal

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD)

theorem r2_out6 : (dat2 (F := Ideal) V c).arrAt 6 cfg2.N
    = KShape.bondPre (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 (F := Ideal) V c).arrAt_eq_of_cover 6 (R2.X V c) (fun t _ => R2.flushed6_eq V c t) R2.cover6

theorem r2_out7 : (dat2 (F := Ideal) V c).arrAt 7 cfg2.N
    = KShape.colSum (KShape.bondPre (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) :=
  (dat2 (F := Ideal) V c).arrAt_eq_of_cover 7 (KShape.colSum (R2.X V c)) (R2.flushed7_eq V c) R2.cover7

theorem r2_out8 : (dat2 (F := Ideal) V c).arrAt 8 cfg2.N
    = KShape.colSumSq (KShape.bondPre (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) :=
  (dat2 (F := Ideal) V c).arrAt_eq_of_cover 8 (KShape.colSumSq (R2.X V c)) (R2.flushed8_eq V c) R2.cover8

end Cert.KernelIdeal.RegionVal

end
-- ==== Proof.NormAdd.lean ====
import proofs.«403924_j58969900974273_2_alg».proof.Proof.Gen.KernelIdeal.Skeleton
import proofs.«403924_j58969900974273_2_alg».proof.Proof.KShape
import Idealize.ShloMosaic.Lib.ValueLayout
import Idealize.ShloMosaic.Lib.Pipeline.Value

noncomputable section

namespace Cert.KernelIdeal.RegionVal.NormAdd

open Cert.KernelIdeal Cert.KernelIdeal.Gen Cert.KShape Idealize.ShloMosaic Idealize.ShloMosaic.ValueIdx

theorem hz : (![0, 0] : Fin 2 → Nat) = fun _ => 0 := funext fun a => by fin_cases a <;> rfl

-- On blocks of 4000 rows the kernels compute the normalise-and-add of their six blocks: every step is entrywise or spreads a one-row block down the rows.
theorem pay4000 (x r : Vec Ideal S4000x128 .f32) (M Va G B : Vec Ideal S1x128 .f32) :
    k3_pay1 (F := Ideal) x M Va G B r = normRes x M Va G B r := by
  funext j
  obtain ⟨p, q, rfl⟩ : ∃ (p : Fin 4000) (q : Fin 128), j = ix2 p q := ⟨j 0, j 1, eq_ix2 j⟩
  unfold k3_pay1
  simp only [shapeCast_self, addf, subf, mulf, maximumf, rsqrt, broadcast, broadcastTo_1b_ab_apply]
  rfl

-- The same on blocks of 2000 rows.
theorem pay2000 (x r : Vec Ideal S2000x128 .f32) (M Va G B : Vec Ideal S1x128 .f32) :
    k7_pay1 (F := Ideal) x M Va G B r = normRes x M Va G B r := by
  funext j
  obtain ⟨p, q, rfl⟩ : ∃ (p : Fin 2000) (q : Fin 128), j = ix2 p q := ⟨j 0, j 1, eq_ix2 j⟩
  unfold k7_pay1
  simp only [shapeCast_self, addf, subf, mulf, maximumf, rsqrt, broadcast, broadcastTo_1b_ab_apply]
  rfl

-- Normalise-and-add reads the two arrays of rows at the entry itself and the four one-row arrays at the entry's column.
theorem normRes_blk {m n : ℕ} {X R : Arr2 n 128} {M Va G B : Arr2 1 128} {x r : Arr2 m 128} {μ va g b : Arr2 1 128}
    (j : (⟨2, ![m, 128]⟩ : Shape).Idx) (i : (⟨2, ![n, 128]⟩ : Shape).Idx) (hc : (colOf i).val = (colOf j).val)
    (hx : x j = X i) (hr : r j = R i) (hμ : μ = M) (hva : va = Va) (hg : g = G) (hb : b = B) :
    normRes x μ va g b r j = normRes X M Va G B R i := by
  subst hμ hva hg hb
  simp only [normRes, normClip, hx, hr, Fin.ext hc]

end Cert.KernelIdeal.RegionVal.NormAdd

end
-- ==== Proof.Region3.lean ====
import proofs.«403924_j58969900974273_2_alg».proof.Proof.Gen.KernelIdeal.Frame
import proofs.«403924_j58969900974273_2_alg».proof.Proof.NormAdd
import proofs.«403924_j58969900974273_2_alg».proof.Proof.RegionAffine

noncomputable section

namespace Cert.KernelIdeal.RegionVal

open Cert.KernelIdeal Cert.KernelIdeal.Gen Cert.KShape Idealize.ShloMosaic Idealize.ShloMosaic.TcCoe Idealize.SL.Sem NormAdd

variable (V : (c : Dev nD) → (b : Ref sig .tc) → Buf (Elt Ideal) ((c : Thread nD τ).loc b)) (c : Dev nD)

-- The normalise-and-add of the whole arrays.
private abbrev Y : Arr2 400000 128 :=
  normRes (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

private theorem idx : Aff.RowIdx win3_7.index := (by decide +kernel : ∀ t : Fin grid3.N, _)

-- The blocks reach every row: row r is in the block of point r / 4000.
private theorem cover (i : S400000x128.Idx) :
    ∃ t : Fin cfg3.N, (cfg3.win 7).flush t = true ∧ i ∈ ((cfg3.win 7).blk t).view.set := by
  obtain ⟨t, y, rfl⟩ := Aff.cover_rows (m := 4000) (by decide) (by decide)
    (e := fun t y => ((cfg3.win 7).blk t).view.emb y) win3_7.rect_emb_val idx i
  exact ⟨t, flush3_7 t, View.emb_mem_set _ y⟩

-- The three results on a block: the normalise-and-add of the blocks, its gate, and the gate times the gathered block.
private theorem outs (x0 x5 x6 : Vec Ideal S4000x128 .f32) (x1 x2 x3 x4 : Vec Ideal S1x128 .f32) :
    out3_7 x0 x1 x2 x3 x4 x5 x6 = normRes x0 x1 x2 x3 x4 x5
    ∧ out3_8 x0 x1 x2 x3 x4 x5 x6 = gate (normRes x0 x1 x2 x3 x4 x5)
    ∧ out3_9 x0 x1 x2 x3 x4 x5 x6 = had (gate (normRes x0 x1 x2 x3 x4 x5)) x6 := by
  unfold out3_7 out3_8 out3_9 k3_pay3 k3_pay2
  simp only [View.canon_unit_zero (S := S4000x128) hz, View.ld_unit_zero (S := S4000x128) hz, View.ld_unit_zero (S := S1x128) hz,
    shapeCast_self, pay4000]
  exact ⟨trivial, rfl, rfl⟩

-- At point t the normalise-and-add of the six blocks is block t of that of the arrays.
private theorem blkY (t : Fin cfg3.N) (j : S4000x128.Idx) :
    normRes (iblk3 V c 0 t) (iblk3 V c 1 t) (iblk3 V c 2 t) (iblk3 V c 3 t) (iblk3 V c 4 t) (iblk3 V c 5 t) j
      = Y V c (((cfg3.win 7).blk t).view.emb j) := by
  have h1 (f : Arr2 1 128) : (fun y => f (((cfg3.win 1).blk t).view.emb y)) = f := funext fun y => congrArg f
    (Shape.idx_ext₂ (win3_1.rect_emb_val_of_index_zero t 0 rfl y) (win3_1.rect_emb_val_of_index_zero t 1 rfl y))
  exact normRes_blk j _ (win3_7.rect_emb_val_of_index_zero t 1 rfl j) rfl rfl (h1 _) (h1 _) (h1 _) (h1 _)

-- Each point writes back its block of the three array-level results, and the blocks reach every row.
theorem r3_out7 : (dat3 (F := Ideal) V c).arrAt 7 cfg3.N
    = KShape.normRes (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) :=
  (dat3 (F := Ideal) V c).arrAt_eq_of_cover 7 (Y V c) (fun t _ => by
    unfold Pipeline.Dat.flushed
    rw [after3_7, (outs ..).1]
    exact funext (blkY V c t)) cover

theorem r3_out8 : (dat3 (F := Ideal) V c).arrAt 8 cfg3.N
    = KShape.gate (KShape.normRes (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) :=
  (dat3 (F := Ideal) V c).arrAt_eq_of_cover 8 (gate (Y V c)) (fun t _ => by
    unfold Pipeline.Dat.flushed
    rw [after3_8, (outs ..).2.1]
    exact congrArg gate (funext (blkY V c t))) cover

theorem r3_out9 : (dat3 (F := Ideal) V c).arrAt 9 cfg3.N
    = KShape.had (KShape.gate (KShape.normRes (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)))) (V c (Pipeline.arrRef spec3 6)) :=
  (dat3 (F := Ideal) V c).arrAt_eq_of_cover 9 (had (gate (Y V c)) (V c (Pipeline.arrRef spec3 6))) (fun t _ => by
    unfold Pipeline.Dat.flushed
    rw [after3_9, (outs ..).2.2]
    exact congrArg (fun f => had (gate f) (iblk3 V c 6 t)) (funext (blkY V c t))) cover

end Cert.KernelIdeal.RegionVal

end
-- ==== Proof.Region4Body.lean ====
import proofs.«403924_j58969900974273_2_alg».proof.Proof.Gen.KernelIdeal.Frame
import proofs.«403924_j58969900974273_2_alg».proof.Proof.BlockSums
import Idealize.ShloMosaic.Lib.Tactic

noncomputable section

namespace Cert.KernelIdeal.RegionVal.R4

open Idealize.ShloMosaic Idealize.ShloMosaic.ValueIdx Idealize.ShloMosaic.TcCoe Idealize.SL.Sem Cert.KernelIdeal Cert.KernelIdeal.Gen
open Idealize.ShloMosaic.Pipeline (Dat)
open Cert.KernelIdeal.RegionVal.Blocks

variable (V : (c : Dev nD) → (b : Ref sig .tc) → Buf (Elt Ideal) ((c : Thread nD τ).loc b)) (c : Dev nD)

theorem hr (t : Fin cfg4.N) (j : S4000x128.Idx) : t.val * 4000 + (j 0).val < 200000 := by
  have := t.isLt; have hN : cfg4.N = 50 := N_4; have : (j 0).val < 4000 := (j 0).isLt; omega

theorem hb (t : Fin cfg4.N) : t.val * 4000 + 4000 ≤ 200000 := by
  have := t.isLt; have hN : cfg4.N = 50 := N_4; omega

theorem emb0 (t : Fin cfg4.N) (j : S4000x128.Idx) :
    ((cfg4.win 0).blk t).view.emb j = ix2 ⟨t.val * 4000 + (j 0).val, hr t j⟩ (j 1) :=
  have h := row_vals win4_0 t j (0 : Fin 2) (1 : Fin 2) _
    ((by decide +kernel : ∀ t : Fin grid4.N, win4_0.index t (0 : Fin 2) = t.val ∧ win4_0.index t (1 : Fin 2) = 0) t)
  Shape.idx_ext₂ h.1 h.2

theorem emb3 (t : Fin cfg4.N) (j : S4000x128.Idx) :
    ((cfg4.win 3).blk t).view.emb j = ix2 ⟨t.val * 4000 + (j 0).val, hr t j⟩ (j 1) :=
  have h := row_vals win4_3 t j (0 : Fin 2) (1 : Fin 2) _
    ((by decide +kernel : ∀ t : Fin grid4.N, win4_3.index t (0 : Fin 2) = t.val ∧ win4_3.index t (1 : Fin 2) = 0) t)
  Shape.idx_ext₂ h.1 h.2

theorem emb4 (t : Fin cfg4.N) (j : S4000x128.Idx) :
    ((cfg4.win 4).blk t).view.emb j = ix2 ⟨t.val * 4000 + (j 0).val, hr t j⟩ (j 1) :=
  have h := row_vals win4_4 t j (0 : Fin 2) (1 : Fin 2) _
    ((by decide +kernel : ∀ t : Fin grid4.N, win4_4.index t (0 : Fin 2) = t.val ∧ win4_4.index t (1 : Fin 2) = 0) t)
  Shape.idx_ext₂ h.1 h.2

theorem emb5 (t : Fin cfg4.N) (j : S4000x128.Idx) :
    ((cfg4.win 5).blk t).view.emb j = ix2 ⟨t.val * 4000 + (j 0).val, hr t j⟩ (j 1) :=
  have h := row_vals win4_5 t j (0 : Fin 2) (1 : Fin 2) _
    ((by decide +kernel : ∀ t : Fin grid4.N, win4_5.index t (0 : Fin 2) = t.val ∧ win4_5.index t (1 : Fin 2) = 0) t)
  Shape.idx_ext₂ h.1 h.2

theorem emb6 (t : Fin cfg4.N) (j : S4000x128.Idx) :
    ((cfg4.win 6).blk t).view.emb j = ix2 ⟨t.val * 4000 + (j 0).val, hr t j⟩ (j 1) :=
  have h := row_vals win4_6 t j (0 : Fin 2) (1 : Fin 2) _
    ((by decide +kernel : ∀ t : Fin grid4.N, win4_6.index t (0 : Fin 2) = t.val ∧ win4_6.index t (1 : Fin 2) = 0) t)
  Shape.idx_ext₂ h.1 h.2

theorem emb1 (t : Fin cfg4.N) (j : S1x128x128.Idx) : ((cfg4.win 1).blk t).view.emb j = j :=
  funext fun a => Fin.ext (win4_1.rect_emb_val_of_index_zero t a
    ((by decide +kernel : ∀ (t : Fin grid4.N) (a : Fin 3), win4_1.index t a = 0) t a) j)

theorem emb2 (t : Fin cfg4.N) (j : S1x128.Idx) : ((cfg4.win 2).blk t).view.emb j = j :=
  funext fun a => Fin.ext (win4_2.rect_emb_val_of_index_zero t a
    ((by decide +kernel : ∀ (t : Fin grid4.N) (a : Fin 2), win4_2.index t a = 0) t a) j)

theorem emb7 (t : Fin cfg4.N) (j : S1x128.Idx) : ((cfg4.win 7).blk t).view.emb j = j :=
  funext fun a => Fin.ext (win4_7.rect_emb_val_of_index_zero t a
    ((by decide +kernel : ∀ (t : Fin grid4.N) (a : Fin 2), win4_7.index t a = 0) t a) j)

theorem emb8 (t : Fin cfg4.N) (j : S1x128.Idx) : ((cfg4.win 8).blk t).view.emb j = j :=
  funext fun a => Fin.ext (win4_8.rect_emb_val_of_index_zero t a
    ((by decide +kernel : ∀ (t : Fin grid4.N) (a : Fin 2), win4_8.index t a = 0) t a) j)

theorem in0 (t : Fin cfg4.N) : iblk4 V c 0 t = rowsAt (V c (Pipeline.arrRef spec4 0)) t.val (hb t) :=
  funext fun j => congrArg (V c _) (emb0 t j)

theorem in1 (t : Fin cfg4.N) : iblk4 V c 1 t = V c (Pipeline.arrRef spec4 1) :=
  funext fun j => congrArg (V c _) (emb1 t j)

theorem in2 (t : Fin cfg4.N) : iblk4 V c 2 t = V c (Pipeline.arrRef spec4 2) :=
  funext fun j => congrArg (V c _) (emb2 t j)

theorem in3 (t : Fin cfg4.N) : iblk4 V c 3 t = rowsAt (V c (Pipeline.arrRef spec4 3)) t.val (hb t) :=
  funext fun j => congrArg (V c _) (emb3 t j)

theorem in4 (t : Fin cfg4.N) : iblk4 V c 4 t = rowsAt (V c (Pipeline.arrRef spec4 4)) t.val (hb t) :=
  funext fun j => congrArg (V c _) (emb4 t j)

theorem in5 (t : Fin cfg4.N) : iblk4 V c 5 t = rowsAt (V c (Pipeline.arrRef spec4 5)) t.val (hb t) :=
  funext fun j => congrArg (V c _) (emb5 t j)

/-- The launch's first output over all 200000 rows, and block t of it as the body forms it from the inputs' blocks. -/
abbrev X : KShape.Arr2 200000 128 :=
  KShape.atomPre (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))

abbrev blkX (t : Fin cfg4.N) : Vec Ideal S4000x128 .f32 := k4_pay4 (F := Ideal) (iblk4 V c 0 t) (iblk4 V c 1 t) (iblk4 V c 2 t) (iblk4 V c 3 t) (iblk4 V c 4 t) (iblk4 V c 5 t)

theorem blkX_eq (t : Fin cfg4.N) : blkX V c t = rowsAt (X V c) t.val (hb t) := by
  unfold blkX
  rw [in0, in1, in2, in3, in4, in5, pay4_atom, atomPre_rowsAt]

/-- Block 0 yields its block of the first output, and starts both running rows from the zero row. -/
theorem outs_zero (h : 0 < cfg4.N) : outsAt4 V c 0 h = (blkX V c ⟨0, h⟩,
    k4_pay5 (F := Ideal) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (k4_pay2 (F := Ideal)),
    k4_pay1 (F := Ideal) (blkX V c ⟨0, h⟩) (k4_pay3 (F := Ideal))) := by
  rw [outsAt4_A V c ⟨0, h⟩ rfl]
  unfold out4_A_6 out4_A_7 out4_A_8
  rw [View.read_writes_eq_canon _ _ _ (cover4_A_6 _ _ _ _ _ _ _ _ _ _ _ _ _ _ _ _ _ _ _ _ _ _ _ _ _ _ _), View.read_writes_eq_canon _ _ _ (cover4_A_7 _ _ _ _ _ _ _ _ _ _ _ _ _ _ _ _ _ _ _ _ _ _ _ _ _ _ _),
    View.read_writes_eq_canon _ _ _ (cover4_A_8 _ _ _ _ _ _ _ _ _ _ _ _ _ _ _ _ _ _ _ _ _ _ _ _ _ _ _)]
  unfold kernelRun4_A
  dsimp only
  sl_unfold_words
  rw [View.canon_unit_zero hz2]
  simp only [View.canon_cons_unit_zero (S := S1x128) hz2, View.readCov_unit_zero (S := S1x128) _ hz2, View.readAt_eq_ld,
    (hs4_0 _).read_unread, (hs4_1 _).read_unread, (hs4_2 _).read_unread, (hs4_3 _).read_unread, (hs4_4 _).read_unread, (hs4_5 _).read_unread, View.ld_unit_zero (S := S4000x128) hz2, View.ld_unit_zero (S := S1x128) hz2,
    View.ld_unit_zero (S := S1x128x128) hz3]

/-- A later block yields its block, and continues both running rows from the block before. -/
theorem outs_succ (n : ℕ) (h : n + 1 < cfg4.N) : outsAt4 V c (n + 1) h = (blkX V c ⟨n + 1, h⟩,
    k4_pay5 (F := Ideal) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1,
    k4_pay1 (F := Ideal) (blkX V c ⟨n + 1, h⟩) (outsAt4 V c n (Nat.lt_of_succ_lt h)).2.2) := by
  have hN : cfg4.N = 50 := N_4
  rw [outsAt4_B V c ⟨n + 1, h⟩ (by dsimp only; omega)]
  unfold out4_B_6 out4_B_7 out4_B_8
  rw [View.read_writes_eq_canon _ _ _ (cover4_B_6 _ _ _ _ _ _ _ _ _ _ _ _ _ _ _ _ _ _ _ _ _ _ _ _ _ _ _ _ _), View.read_writes_eq_canon _ _ _ (cover4_B_7 _ _ _ _ _ _ _ _ _ _ _ _ _ _ _ _ _ _ _ _ _ _ _ _ _ _ _ _ _),
    View.read_writes_eq_canon _ _ _ (cover4_B_8 _ _ _ _ _ _ _ _ _ _ _ _ _ _ _ _ _ _ _ _ _ _ _ _ _ _ _ _ _)]
  unfold kernelRun4_B
  dsimp only
  sl_unfold_words
  simp only [View.canon_unit_zero (S := S4000x128) hz2, View.canon_unit_zero (S := S1x128) hz2, View.readAt_eq_ld,
    (hs4_0 _).read_unread, (hs4_1 _).read_unread, (hs4_2 _).read_unread, (hs4_3 _).read_unread, (hs4_4 _).read_unread, (hs4_5 _).read_unread, (hs4_7 _).read_unread, (hs4_8 _).read_unread,
    View.ld_unit_zero (S := S4000x128) hz2, View.ld_unit_zero (S := S1x128) hz2, View.ld_unit_zero (S := S1x128x128) hz3]
  rfl

end Cert.KernelIdeal.RegionVal.R4

end
-- ==== Proof.Region4.lean ====
import proofs.«403924_j58969900974273_2_alg».proof.Proof.Region4Body

noncomputable section

namespace Cert.KernelIdeal.RegionVal.R4

open Idealize.ShloMosaic Idealize.ShloMosaic.ValueIdx Idealize.ShloMosaic.TcCoe Idealize.SL.Sem Cert.KernelIdeal Cert.KernelIdeal.Gen
open Idealize.ShloMosaic.Pipeline (Dat)
open Cert.KernelIdeal.RegionVal.Blocks

variable (V : (c : Dev nD) → (b : Ref sig .tc) → Buf (Elt Ideal) ((c : Thread nD τ).loc b)) (c : Dev nD)

theorem outs6 (t : Fin cfg4.N) : (outsAt4 V c t.val t.isLt).1 = rowsAt (X V c) t.val (hb t) := by
  obtain ⟨_ | n, h⟩ := t
  · rw [outs_zero, blkX_eq]
  · rw [outs_succ, blkX_eq]

/-- After block n a running row holds the zero word plus the column sums (of the entries, of their squares) of blocks 0 … n. -/
theorem outs7 (u : Fin 1) (q : Fin 128) (n : ℕ) (h : n < cfg4.N) : (outsAt4 V c n h).2.1 (ix2 u q)
    = KShape.zeroW + ∑ s : Fin (n + 1), ∑ p : Fin 4000, blkX V c ⟨s, lt_of_lt_of_le s.isLt h⟩ (ix2 p q) :=
  run_sum (fun n h => (outsAt4 V c n h).2.1 (ix2 u q)) (fun n h => ∑ p : Fin 4000, blkX V c ⟨n, h⟩ (ix2 p q)) _
    (fun h => by rw [outs_zero]; exact addColsum_apply _ _ u q)
    (fun n h => by rw [outs_succ]; exact addColsum_apply _ _ u q) n h

theorem outs8 (u : Fin 1) (q : Fin 128) (n : ℕ) (h : n < cfg4.N) : (outsAt4 V c n h).2.2 (ix2 u q)
    = KShape.zeroW + ∑ s : Fin (n + 1), ∑ p : Fin 4000, blkX V c ⟨s, lt_of_lt_of_le s.isLt h⟩ (ix2 p q) * blkX V c ⟨s, lt_of_lt_of_le s.isLt h⟩ (ix2 p q) :=
  run_sum (fun n h => (outsAt4 V c n h).2.2 (ix2 u q)) (fun n h => ∑ p : Fin 4000, blkX V c ⟨n, h⟩ (ix2 p q) * blkX V c ⟨n, h⟩ (ix2 p q)) _
    (fun h => by rw [outs_zero]; exact addColsum_apply _ _ u q)
    (fun n h => by rw [outs_succ]; exact addColsum_apply _ _ u q) n h

theorem flushed6_eq (t : Fin cfg4.N) :
    (dat4 (F := Ideal) V c).flushed 6 t = ((cfg4.win 6).blk t).view.read (Elt Ideal) (X V c) := by
  show (cfg4.win 6).cut (grid4.coords t) ((dat4 (F := Ideal) V c).after 6 t) = _
  rw [after4_6, outs6]
  exact funext fun j => (congrArg (X V c) (emb6 t j)).symm

/-- Row r lies in block r / 4000, at offset r % 4000. -/
theorem cover6 (i : S200000x128.Idx) : ∃ t : Fin cfg4.N, (cfg4.win 6).flush t = true ∧ i ∈ ((cfg4.win 6).blk t).view.set := by
  have hN : cfg4.N = 50 := N_4
  have h0 : (i 0).val < 200000 := (i 0).isLt
  obtain ⟨t, ht⟩ : ∃ t : Fin cfg4.N, t.val = (i 0).val / 4000 := ⟨⟨_, by omega⟩, rfl⟩
  have hi : ((cfg4.win 6).blk t).view.emb (ix2 ⟨(i 0).val % 4000, Nat.mod_lt _ (by norm_num)⟩ (i 1)) = i :=
    (emb6 t _).trans (Shape.idx_ext₂ (by show t.val * 4000 + (i 0).val % 4000 = (i 0).val; omega) rfl)
  exact ⟨t, flush4_6 t, hi ▸ View.emb_mem_set _ _⟩

theorem last7 (n : ℕ) (h : n < cfg4.N) (hn : n = 49) (u : Fin 1) (q : Fin 128) :
    (outsAt4 V c n h).2.1 (ix2 u q) = KShape.colSum (X V c) (ix2 u q) := by
  subst hn
  rw [outs7]
  simp only [blkX_eq]
  exact total_sum (N := 50) (X V c) _ u q

theorem read7 (t : Fin cfg4.N) (G : KShape.Arr2 1 128) (j : S1x128.Idx) :
    (((cfg4.win 7).blk t).view.read (Elt Ideal) G : Vec Ideal S1x128 .f32) j = G j :=
  congrArg G (emb7 t j)

theorem flushed7_eq (t : Fin cfg4.N) (hf : (cfg4.win 7).flush t = true) :
    (dat4 (F := Ideal) V c).flushed 7 t = ((cfg4.win 7).blk t).view.read (Elt Ideal) (KShape.colSum (X V c)) := by
  have hN : cfg4.N = 50 := N_4
  have h49 : t.val = 49 := by have := (flush4_7 t).mp hf; have := t.isLt; omega
  show (cfg4.win 7).cut (grid4.coords t) ((dat4 (F := Ideal) V c).after 7 t) = _
  rw [after4_7]
  show ((outsAt4 V c t.val t.isLt).2.1 : Vec Ideal S1x128 .f32)
    = (((cfg4.win 7).blk t).view.read (Elt Ideal) (KShape.colSum (X V c)) : Vec Ideal S1x128 .f32)
  funext j
  rw [read7]
  obtain ⟨u, q, rfl⟩ : ∃ (u : Fin 1) (q : Fin 128), j = ix2 u q := ⟨j 0, j 1, eq_ix2 j⟩
  exact last7 V c _ _ h49 u q

theorem cover7 (i : S1x128.Idx) : ∃ t : Fin cfg4.N, (cfg4.win 7).flush t = true ∧ i ∈ ((cfg4.win 7).blk t).view.set :=
  have h : 49 < cfg4.N := by have hN : cfg4.N = 50 := N_4; omega
  ⟨⟨49, h⟩, (flush4_7 _).mpr rfl, emb7 ⟨49, h⟩ i ▸ View.emb_mem_set _ i⟩

theorem last8 (n : ℕ) (h : n < cfg4.N) (hn : n = 49) (u : Fin 1) (q : Fin 128) :
    (outsAt4 V c n h).2.2 (ix2 u q) = KShape.colSumSq (X V c) (ix2 u q) := by
  subst hn
  rw [outs8]
  simp only [blkX_eq]
  exact total_sq (N := 50) (X V c) _ u q

theorem read8 (t : Fin cfg4.N) (G : KShape.Arr2 1 128) (j : S1x128.Idx) :
    (((cfg4.win 8).blk t).view.read (Elt Ideal) G : Vec Ideal S1x128 .f32) j = G j :=
  congrArg G (emb8 t j)

theorem flushed8_eq (t : Fin cfg4.N) (hf : (cfg4.win 8).flush t = true) :
    (dat4 (F := Ideal) V c).flushed 8 t = ((cfg4.win 8).blk t).view.read (Elt Ideal) (KShape.colSumSq (X V c)) := by
  have hN : cfg4.N = 50 := N_4
  have h49 : t.val = 49 := by have := (flush4_8 t).mp hf; have := t.isLt; omega
  show (cfg4.win 8).cut (grid4.coords t) ((dat4 (F := Ideal) V c).after 8 t) = _
  rw [after4_8]
  show ((outsAt4 V c t.val t.isLt).2.2 : Vec Ideal S1x128 .f32)
    = (((cfg4.win 8).blk t).view.read (Elt Ideal) (KShape.colSumSq (X V c)) : Vec Ideal S1x128 .f32)
  funext j
  rw [read8]
  obtain ⟨u, q, rfl⟩ : ∃ (u : Fin 1) (q : Fin 128), j = ix2 u q := ⟨j 0, j 1, eq_ix2 j⟩
  exact last8 V c _ _ h49 u q

theorem cover8 (i : S1x128.Idx) : ∃ t : Fin cfg4.N, (cfg4.win 8).flush t = true ∧ i ∈ ((cfg4.win 8).blk t).view.set :=
  have h : 49 < cfg4.N := by have hN : cfg4.N = 50 := N_4; omega
  ⟨⟨49, h⟩, (flush4_8 _).mpr rfl, emb8 ⟨49, h⟩ i ▸ View.emb_mem_set _ i⟩

end Cert.KernelIdeal.RegionVal.R4

namespace Cert.KernelIdeal.RegionVal

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD)

theorem r4_out6 : (dat4 (F := Ideal) V c).arrAt 6 cfg4.N
    = KShape.atomPre (n := 200000) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) :=
  (dat4 (F := Ideal) V c).arrAt_eq_of_cover 6 (R4.X V c) (fun t _ => R4.flushed6_eq V c t) R4.cover6

theorem r4_out7 : (dat4 (F := Ideal) V c).arrAt 7 cfg4.N
    = KShape.colSum (KShape.atomPre (n := 200000) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) :=
  (dat4 (F := Ideal) V c).arrAt_eq_of_cover 7 (KShape.colSum (R4.X V c)) (R4.flushed7_eq V c) R4.cover7

theorem r4_out8 : (dat4 (F := Ideal) V c).arrAt 8 cfg4.N
    = KShape.colSumSq (KShape.atomPre (n := 200000) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) :=
  (dat4 (F := Ideal) V c).arrAt_eq_of_cover 8 (KShape.colSumSq (R4.X V c)) (R4.flushed8_eq V c) R4.cover8

end Cert.KernelIdeal.RegionVal

end
-- ==== Proof.Region5.lean ====
import proofs.«403924_j58969900974273_2_alg».proof.Proof.Gen.KernelIdeal.Frame
import proofs.«403924_j58969900974273_2_alg».proof.Proof.NormAdd
import proofs.«403924_j58969900974273_2_alg».proof.Proof.RegionAffine

noncomputable section

namespace Cert.KernelIdeal.RegionVal

open Cert.KernelIdeal Cert.KernelIdeal.Gen Cert.KShape Idealize.ShloMosaic Idealize.ShloMosaic.TcCoe Idealize.SL.Sem NormAdd

variable (V : (c : Dev nD) → (b : Ref sig .tc) → Buf (Elt Ideal) ((c : Thread nD τ).loc b)) (c : Dev nD)

private theorem idx : Aff.RowIdx win5_6.index := (by decide +kernel : ∀ t : Fin grid5.N, _)

-- The blocks reach every row: row r is in the block of point r / 4000.
private theorem cover (i : S200000x128.Idx) :
    ∃ t : Fin cfg5.N, (cfg5.win 6).flush t = true ∧ i ∈ ((cfg5.win 6).blk t).view.set := by
  obtain ⟨t, y, rfl⟩ := Aff.cover_rows (m := 4000) (by decide) (by decide)
    (e := fun t y => ((cfg5.win 6).blk t).view.emb y) win5_6.rect_emb_val idx i
  exact ⟨t, flush5_6 t, View.emb_mem_set _ y⟩

-- What the body leaves for a point is the normalise-and-add of the point's six blocks.
private theorem out (x0 x5 : Vec Ideal S4000x128 .f32) (x1 x2 x3 x4 : Vec Ideal S1x128 .f32) :
    out5_6 x0 x1 x2 x3 x4 x5 = normRes x0 x1 x2 x3 x4 x5 := by
  unfold out5_6
  rw [View.canon_unit_zero hz]
  simp only [View.ld_unit_zero (S := S4000x128) hz, View.ld_unit_zero (S := S1x128) hz]
  exact pay4000 ..

-- Each point writes back its block of the normalise-and-add of the arrays, and the blocks reach every row.
theorem r5_out6 : (dat5 (F := Ideal) V c).arrAt 6 cfg5.N
    = KShape.normRes (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) :=
  (dat5 (F := Ideal) V c).arrAt_eq_of_cover 6 _ (fun t _ => by
    have h1 (f : Arr2 1 128) : (fun y => f (((cfg5.win 1).blk t).view.emb y)) = f := funext fun y => congrArg f
      (Shape.idx_ext₂ (win5_1.rect_emb_val_of_index_zero t 0 rfl y) (win5_1.rect_emb_val_of_index_zero t 1 rfl y))
    unfold Pipeline.Dat.flushed
    rw [after5_6, out]
    exact funext fun j : S4000x128.Idx => normRes_blk j _ (win5_6.rect_emb_val_of_index_zero t 1 rfl j) rfl rfl
      (h1 _) (h1 _) (h1 _) (h1 _)) cover

end Cert.KernelIdeal.RegionVal

end
-- ==== Proof.Region6.lean ====
import proofs.«403924_j58969900974273_2_alg».proof.Proof.Gen.KernelIdeal.Frame
import proofs.«403924_j58969900974273_2_alg».proof.Proof.KShape
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionVal

open Idealize.ShloMosaic Idealize.ShloMosaic.TcCoe Idealize.SL.Sem Idealize.ShloMosaic.ValueIdx
open Idealize.ShloMosaic.Pipeline (Dat)
open Cert.KernelIdeal Cert.KernelIdeal.Gen

namespace R6

theorem hz2 : (![0, 0] : Fin 2 → Nat) = fun _ => 0 := funext fun a => by fin_cases a <;> rfl

-- The block sum at an entry is (a + b) + c.
theorem k6_sum_apply (x0 x1 x2 : Vec Ideal S2000x128 .f32) (j : S2000x128.Idx) :
    k6_pay3 (F := Ideal) x0 x1 x2 j = (x0 j + x1 j) + x2 j := by
  unfold k6_pay3
  simp only [shapeCast_self]
  rfl

-- A reduction over the 2000 rows of a block, read at a column, is the sum of that column's entries.
theorem colReduce_apply (v : FVec Ideal S2000x128 .f32) (h : S2000x128.Reduces [0] S128)
    (hacc : (0x00000000#32 : BitVec 32) = 0x00000000#32) (q : Fin 128) :
    multiReduction (F := Ideal) .add [0] S128 v 0x00000000#32 h (.inl rfl) hacc (ix1 q) = ∑ r : Fin 2000, v (ix2 r q) :=
  (Ideal.multiReduction_add_single v 0x00000000#32 h (.inl rfl) hacc (ix1 q)).trans
    (Finset.sum_congr rfl fun r _ => congrArg v (funext fun a => match a with | ⟨0, _⟩ => rfl | ⟨1, _⟩ => rfl))

-- One block adds its column sums, and those of its square, onto the two running rows.
theorem k6_col_apply (x0 x1 x2 : Vec Ideal S2000x128 .f32) (s ss : Vec Ideal S1x128 .f32) (q : Fin 128) :
    k6_pay4 (F := Ideal) x0 x1 x2 s (ix2 0 q) = s (ix2 0 q) + ∑ r : Fin 2000, k6_pay3 (F := Ideal) x0 x1 x2 (ix2 r q)
    ∧ k6_pay5 (F := Ideal) x0 x1 x2 ss (ix2 0 q)
      = ss (ix2 0 q) + ∑ r : Fin 2000, k6_pay3 (F := Ideal) x0 x1 x2 (ix2 r q) * k6_pay3 (F := Ideal) x0 x1 x2 (ix2 r q) := by
  unfold k6_pay4 k6_pay5
  simp only [shapeCast_self]
  constructor <;> refine (addf_apply _ _ _).trans (congrArg (_ + ·) ?_) <;>
    exact (shapeCast_a_1a_apply _ _ 0 q).trans (colReduce_apply _ _ _ q)

-- Both running rows start from the zero row.
theorem k6_zero_apply (q : Fin 128) : (k6_pay1 (F := Ideal)) (ix2 0 q) = 0 ∧ (k6_pay2 (F := Ideal)) (ix2 0 q) = 0 :=
  ⟨Ideal.ofBits_zero_f32, Ideal.ofBits_zero_f32⟩

-- The sum of column q of an array of 8000 rows over its first k rows.
def partialCol (Y : KShape.Arr2 8000 128) (q : Fin 128) (k : ℕ) : EReal :=
  ∑ r ∈ Finset.range k, if h : r < 8000 then Y (ix2 ⟨r, h⟩ q) else 0

theorem partialCol_all (Y : KShape.Arr2 8000 128) (q : Fin 128) : partialCol Y q 8000 = ∑ r : Fin 8000, Y (ix2 r q) := by
  unfold partialCol
  rw [Finset.sum_range]
  exact Finset.sum_congr rfl fun r _ => dif_pos r.isLt

-- One more block of 2000 rows adds that block's column sum.
theorem partialCol_block (Y : KShape.Arr2 8000 128) (q : Fin 128) (n : ℕ) (f : Fin 2000 → EReal)
    (hf : ∀ (p : Fin 2000) (h : 2000 * n + p.val < 8000), f p = Y (ix2 ⟨2000 * n + p.val, h⟩ q)) (hn : n < 4) :
    partialCol Y q (2000 * n) + ∑ p : Fin 2000, f p = partialCol Y q (2000 * (n + 1)) := by
  unfold partialCol
  rw [show 2000 * (n + 1) = 2000 * n + 2000 from by omega, Finset.sum_range_add]
  refine congrArg (_ + ·) ?_
  rw [Finset.sum_range]
  refine Finset.sum_congr rfl fun p _ => ?_
  have h : 2000 * n + p.val < 8000 := by have := p.isLt; omega
  rw [dif_pos h]
  exact hf p h

section Value

variable (V : (c : Dev nD) → (b : Ref sig .tc) → Buf (Elt Ideal) ((c : Thread nD τ).loc b)) (c : Dev nD)

-- The sum of the three input arrays, its entrywise square, and the block sum at a grid point.
abbrev pre : KShape.Arr2 8000 128 :=
  KShape.molPre (V c (Pipeline.arrRef spec6 0)) (V c (Pipeline.arrRef spec6 1)) (V c (Pipeline.arrRef spec6 2))
abbrev preSq : KShape.Arr2 8000 128 := fun j => pre V c j * pre V c j
abbrev pay (t : Fin cfg6.N) : Vec Ideal S2000x128 .f32 := k6_pay3 (iblk6 V c 0 t) (iblk6 V c 1 t) (iblk6 V c 2 t)

-- The first block starts the running rows from zero,
theorem outs_first (t : Fin cfg6.N) (h0 : t.val % 4 = 0) :
    outsAt6 V c t.val t.isLt = (pay V c t, k6_pay4 (iblk6 V c 0 t) (iblk6 V c 1 t) (iblk6 V c 2 t) (k6_pay1 (F := Ideal)),
      k6_pay5 (iblk6 V c 0 t) (iblk6 V c 1 t) (iblk6 V c 2 t) (k6_pay2 (F := Ideal))) := by
  rw [outsAt6_A V c t h0]
  unfold out6_A_3 out6_A_4 out6_A_5
  rw [View.read_writes_eq_canon _ _ _ fun _ => cover6_A_3 (F := Ideal) .., View.read_writes_eq_canon _ _ _ fun _ => cover6_A_4 (F := Ideal) ..,
    View.read_writes_eq_canon _ _ _ fun _ => cover6_A_5 (F := Ideal) ..]
  unfold kernelRun6_A
  sl_unfold_words
  simp only [View.canon_unit_zero (S := S2000x128) hz2, View.canon_cons_unit_zero (S := S1x128) hz2,
    View.readCov_unit_zero (S := S1x128) _ hz2, View.readAt_eq_ld, (hs6_0 t).read_unread, (hs6_1 t).read_unread, (hs6_2 t).read_unread,
    View.ld_unit_zero (S := S2000x128) hz2]

-- and every later block adds onto what the block before left.
theorem outs_later (t : Fin cfg6.N) (h0 : ¬t.val % 4 = 0) :
    outsAt6 V c t.val t.isLt = (pay V c t,
      k6_pay4 (iblk6 V c 0 t) (iblk6 V c 1 t) (iblk6 V c 2 t) (outsAt6 V c (t.val - 1) (Nat.lt_of_le_of_lt (Nat.sub_le _ _) t.isLt)).2.1,
      k6_pay5 (iblk6 V c 0 t) (iblk6 V c 1 t) (iblk6 V c 2 t) (outsAt6 V c (t.val - 1) (Nat.lt_of_le_of_lt (Nat.sub_le _ _) t.isLt)).2.2) := by
  rw [outsAt6_B V c t h0]
  unfold out6_B_3 out6_B_4 out6_B_5
  rw [View.read_writes_eq_canon _ _ _ fun _ => cover6_B_3 (F := Ideal) .., View.read_writes_eq_canon _ _ _ fun _ => cover6_B_4 (F := Ideal) ..,
    View.read_writes_eq_canon _ _ _ fun _ => cover6_B_5 (F := Ideal) ..]
  unfold kernelRun6_B
  sl_unfold_words
  simp only [View.canon_unit_zero (S := S2000x128) hz2, View.canon_unit_zero (S := S1x128) hz2, View.readAt_eq_ld, (hs6_0 t).read_unread, (hs6_1 t).read_unread, (hs6_2 t).read_unread, (hs6_4 t).read_unread,
    (hs6_5 t).read_unread, View.ld_unit_zero (S := S2000x128) hz2, View.ld_unit_zero (S := S1x128) hz2]

-- Block t of an array of rows starts at row 2000·t; a running row is its own only block.
theorem idx_facts : ∀ t : Fin cfg6.N, win6_3.index t 0 = t.val ∧ win6_3.index t 1 = 0
    ∧ (∀ a : Fin 2, win6_4.index t a = 0) ∧ ∀ a : Fin 2, win6_5.index t a = 0 :=
  (by decide +kernel : ∀ t : Fin grid6.N, _)

-- Entry j of block t sits 2000·t rows further down in the array.
theorem emb_sum (t : Fin cfg6.N) (j : S2000x128.Idx) :
    ((((cfg6.win 3).blk t).view.emb j : S8000x128.Idx) 0).val = 2000 * t.val + (j 0).val
    ∧ ((((cfg6.win 3).blk t).view.emb j : S8000x128.Idx) 1).val = (j 1).val := by
  obtain ⟨e0, e1, -⟩ := idx_facts t
  constructor
  · show win6_3.index t 0 * 2000 + 1 * (j 0).val = _
    rw [e0]; omega
  · show win6_3.index t 1 * 128 + 1 * (j 1).val = _
    rw [e1]; omega

-- The inputs and their sum are cut into the same blocks, so block t of the inputs, added, is block t of the sum.
theorem pay_apply (t : Fin cfg6.N) (j : S2000x128.Idx) : pay V c t j = pre V c (((cfg6.win 3).blk t).view.emb j) :=
  (k6_sum_apply _ _ _ j).trans rfl

theorem pay_row (t : Fin cfg6.N) (p : Fin 2000) (q : Fin 128) (h : 2000 * t.val + p.val < 8000) :
    pay V c t (ix2 p q) = pre V c (ix2 ⟨2000 * t.val + p.val, h⟩ q) :=
  (pay_apply V c t _).trans (congrArg (pre V c) (Shape.idx_ext₂ (emb_sum t _).1 (emb_sum t _).2))

-- Rows that hold the column sums over the first 2000·t rows hold, after block t, those over the first 2000·(t + 1).
theorem step (t : Fin cfg6.N) (q : Fin 128) (s ss : Vec Ideal S1x128 .f32)
    (hs : s (ix2 0 q) = partialCol (pre V c) q (2000 * t.val)) (hss : ss (ix2 0 q) = partialCol (preSq V c) q (2000 * t.val)) :
    k6_pay4 (iblk6 V c 0 t) (iblk6 V c 1 t) (iblk6 V c 2 t) s (ix2 0 q) = partialCol (pre V c) q (2000 * (t.val + 1))
    ∧ k6_pay5 (iblk6 V c 0 t) (iblk6 V c 1 t) (iblk6 V c 2 t) ss (ix2 0 q) = partialCol (preSq V c) q (2000 * (t.val + 1)) := by
  have ht : t.val < 4 := lt_of_lt_of_eq t.isLt N_6
  obtain ⟨e4, e5⟩ := k6_col_apply (iblk6 V c 0 t) (iblk6 V c 1 t) (iblk6 V c 2 t) s ss q
  rw [e4, e5, hs, hss]
  exact ⟨partialCol_block _ q _ _ (fun p h => pay_row V c t p q h) ht,
    partialCol_block _ q _ _ (fun p h => congrArg₂ (· * ·) (pay_row V c t p q h) (pay_row V c t p q h)) ht⟩

-- By induction on the block: after block n the running rows hold the column sums over the first 2000·(n + 1) rows.
theorem running_eq : ∀ (n : ℕ) (hn : n < cfg6.N) (q : Fin 128),
    (outsAt6 V c n hn).2.1 (ix2 0 q) = partialCol (pre V c) q (2000 * (n + 1))
    ∧ (outsAt6 V c n hn).2.2 (ix2 0 q) = partialCol (preSq V c) q (2000 * (n + 1))
  | 0, hn, q => by
    rw [outs_first V c ⟨0, hn⟩ rfl]
    exact step V c ⟨0, hn⟩ q _ _ ((k6_zero_apply q).1.trans (Finset.sum_range_zero _).symm)
      ((k6_zero_apply q).2.trans (Finset.sum_range_zero _).symm)
  | n + 1, hn, q => by
    have hB : ¬(⟨n + 1, hn⟩ : Fin cfg6.N).val % 4 = 0 := by have := lt_of_lt_of_eq hn N_6; dsimp only; omega
    rw [outs_later V c ⟨n + 1, hn⟩ hB]
    exact step V c ⟨n + 1, hn⟩ q _ _ (running_eq n (Nat.lt_of_succ_lt hn) q).1 (running_eq n (Nat.lt_of_succ_lt hn) q).2

theorem sum_at (t : Fin cfg6.N) : (outsAt6 V c t.val t.isLt).1 = pay V c t := by
  by_cases h0 : t.val % 4 = 0
  · rw [outs_first V c t h0]
  · rw [outs_later V c t h0]

theorem flushed_sum (t : Fin cfg6.N) :
    (dat6 V c).flushed 3 t = ((cfg6.win 3).blk t).view.read (Elt Ideal) (pre V c) := by
  show (cfg6.win 3).cut (grid6.coords t) ((dat6 V c).after 3 t) = _
  rw [after6_3, sum_at]
  exact funext (pay_apply V c t)

-- Row r of the sum array is in block r / 2000.
theorem cover_sum (i : S8000x128.Idx) : ∃ t : Fin cfg6.N, (cfg6.win 3).flush t = true ∧ i ∈ ((cfg6.win 3).blk t).view.set := by
  have hi0 : (i 0).val < 8000 := idx2_lt0 i
  have hN : cfg6.N = 4 := N_6
  obtain ⟨t, ht⟩ : ∃ t : Fin cfg6.N, t.val = (i 0).val / 2000 := ⟨⟨(i 0).val / 2000, by rw [hN]; omega⟩, rfl⟩
  have e : ((cfg6.win 3).blk t).view.emb (ix2 ⟨(i 0).val % 2000, Nat.mod_lt _ (by omega)⟩ (i 1)) = i :=
    Shape.idx_ext₂ (by rw [(emb_sum t _).1, ht]; show _ + (i 0).val % 2000 = _; omega) (emb_sum t _).2
  exact ⟨t, flush6_3 t, e ▸ View.emb_mem_set _ _⟩

-- A row that holds the column sums over all 8000 rows, read at any index of column q.
theorem row_last (Y : KShape.Arr2 8000 128) (r : Vec Ideal S1x128 .f32) (hr : ∀ q, r (ix2 0 q) = partialCol Y q 8000)
    (j k : S1x128.Idx) (hk : (k 1).val = (j 1).val) : r j = ∑ x : Fin 8000, Y (ix2 x (KShape.colOf k)) := by
  obtain ⟨u, q, rfl⟩ : ∃ (u : Fin 1) (q : Fin 128), j = ix2 u q := ⟨j 0, j 1, eq_ix2 j⟩
  obtain rfl : u = 0 := Subsingleton.elim _ _
  rw [hr q, partialCol_all, show KShape.colOf k = q from Fin.ext hk]

theorem last_of_flush (t : Fin cfg6.N) (h : t.val % 4 = 3) : 2000 * (t.val + 1) = 8000 := by
  have := lt_of_lt_of_eq t.isLt N_6; omega

theorem flushed_colSum (t : Fin cfg6.N) (hf : (cfg6.win 4).flush t = true) :
    (dat6 V c).flushed 4 t = ((cfg6.win 4).blk t).view.read (Elt Ideal) (KShape.colSum (pre V c)) := by
  show (cfg6.win 4).cut (grid6.coords t) ((dat6 V c).after 4 t) = _
  rw [after6_4]
  exact funext fun j => row_last (pre V c) (outsAt6 V c t.val t.isLt).2.1
    (fun q => by rw [(running_eq V c t.val t.isLt q).1, last_of_flush t ((flush6_4 t).mp hf)]) j _
    (by show win6_4.index t 1 * 128 + 1 * (j 1).val = (j 1).val; rw [(idx_facts t).2.2.1 (1 : Fin 2)]; omega)

theorem flushed_colSumSq (t : Fin cfg6.N) (hf : (cfg6.win 5).flush t = true) :
    (dat6 V c).flushed 5 t = ((cfg6.win 5).blk t).view.read (Elt Ideal) (KShape.colSumSq (pre V c)) := by
  show (cfg6.win 5).cut (grid6.coords t) ((dat6 V c).after 5 t) = _
  rw [after6_5]
  exact funext fun j => row_last (preSq V c) (outsAt6 V c t.val t.isLt).2.2
    (fun q => by rw [(running_eq V c t.val t.isLt q).2, last_of_flush t ((flush6_5 t).mp hf)]) j _
    (by show win6_5.index t 1 * 128 + 1 * (j 1).val = (j 1).val; rw [(idx_facts t).2.2.2 (1 : Fin 2)]; omega)

-- A running row's only block is the whole row.
theorem cover_colSum (i : S1x128.Idx) : ∃ t : Fin cfg6.N, (cfg6.win 4).flush t = true ∧ i ∈ ((cfg6.win 4).blk t).view.set := by
  refine ⟨t6_3, (flush6_4 t6_3).mpr rfl, ?_⟩
  show i ∈ ((View.whole main_v118_1).slice (win6_4.rect t6_3)).set
  rw [View.set_slice_whole]
  exact View.mem_set_unit_zero (funext fun a => by show win6_4.index t6_3 a * _ = 0; rw [(idx_facts t6_3).2.2.1 a, Nat.zero_mul]) _ i

theorem cover_colSumSq (i : S1x128.Idx) : ∃ t : Fin cfg6.N, (cfg6.win 5).flush t = true ∧ i ∈ ((cfg6.win 5).blk t).view.set := by
  refine ⟨t6_3, (flush6_5 t6_3).mpr rfl, ?_⟩
  show i ∈ ((View.whole main_v118_2).slice (win6_5.rect t6_3)).set
  rw [View.set_slice_whole]
  exact View.mem_set_unit_zero (funext fun a => by show win6_5.index t6_3 a * _ = 0; rw [(idx_facts t6_3).2.2.2 a, Nat.zero_mul]) _ i

end Value

end R6

section Launch6

open R6

variable (V : (c : Dev nD) → (b : Ref sig .tc) → Buf (Elt Ideal) ((c : Thread nD τ).loc b)) (c : Dev nD)

theorem r6_out3 : (dat6 (F := Ideal) V c).arrAt 3 cfg6.N
    = KShape.molPre (n := 8000) (V c (Pipeline.arrRef spec6 0)) (V c (Pipeline.arrRef spec6 1)) (V c (Pipeline.arrRef spec6 2)) :=
  (dat6 V c).arrAt_eq_of_cover 3 (pre V c) (fun t _ => flushed_sum V c t) (cover_sum)

theorem r6_out4 : (dat6 (F := Ideal) V c).arrAt 4 cfg6.N
    = KShape.colSum (KShape.molPre (n := 8000) (V c (Pipeline.arrRef spec6 0)) (V c (Pipeline.arrRef spec6 1)) (V c (Pipeline.arrRef spec6 2))) :=
  (dat6 V c).arrAt_eq_of_cover 4 (KShape.colSum (pre V c)) (flushed_colSum V c) (cover_colSum)

theorem r6_out5 : (dat6 (F := Ideal) V c).arrAt 5 cfg6.N
    = KShape.colSumSq (KShape.molPre (n := 8000) (V c (Pipeline.arrRef spec6 0)) (V c (Pipeline.arrRef spec6 1)) (V c (Pipeline.arrRef spec6 2))) :=
  (dat6 V c).arrAt_eq_of_cover 5 (KShape.colSumSq (pre V c)) (flushed_colSumSq V c) (cover_colSumSq)

end Launch6

end Cert.KernelIdeal.RegionVal

end
-- ==== Proof.Region7.lean ====
import proofs.«403924_j58969900974273_2_alg».proof.Proof.Gen.KernelIdeal.Frame
import proofs.«403924_j58969900974273_2_alg».proof.Proof.NormAdd
import proofs.«403924_j58969900974273_2_alg».proof.Proof.RegionAffine

noncomputable section

namespace Cert.KernelIdeal.RegionVal

open Cert.KernelIdeal Cert.KernelIdeal.Gen Cert.KShape Idealize.ShloMosaic Idealize.ShloMosaic.TcCoe Idealize.SL.Sem NormAdd

variable (V : (c : Dev nD) → (b : Ref sig .tc) → Buf (Elt Ideal) ((c : Thread nD τ).loc b)) (c : Dev nD)

private theorem idx : Aff.RowIdx win7_6.index := (by decide +kernel : ∀ t : Fin grid7.N, _)

-- The blocks reach every row: row r is in the block of point r / 2000.
private theorem cover (i : S8000x128.Idx) :
    ∃ t : Fin cfg7.N, (cfg7.win 6).flush t = true ∧ i ∈ ((cfg7.win 6).blk t).view.set := by
  obtain ⟨t, y, rfl⟩ := Aff.cover_rows (m := 2000) (by decide) (by decide)
    (e := fun t y => ((cfg7.win 6).blk t).view.emb y) win7_6.rect_emb_val idx i
  exact ⟨t, flush7_6 t, View.emb_mem_set _ y⟩

-- What the body leaves for a point is the normalise-and-add of the point's six blocks.
private theorem out (x0 x5 : Vec Ideal S2000x128 .f32) (x1 x2 x3 x4 : Vec Ideal S1x128 .f32) :
    out7_6 x0 x1 x2 x3 x4 x5 = normRes x0 x1 x2 x3 x4 x5 := by
  unfold out7_6
  rw [View.canon_unit_zero hz]
  simp only [View.ld_unit_zero (S := S2000x128) hz, View.ld_unit_zero (S := S1x128) hz]
  exact pay2000 ..

-- Each point writes back its block of the normalise-and-add of the arrays, and the blocks reach every row.
theorem r7_out6 : (dat7 (F := Ideal) V c).arrAt 6 cfg7.N
    = KShape.normRes (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5)) :=
  (dat7 (F := Ideal) V c).arrAt_eq_of_cover 6 _ (fun t _ => by
    have h1 (f : Arr2 1 128) : (fun y => f (((cfg7.win 1).blk t).view.emb y)) = f := funext fun y => congrArg f
      (Shape.idx_ext₂ (win7_1.rect_emb_val_of_index_zero t 0 rfl y) (win7_1.rect_emb_val_of_index_zero t 1 rfl y))
    unfold Pipeline.Dat.flushed
    rw [after7_6, out]
    exact funext fun j : S2000x128.Idx => normRes_blk j _ (win7_6.rect_emb_val_of_index_zero t 1 rfl j) rfl rfl
      (h1 _) (h1 _) (h1 _) (h1 _)) cover

end Cert.KernelIdeal.RegionVal

end
-- ==== Proof.RegionAll.lean ====
import proofs.«403924_j58969900974273_2_alg».proof.Proof.RegionIface
import proofs.«403924_j58969900974273_2_alg».proof.Proof.Region0
import proofs.«403924_j58969900974273_2_alg».proof.Proof.Region1
import proofs.«403924_j58969900974273_2_alg».proof.Proof.Region2
import proofs.«403924_j58969900974273_2_alg».proof.Proof.Region3
import proofs.«403924_j58969900974273_2_alg».proof.Proof.Region4
import proofs.«403924_j58969900974273_2_alg».proof.Proof.Region5
import proofs.«403924_j58969900974273_2_alg».proof.Proof.Region6
import proofs.«403924_j58969900974273_2_alg».proof.Proof.Region7

noncomputable section

namespace Cert.KernelIdeal.RegionVal

set_option maxHeartbeats 8000000 in

theorem regionFacts : RegionFacts :=
  ⟨r0_out3, r0_out4, r1_out3, r1_out4, r1_out5, r2_out6, r2_out7, r2_out8, r3_out7, r3_out8, r3_out9,
    r4_out6, r4_out7, r4_out8, r5_out6, r6_out3, r6_out4, r6_out5, r7_out6⟩

end Cert.KernelIdeal.RegionVal

end
-- ==== Proof.KShapeCoe.lean ====
import proofs.«403924_j58969900974273_2_alg».proof.Proof.KShape
import proofs.«403924_j58969900974273_2_alg».proof.Proof.Args
import proofs.«403924_j58969900974273_2_alg».proof.Proof.CoeReal

noncomputable section

namespace Cert.KShapeCoe

open Idealize.ShloMosaic Idealize.ShloMosaic.ValueIdx
open Cert.KShape Cert.Args Cert.Coe

variable {n k : ℕ}

theorem affine_coe (x : Fin n → Fin 128 → ℝ) (W : Fin k → Fin 128 → Fin 128 → ℝ) (b : Fin k → Fin 128 → ℝ) (i : Fin k) :
    affine (coe2 x) (coe3 W) (coe2 b) i = coe2 (fun r c => (∑ q, x r q * W i q c) + b i c) := by
  funext j
  show (∑ q : Fin 128, ((x (j 0) q : ℝ) : EReal) * ((W i q (j 1) : ℝ) : EReal)) + ((b i (j 1) : ℝ) : EReal) = _
  simp only [coe2, EReal.coe_add, coe_sum, EReal.coe_mul]

theorem normRes_coe (x : Fin n → Fin 128 → ℝ) (mean var γ β : Fin 1 → Fin 128 → ℝ) (resid : Fin n → Fin 128 → ℝ) :
    normRes (coe2 x) (coe2 mean) (coe2 var) (coe2 γ) (coe2 β) (coe2 resid)
      = coe2 (fun r c => resid r c + max ((x r c - mean 0 c) * rsq (max (var 0 c) 0 + epsVar) * γ 0 c + β 0 c) 0) := by
  funext j
  have hpos : 0 < max (var 0 (j 1)) 0 + epsVar := add_pos_of_nonneg_of_pos (le_max_right _ _) ofBits_epsVar.2
  show ((resid (j 0) (j 1) : ℝ) : EReal)
      + max ((((x (j 0) (j 1) : ℝ) : EReal) - ((mean 0 (j 1) : ℝ) : EReal))
              * Ideal.rsqrt (max ((var 0 (j 1) : ℝ) : EReal) (Ideal.ofBits .f32 0x00000000#32) + Ideal.ofBits .f32 0x3727C5AC#32)
              * ((γ 0 (j 1) : ℝ) : EReal) + ((β 0 (j 1) : ℝ) : EReal)) (Ideal.ofBits .f32 0x00000000#32) = _
  rw [ofBits_zero, ofBits_epsVar.1, max_coe, ← EReal.coe_add, rsqrt_coe hpos, ← EReal.coe_sub, ← EReal.coe_mul,
    ← EReal.coe_mul, ← EReal.coe_add, max_coe, ← EReal.coe_add]
  rfl

theorem colSum_coe (x : Fin n → Fin 128 → ℝ) : colSum (coe2 x) = coe2 (fun (_ : Fin 1) c => ∑ r, x r c) := by
  funext j
  simp only [colSum, coe2, coe_sum]
  rfl

theorem colSumSq_coe (x : Fin n → Fin 128 → ℝ) :
    colSumSq (coe2 x) = coe2 (fun (_ : Fin 1) c => ∑ r, x r c * x r c) := by
  funext j
  simp only [colSumSq, coe2, coe_sum, EReal.coe_mul]
  rfl

theorem bondPre_coe (e a₁ a₂ a₃ : Fin n → Fin 128 → ℝ) (W : Fin 1 → Fin 128 → Fin 128 → ℝ) (b : Fin 1 → Fin 128 → ℝ) :
    bondPre (coe2 e) (coe2 a₁) (coe2 a₂) (coe2 a₃) (coe3 W) (coe2 b)
      = coe2 (fun r c => ((((∑ q, e r q * W 0 q c) + b 0 c) + a₁ r c) + a₂ r c) + a₃ r c) := by
  funext j
  unfold bondPre
  rw [affine_coe]
  simp only [coe2, EReal.coe_add]

theorem atomPre_coe (h : Fin n → Fin 128 → ℝ) (W : Fin 1 → Fin 128 → Fin 128 → ℝ) (b : Fin 1 → Fin 128 → ℝ)
    (num den h₂ : Fin n → Fin 128 → ℝ) (hden : ∀ r c, den r c + epsGate ≠ 0) :
    atomPre (coe2 h) (coe3 W) (coe2 b) (coe2 num) (coe2 den) (coe2 h₂)
      = coe2 (fun r c => (((∑ q, h r q * W 0 q c) + b 0 c) + num r c / (den r c + epsGate)) + h₂ r c) := by
  funext j
  unfold atomPre
  rw [affine_coe]
  show ((((∑ q, h (j 0) q * W 0 q (j 1)) + b 0 (j 1) : ℝ) : EReal)
        + Ideal.div ((num (j 0) (j 1) : ℝ) : EReal) (((den (j 0) (j 1) : ℝ) : EReal) + Ideal.ofBits .f32 0x358637BD#32))
      + ((h₂ (j 0) (j 1) : ℝ) : EReal) = _
  rw [ofBits_epsGate.1, ← EReal.coe_add, div_coe_coe _ (hden (j 0) (j 1)), ← EReal.coe_add, ← EReal.coe_add]
  rfl

theorem molPre_coe (a b c : Fin n → Fin 128 → ℝ) :
    molPre (coe2 a) (coe2 b) (coe2 c) = coe2 (fun r j => (a r j + b r j) + c r j) := by
  funext j
  simp only [molPre, coe2, EReal.coe_add]

theorem gate_coe (x : Fin n → Fin 128 → ℝ) : gate (coe2 x) = coe2 (fun r c => 1 / (1 + Real.exp (-(x r c)))) :=
  funext fun j => logistic_coe (x (j 0) (j 1))

theorem had_coe (x y : Fin n → Fin 128 → ℝ) : had (coe2 x) (coe2 y) = coe2 (fun r c => x r c * y r c) :=
  funext fun j => (EReal.coe_mul (x (j 0) (j 1)) (y (j 0) (j 1))).symm

end Cert.KShapeCoe

end
-- ==== Proof.LibGatherScatterRows.lean ====
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowsGS

open Idealize.ShloMosaic Idealize.ShloMosaic.ValueIdx

variable {N C A B E w : Nat} {α : Type}

private theorem clamp_eq {z : Int} (n : Fin N) (hz : z = (n.val : Int)) : min z.toNat (N - 1) = n.val := by
  rw [hz, Int.toNat_natCast]
  have := n.isLt
  omega

-- An operand axis that no start index addresses starts at zero.
private theorem gstart_unaddressed {s si u : Shape} (d : GatherDims s si u) (j : u.Idx) (idx : IVec si w) (a : Fin s.rank)
    (ha : a ∉ d.startIndexMap) : d.start j idx a = 0 := by
  unfold GatherDims.start
  rw [dif_neg ha]

-- On the row axis the operand index is the start index, clamped; the row is not batched and no offset is added.
private theorem row_coord {s u : Shape} (d : GatherDims s ⟨2, ![E, 1]⟩ u) (j : u.Idx) (idx : IVec ⟨2, ![E, 1]⟩ w) (a : Fin s.rank)
    (e : Fin E) (n : Fin N) (hsize : s.size a - d.sliceSizes a = N - 1) (hm : a ∈ d.startIndexMap)
    (hb : a ∉ d.operandBatchingDims) (hk : a ∉ d.sKept)
    (hsi : d.siIdx j ⟨d.startIndexMap.idxOf a, List.idxOf_lt_length_iff.2 hm⟩ = ix2 e 0)
    (hn : (idx (ix2 e 0)).toInt = (n.val : Int)) : (d.operandIdx j idx a).val = n.val := by
  show d.start j idx a + d.batchCoord j a + d.offCoord j a = n.val
  rw [GatherDims.batchCoord_eq_zero _ _ _ hb, GatherDims.offCoord_eq_zero _ _ _ hk, Nat.add_zero]
  unfold GatherDims.start
  rw [dif_pos hm, hsi, hsize]
  exact clamp_eq n hn

-- On every other axis it is the offset coordinate.
private theorem off_coord {s si u : Shape} (d : GatherDims s si u) (j : u.Idx) (idx : IVec si w) (a : Fin s.rank)
    (hm : a ∉ d.startIndexMap) (hb : a ∉ d.operandBatchingDims) : (d.operandIdx j idx a).val = d.offCoord j a := by
  show d.start j idx a + d.batchCoord j a + d.offCoord j a = _
  rw [gstart_unaddressed _ _ _ _ hm, GatherDims.batchCoord_eq_zero _ _ _ hb, Nat.zero_add]

private theorem g2_operandIdx (wf) (idx : IVec ⟨2, ![E, 1]⟩ w) (e : Fin E) (c : Fin C) (n : Fin N)
    (hn : (idx (ix2 e 0)).toInt = (n.val : Int)) :
    (⟨[1], [0], [], [], [0], 1, ![1, C], wf⟩ : GatherDims ⟨2, ![N, C]⟩ ⟨2, ![E, 1]⟩ ⟨2, ![E, C]⟩).operandIdx
        (ix2 e c) idx = ix2 n c := by
  funext a
  refine Fin.ext ?_
  match a with
  | ⟨0, _⟩ =>
    exact row_coord _ _ idx 0 e n rfl List.mem_cons_self List.not_mem_nil
      (fun h => ((GatherDims.mem_sKept _ _).mp h).1 (List.mem_singleton.mpr rfl))
      (funext fun b' => Fin.ext (match b' with | ⟨0, _⟩ => rfl | ⟨1, _⟩ => rfl)) hn
  | ⟨1, _⟩ => exact (off_coord _ _ idx 1 (by simp) List.not_mem_nil).trans rfl

theorem gather_rows2_apply (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) (n : Fin N)
    (hn : (idx (ix2 e 0)).toInt = (n.val : Int)) :
    Host.gather d x idx (ix2 e c) = x (ix2 n c) := by
  obtain ⟨od, cs, ob, sb, sm, iv, ss, wf⟩ := d
  dsimp only at hod hcs hob hsb hsm hiv hss
  subst hod hcs hob hsb hsm hiv hss
  unfold Host.gather
  rw [g2_operandIdx wf idx e c n hn]

private theorem g3_operandIdx (wf) (idx : IVec ⟨2, ![E, 1]⟩ w) (e : Fin E) (a : Fin A) (b : Fin B) (n : Fin N)
    (hn : (idx (ix2 e 0)).toInt = (n.val : Int)) :
    (⟨[1, 2], [0], [], [], [0], 1, ![1, A, B], wf⟩ : GatherDims ⟨3, ![N, A, B]⟩ ⟨2, ![E, 1]⟩ ⟨3, ![E, A, B]⟩).operandIdx
        (ix3 e a b) idx = ix3 n a b := by
  funext k
  refine Fin.ext ?_
  match k with
  | ⟨0, _⟩ =>
    exact row_coord _ _ idx 0 e n rfl List.mem_cons_self List.not_mem_nil
      (fun h => ((GatherDims.mem_sKept _ _).mp h).1 (List.mem_singleton.mpr rfl))
      (funext fun b' => Fin.ext (match b' with | ⟨0, _⟩ => rfl | ⟨1, _⟩ => rfl)) hn
  | ⟨1, _⟩ => exact (off_coord _ _ idx 1 (by simp) List.not_mem_nil).trans rfl
  | ⟨2, _⟩ => exact (off_coord _ _ idx 2 (by simp) List.not_mem_nil).trans rfl

theorem gather_rows3_apply (d : GatherDims ⟨3, ![N, A, B]⟩ ⟨2, ![E, 1]⟩ ⟨3, ![E, A, B]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![E, 1]⟩ w) (e : Fin E) (a : Fin A) (b : Fin B) (n : Fin N)
    (hn : (idx (ix2 e 0)).toInt = (n.val : Int)) :
    Host.gather d x idx (ix3 e a b) = x (ix3 n a b) := by
  obtain ⟨od, cs, ob, sb, sm, iv, ss, wf⟩ := d
  dsimp only at hod hcs hob hsb hsm hiv hss
  subst hod hcs hob hsb hsm hiv hss
  unfold Host.gather
  rw [g3_operandIdx wf idx e a b n hn]

private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

private theorem start_unaddressed {s si u : Shape} (d : ScatterDims s si u) (j : u.Idx) (idx : IVec si w) (a : Fin s.rank)
    (ha : a ∉ d.scatterDimsToOperandDims) : d.start j idx a = 0 := by
  unfold ScatterDims.start
  rw [dif_neg ha]

private theorem s2_start0 (wf) (idx : IVec ⟨2, ![E, 1]⟩ w) (e : Fin E) (c' : Fin C) :
    (⟨[1], [0], [0], 1, wf⟩ : ScatterDims ⟨2, ![N, C]⟩ ⟨2, ![E, 1]⟩ ⟨2, ![E, C]⟩).start (ix2 e c') idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

private theorem s2_window1 (wf) (e : Fin E) (c' : Fin C) :
    (⟨[1], [0], [0], 1, wf⟩ : ScatterDims ⟨2, ![N, C]⟩ ⟨2, ![E, 1]⟩ ⟨2, ![E, C]⟩).window (ix2 e c') 1 = c'.val := rfl

private theorem s2_resultIdx?_iff (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (c' : Fin C) (n : Fin N) (c : Fin C) :
    d.resultIdx? (ix2 e c') idx = some (ix2 n c) ↔ (idx (ix2 e 0)).toInt = (n.val : Int) ∧ c' = c := by
  obtain ⟨uw, iw, sd, iv, wf⟩ := d
  dsimp only at huw hiw hsd hiv
  subst huw hiw hsd hiv
  rw [resultIdx?_eq_some]
  have w0 := window_inserted (⟨[1], [0], [0], 1, wf⟩ : ScatterDims ⟨2, ![N, C]⟩ ⟨2, ![E, 1]⟩ ⟨2, ![E, C]⟩)
    (ix2 e c') 0 List.mem_cons_self
  have s1 := start_unaddressed (⟨[1], [0], [0], 1, wf⟩ : ScatterDims ⟨2, ![N, C]⟩ ⟨2, ![E, 1]⟩ ⟨2, ![E, C]⟩)
    (ix2 e c') idx 1 (by simp)
  show (∀ a : Fin 2, _) ↔ _
  rw [Fin.forall_fin_two, s2_start0, w0, s1, s2_window1, Nat.cast_zero, Int.add_zero, Int.zero_add]
  exact and_congr Iff.rfl (Nat.cast_inj.trans Fin.val_inj)

theorem scatterAdd_rows2_apply (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Host.scatterAdd (F := Ideal) (φ := .f32) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl fun e _ => ?_
  by_cases he : (idx (ix2 e 0)).toInt = (n.val : Int)
  · rw [if_pos he, Finset.sum_eq_single c]
    · rw [if_pos ((s2_resultIdx?_iff d huw hiw hsd hiv idx e c n c).2 ⟨he, rfl⟩)]
    · intro c' _ hc'
      rw [if_neg fun h => hc' ((s2_resultIdx?_iff d huw hiw hsd hiv idx e c' n c).1 h).2]
    · intro h; exact absurd (Finset.mem_univ _) h
  · rw [if_neg he]
    refine Finset.sum_eq_zero fun c' _ => ?_
    rw [if_neg fun h => he ((s2_resultIdx?_iff d huw hiw hsd hiv idx e c' n c).1 h).1]

end Idealize.ShloMosaic.RowsGS

end
-- ==== Proof.KStage1Alg.lean ====
import Idealize.ShloMosaic.Lib.ValueLayout
import proofs.«403924_j58969900974273_2_alg».proof.Proof.KShapeCoe
import proofs.«403924_j58969900974273_2_alg».proof.Proof.LibGatherScatterRows

noncomputable section

namespace Cert.Stage1Alg

open Idealize.ShloMosaic Idealize.ShloMosaic.ValueIdx Cert.Args Cert.Spec

/-- An affine launch fed coerced rows and a selection of the nine matrices and biases computes the specification's map. -/
theorem affine_of {n k : ℕ} {X : KShape.Arr2 n 128} {Wk : KShape.Arr3 k 128 128} {bk : KShape.Arr2 k 128}
    (x : Fin n → Fin D → ℝ) (W : Fin 9 → Fin D → Fin D → ℝ) (b : Fin 9 → Fin D → ℝ) (sel : Fin k → Fin 9) (i : Fin k)
    (hX : X = coe2 x) (hW : Wk = coe3 fun a => W (sel a)) (hb : bk = coe2 fun a => b (sel a)) :
    KShape.affine X Wk bk i = coe2 (lin W b (sel i) x) := by
  rw [hX, hW, hb]; exact Cert.KShapeCoe.affine_coe x _ _ i

/-- Entry (i, j) of the sliced-off matrix is entry (r, i, j) of the stack. -/
theorem slice_mat_coe {K A B : ℕ} (o : ℕ) (r : Fin K) (hr : r.val = o) (W : Fin K → Fin A → Fin B → ℝ)
    (h : (⟨3, ![K, A, B]⟩ : Shape).Slices ![o, 0, 0] ⟨3, ![1, A, B]⟩)
    (h' : (⟨3, ![1, A, B]⟩ : Shape).ShapeCasts ⟨2, ![A, B]⟩) :
    shapeCast ⟨2, ![A, B]⟩ (extractStridedSlice ⟨3, ![1, A, B]⟩ ![o, 0, 0] (coe3 W) h) h' = coe2 (W r) := by
  funext j
  obtain ⟨a, b, rfl⟩ : ∃ (a : Fin A) (b : Fin B), j = ix2 a b := ⟨j 0, j 1, eq_ix2 j⟩
  rw [shapeCast_1ab_ab_apply]
  refine extractStridedSlice_apply _ _ _ _ (ix3 r a b) (fun ax => ?_)
  match ax with
  | ⟨0, _⟩ => exact hr.trans (Nat.add_zero _).symm
  | ⟨1, _⟩ => exact (Nat.zero_add _).symm
  | ⟨2, _⟩ => exact (Nat.zero_add _).symm

/-- Entry j of the sliced-off row is entry (r, j) of the table. -/
theorem slice_row_coe {K B : ℕ} (o : ℕ) (r : Fin K) (hr : r.val = o) (b : Fin K → Fin B → ℝ)
    (h : (⟨2, ![K, B]⟩ : Shape).Slices ![o, 0] ⟨2, ![1, B]⟩)
    (h' : (⟨2, ![1, B]⟩ : Shape).ShapeCasts ⟨1, ![B]⟩) :
    shapeCast ⟨1, ![B]⟩ (extractStridedSlice ⟨2, ![1, B]⟩ ![o, 0] (coe2 b) h) h'
      = fun j => ((b r (j 0) : ℝ) : EReal) := by
  funext j
  obtain ⟨a, rfl⟩ : ∃ a : Fin B, j = ix1 a := ⟨j 0, eq_ix1 j⟩
  rw [shapeCast_1a_a_apply]
  exact slice2_axis0_apply o (coe2 b) h (0 : Fin 1) a r (hr.trans (Nat.add_zero _).symm)

section Gather
variable {k : ℕ} (idx : IVec ⟨2, ![k, 1]⟩ 32) (sel : Fin k → Fin 9) (hs : ∀ e, (idx (ix2 e 0)).toInt = ((sel e).val : Int))
include hs

/-- Matrices of a coerced stack fetched at index words that read as sel are the selected matrices. -/
theorem gather_mat_coe (d : GatherDims ⟨3, ![9, 128, 128]⟩ ⟨2, ![k, 1]⟩ ⟨3, ![k, 128, 128]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, 128, 128]) (W : Fin 9 → Fin 128 → Fin 128 → ℝ) :
    Host.gather d (coe3 W) idx = coe3 fun a => W (sel a) := by
  funext j
  obtain ⟨e, a, b, rfl⟩ : ∃ (e : Fin k) (a b : Fin 128), j = ix3 e a b := ⟨j 0, j 1, j 2, eq_ix3 j⟩
  exact RowsGS.gather_rows3_apply d hod hcs hob hsb hsm hiv hss _ idx e a b (sel e) (hs e)

/-- The same for rows of a coerced table. -/
theorem gather_row_coe (d : GatherDims ⟨2, ![9, 128]⟩ ⟨2, ![k, 1]⟩ ⟨2, ![k, 128]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, 128]) (b : Fin 9 → Fin 128 → ℝ) :
    Host.gather d (coe2 b) idx = coe2 fun a => b (sel a) := by
  funext j
  obtain ⟨e, a, rfl⟩ : ∃ (e : Fin k) (a : Fin 128), j = ix2 e a := ⟨j 0, j 1, eq_ix2 j⟩
  exact RowsGS.gather_rows2_apply d hod hcs hob hsb hsm hiv hss _ idx e a (sel e) (hs e)

end Gather

end Cert.Stage1Alg

end
-- ==== Proof.KStage1.lean ====
import proofs.«403924_j58969900974273_2_alg».proof.Proof.Gen.KernelIdeal.Frame
import proofs.«403924_j58969900974273_2_alg».proof.Proof.RegionIface
import proofs.«403924_j58969900974273_2_alg».proof.Proof.KStages
import proofs.«403924_j58969900974273_2_alg».proof.Proof.KStage1Alg

noncomputable section

namespace Cert.KernelIdeal.StageVal

open Cert.KernelIdeal Cert.KernelIdeal.Gen Idealize.ShloMosaic Idealize.ShloMosaic.TcCoe Idealize.SL.Sem
open Idealize.ShloMosaic.ValueIdx Idealize.ShloMosaic.StableHlo Cert.Args Cert.KStages Cert.Stage1Alg Cert.Spec

def sel0 : Fin 2 → Fin 9 := ![0, 4]
def sel1 : Fin 3 → Fin 9 := ![2, 5, 8]

section Host
variable (V : Val) (W : Fin 9 → Fin D → Fin D → ℝ) (b : Fin 9 → Fin D → ℝ)

/-- Before the first launch: the matrices gathered for the two launches and the four sliced off for later. -/
theorem host0_W (h3 : V (Proc.devRef .tc main_arg3) = coe3 W) :
    after hostOps0 V (Proc.devRef .tc main_v6) = coe3 (fun a => W (sel0 a))
    ∧ after hostOps0 V (Proc.devRef .tc main_v20) = coe3 (fun a => W (sel1 a))
    ∧ after hostOps0 V (Proc.devRef .tc main_v29) = coe2 (W 1) ∧ after hostOps0 V (Proc.devRef .tc main_v33) = coe2 (W 3)
    ∧ after hostOps0 V (Proc.devRef .tc main_v37) = coe2 (W 6) ∧ after hostOps0 V (Proc.devRef .tc main_v41) = coe2 (W 7) := by
  refine ⟨?_, ?_, ?_, ?_, ?_, ?_⟩ <;> after_results_simp <;> rw [h3]
  · exact gather_mat_coe _ sel0 (by intro e; fin_cases e <;> decide) _ rfl rfl rfl rfl rfl rfl rfl W
  · exact gather_mat_coe _ sel1 (by intro e; fin_cases e <;> decide) _ rfl rfl rfl rfl rfl rfl rfl W
  all_goals exact slice_mat_coe _ _ (by rfl) W _ _

/-- The same for the biases. -/
theorem host0_b (h4 : V (Proc.devRef .tc main_arg4) = coe2 b) :
    after hostOps0 V (Proc.devRef .tc main_v13) = coe2 (fun a => b (sel0 a))
    ∧ after hostOps0 V (Proc.devRef .tc main_v27) = coe2 (fun a => b (sel1 a))
    ∧ after hostOps0 V (Proc.devRef .tc main_v31) = coe1 (b 1) ∧ after hostOps0 V (Proc.devRef .tc main_v35) = coe1 (b 3)
    ∧ after hostOps0 V (Proc.devRef .tc main_v39) = coe1 (b 6) ∧ after hostOps0 V (Proc.devRef .tc main_v43) = coe1 (b 7) := by
  refine ⟨?_, ?_, ?_, ?_, ?_, ?_⟩ <;> after_results_simp <;> rw [h4]
  · exact gather_row_coe _ sel0 (by intro e; fin_cases e <;> decide) _ rfl rfl rfl rfl rfl rfl rfl b
  · exact gather_row_coe _ sel1 (by intro e; fin_cases e <;> decide) _ rfl rfl rfl rfl rfl rfl rfl b
  all_goals exact slice_row_coe _ _ (by rfl) b _ _

/-- No operation before the first launch writes an argument array. -/
theorem host0_arg {a : Ref sig .tc} (ha : a.idx.val < 10 := by decide) :
    after hostOps0 V (Proc.devRef .tc a) = V (Proc.devRef .tc a) :=
  after_of_forall_not_mem _ _ (List.forall_iff_forall_mem.mp (by
    simp only [hostOps0, List.Forall, nullary_writes, unary_writes, binary_writes, ternary_writes, reshape_writes,
      Finset.mem_singleton]
    repeat' apply And.intro
    all_goals exact fun e => absurd (Proc.devRef_injective _ e ▸ ha) (by decide)))

end Host

variable (m : (ℓ : Loc nD τ sig) → Buf (Elt Ideal) ℓ) (ρ : Dev nD → PrngReg) (c : Dev nD)

/-- The two affine launches write only buffers 64 to 68: a launch leaves every other buffer, its input arrays included, as it was. -/
theorem W2_keep (b : Ref sig .tc) (hb : b.idx.val < 64 := by decide) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w
      ((by decide : ∀ w, (Pipeline.arrRef spec0 w).idx.val < 64 → (cfg0.win w).isOut = false) w hb) _).trans (A_eq0 (V1 m ρ) c w))
  · exact W2_of_ne m ρ c b fun w e => h ⟨w, e⟩

theorem W3_keep (b : Ref sig .tc) (hb : b.idx.val < 64 := by decide) :
    W3 m ρ c (Proc.devRef .tc b) = W2 m ρ c (Proc.devRef .tc b) := by
  by_cases h : ∃ w, Pipeline.arrRef spec1 w = b
  · obtain ⟨w, rfl⟩ := h
    exact (W3_arr m ρ c w).trans (((dat1 (V2 m ρ) c).arrAt_in w
      ((by decide : ∀ w, (Pipeline.arrRef spec1 w).idx.val < 64 → (cfg1.win w).isOut = false) w hb) _).trans (A_eq1 (V2 m ρ) c w))
  · exact W3_of_ne m ρ c b fun w e => h ⟨w, e⟩

theorem W3_W1 (b : Ref sig .tc) (hb : b.idx.val < 64 := by decide) :
    W3 m ρ c (Proc.devRef .tc b) = W1 m ρ c (Proc.devRef .tc b) :=
  (W3_keep m ρ c b hb).trans (W2_keep m ρ c b hb)

theorem W3_arg (a : Ref sig .tc) (ha : a.idx.val < 10 := by decide) :
    W3 m ρ c (Proc.devRef .tc a) = W0 m ρ c (Proc.devRef .tc a) :=
  (W3_W1 m ρ c a (by omega)).trans (host0_arg (W0 m ρ c) ha)

section Launches
variable (R : RealArgs) (hR : ArgsAt R (W0 m ρ c))
include hR

/-- What the two launches leave alone: the arguments, and the matrices and biases sliced off before them. -/
theorem stage1_kept : ArgsAt R (W3 m ρ c) ∧ SlicesAt R (W3 m ρ c)
    ∧ W3 m ρ c (Proc.devRef .tc main_v29) = coe2 (R.W 1)
    ∧ W3 m ρ c (Proc.devRef .tc main_v31) = coe1 (R.b 1) := by
  obtain ⟨-, -, w29, w33, w37, w41⟩ := host0_W (W0 m ρ c) R.W hR.h3
  obtain ⟨-, -, b31, b35, b39, b43⟩ := host0_b (W0 m ρ c) R.b hR.h4
  exact ⟨⟨(W3_arg m ρ c main_arg0).trans hR.h0, (W3_arg m ρ c main_arg1).trans hR.h1, (W3_arg m ρ c main_arg2).trans hR.h2,
      (W3_arg m ρ c main_arg3).trans hR.h3, (W3_arg m ρ c main_arg4).trans hR.h4, (W3_arg m ρ c main_arg5).trans hR.h5,
      (W3_arg m ρ c main_arg6).trans hR.h6, (W3_arg m ρ c main_arg7).trans hR.h7, (W3_arg m ρ c main_arg8).trans hR.h8,
      (W3_arg m ρ c main_arg9).trans hR.h9⟩,
    ⟨(W3_W1 m ρ c main_v33).trans w33, (W3_W1 m ρ c main_v35).trans b35, (W3_W1 m ρ c main_v37).trans w37,
      (W3_W1 m ρ c main_v39).trans b39, (W3_W1 m ρ c main_v41).trans w41, (W3_W1 m ρ c main_v43).trans b43⟩,
    (W3_W1 m ρ c main_v29).trans w29, (W3_W1 m ρ c main_v31).trans b31⟩

/-- The launches' outputs: maps 0 and 4 of the atom rows, maps 2, 5 and 8 of the molecule rows. -/
theorem stage1_out (RF : RegionVal.RegionFacts) :
    W3 m ρ c (Proc.devRef .tc main_v44_0) = coe2 (linR R 0 R.h)
    ∧ W3 m ρ c (Proc.devRef .tc main_v44_1) = coe2 (linR R 4 R.h)
    ∧ W3 m ρ c (Proc.devRef .tc main_v45_0) = coe2 (linR R 2 R.u)
    ∧ W3 m ρ c (Proc.devRef .tc main_v45_1) = coe2 (linR R 5 R.u)
    ∧ W3 m ρ c (Proc.devRef .tc main_v45_2) = coe2 (linR R 8 R.u) := by
  obtain ⟨w6, w20, -⟩ := host0_W (W0 m ρ c) R.W hR.h3
  obtain ⟨b13, b27, -⟩ := host0_b (W0 m ρ c) R.b hR.h4
  have a0 := (host0_arg (W0 m ρ c) (a := main_arg0)).trans hR.h0
  have a2 := ((W2_keep m ρ c main_arg2).trans (host0_arg (W0 m ρ c))).trans hR.h2
  have w20' := (W2_keep m ρ c main_v20).trans w20
  have b27' := (W2_keep m ρ c main_v27).trans b27
  exact ⟨(W3_of_ne m ρ c main_v44_0 (by decide)).trans ((W2_arr m ρ c 3).trans ((RF.r0_out3 _ c).trans (affine_of R.h R.W R.b sel0 0 a0 w6 b13))),
    (W3_of_ne m ρ c main_v44_1 (by decide)).trans ((W2_arr m ρ c 4).trans ((RF.r0_out4 _ c).trans (affine_of R.h R.W R.b sel0 1 a0 w6 b13))),
    (W3_arr m ρ c 3).trans ((RF.r1_out3 _ c).trans (affine_of R.u R.W R.b sel1 0 a2 w20' b27')),
    (W3_arr m ρ c 4).trans ((RF.r1_out4 _ c).trans (affine_of R.u R.W R.b sel1 1 a2 w20' b27')),
    (W3_arr m ρ c 5).trans ((RF.r1_out5 _ c).trans (affine_of R.u R.W R.b sel1 2 a2 w20' b27'))⟩

end Launches

/-- The two parts together: every buffer the later launches read holds what the specification names. -/
theorem stage1 (RF : RegionVal.RegionFacts) (m : (ℓ : Loc nD τ sig) → Buf (Elt Ideal) ℓ) (ρ : Dev nD → PrngReg) (c : Dev nD)
    (R : RealArgs)
    (hR : Holds R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :
    At3 R (W3 (F := Ideal) m ρ c) :=
  let ⟨a, s, p, q⟩ := stage1_kept m ρ c R hR
  ⟨a, s, p, q, stage1_out m ρ c R hR RF⟩

end Cert.KernelIdeal.StageVal

end
-- ==== Proof.LibGatherScatterVec.lean ====
import Idealize.ShloMosaic.PureOps.ShapeOps
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate
import Mathlib.Algebra.BigOperators.Group.Finset.Basic
import Mathlib.Data.Fintype.BigOperators

noncomputable section

namespace Idealize.ShloMosaic.RowsGS

open Idealize.ShloMosaic Idealize.ShloMosaic.ValueIdx

variable {N E w : Nat} {α : Type}

theorem toInt_ofNat_of_lt (k : Nat) (hk : k < 2 ^ 31) : (BitVec.ofNat 32 k).toInt = (k : Int) :=
  StableHlo.Predicate.toInt_ofNat_small k hk

theorem gather_vec1_apply (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) (n : Fin N)
    (hn : (idx (ix2 e 0)).toInt = (n.val : Int)) :
    Host.gather d x idx (ix1 e) = x (ix1 n) := by
  have e1 : ∀ {m : Nat} (k : Fin m), ix1 k = Shape.Idx.ofFin k := fun k => funext fun a => match a with | ⟨0, _⟩ => rfl
  have e2 : StableHlo.Predicate.ixP e = ix2 e 0 := funext fun a => match a with | ⟨0, _⟩ => rfl | ⟨1, _⟩ => rfl
  rw [e1 e, e1 n, StableHlo.Predicate.gather_take d hcs hob hsm hiv x idx e n.pos]
  refine congrArg (fun k => x (Shape.Idx.ofFin k)) (Fin.ext ?_)
  show min (idx (StableHlo.Predicate.ixP e)).toInt.toNat (N - 1) = n.val
  rw [e2, hn, Int.toNat_natCast]
  have := n.isLt
  omega

private theorem sum_vecIdx {M : Type*} [AddCommMonoid M] {n : Nat} (f : (⟨1, ![n]⟩ : Shape).Idx → M) :
    ∑ i, f i = ∑ a : Fin n, f (ix1 a) :=
  (Equiv.sum_comp idxEquiv1.symm f).symm

private theorem vec_lands_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i hin
    rw [Option.some_inj]
    constructor
    · rintro rfl a
      have := (hin a).1
      simp only
      omega
    · intro h
      funext a
      refine Fin.ext ?_
      have := h a
      have := (hin a).1
      simp only
      omega
  · rename_i hout
    constructor
    · intro h
      cases h
    · intro h
      refine absurd (fun a => ?_) hout
      have := h a
      have := (i a).isLt
      omega

private theorem vec_lands (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  dsimp only at huw hiw hsd hiv
  subst huw hiw hsd hiv
  rw [vec_lands_iff]

  have hstart : (⟨[], [0], [0], 1, wf⟩ : ScatterDims ⟨1, ![N]⟩ ⟨2, ![E, 1]⟩ ⟨1, ![E]⟩).start (ix1 e) idx 0
      = (idx (ix2 e 0)).toInt := by
    unfold ScatterDims.start
    rw [dif_pos List.mem_cons_self]
    congr 2
    funext b
    refine Fin.ext ?_
    match b with
    | ⟨0, _⟩ => rfl
    | ⟨1, _⟩ => rfl
  have hwin : (⟨[], [0], [0], 1, wf⟩ : ScatterDims ⟨1, ![N]⟩ ⟨2, ![E, 1]⟩ ⟨1, ![E]⟩).window (ix1 e) 0 = 0 := by
    unfold ScatterDims.window
    rw [dif_neg]
    simp [ScatterDims.sKept, Shape.kept, List.mem_filter]
  show (∀ a : Fin 1, _) ↔ _
  rw [Fin.forall_fin_one, hstart, hwin, Nat.cast_zero, Int.add_zero]

theorem scatterAdd_vec1_apply (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) d x idx upd (ix1 n)
      = x (ix1 n) + ∑ e : Fin E, if (idx (ix2 e 0)).toInt = (n.val : Int) then upd (ix1 e) else 0 := by
  unfold Host.scatterAdd
  rw [Ideal.hostScatterAdd_def]
  unfold Ideal.hostScatterAdd
  congr 1
  rw [Finset.sum_filter, sum_vecIdx]
  refine Finset.sum_congr rfl fun e _ => ?_
  by_cases he : (idx (ix2 e 0)).toInt = (n.val : Int)
  · rw [if_pos he, if_pos ((vec_lands d huw hiw hsd hiv idx e n).2 he)]
  · rw [if_neg he, if_neg fun h => he ((vec_lands d huw hiw hsd hiv idx e n).1 h)]

end Idealize.ShloMosaic.RowsGS

end
-- ==== Proof.KStage2Alg.lean ====
import Idealize.ShloMosaic.Lib.StableHlo.Predicate
import proofs.«403924_j58969900974273_2_alg».proof.Proof.LibGatherScatterRows
import proofs.«403924_j58969900974273_2_alg».proof.Proof.LibGatherScatterVec
import proofs.«403924_j58969900974273_2_alg».proof.Proof.KShapeCoe
import proofs.«403924_j58969900974273_2_alg».proof.Proof.SpecReal

noncomputable section

namespace Cert.KStage2

open Idealize.ShloMosaic Idealize.ShloMosaic.ValueIdx Idealize.ShloMosaic.StableHlo.Predicate Cert.KShape Cert.Args Cert.Spec

theorem bondPre_e1K (R : RealArgs) :
    bondPre (coe2 R.e) (coe2 fun k c => lin R.W R.b 0 R.h (R.src k) c) (coe2 fun k c => lin R.W R.b 0 R.h (R.dst k) c)
        (coe2 fun k c => lin R.W R.b 2 R.u (R.mol (R.src k)) c) (coe3 fun (_ : Fin 1) => R.W 1) (coe2 fun (_ : Fin 1) => R.b 1)
      = coe2 (e1K R.h R.e R.u R.W R.b R.src R.dst R.mol) := by
  rw [Cert.KShapeCoe.bondPre_coe]; rfl

theorem toNat_ofNat_small (k : ℕ) (hk : k < 2 ^ 31) : (BitVec.ofNat 32 k).toNat = k := by
  rw [BitVec.toNat_ofNat]; exact Nat.mod_eq_of_lt (by omega)

theorem foldl_andi_one {ι : Type} (f : ι → BitVec 1) (l : List ι) (h : ∀ a ∈ l, f a = 1#1) :
    l.foldl (fun r a => IntOp.andi r (f a)) 1#1 = 1#1 := by
  induction l with
  | nil => rfl
  | cons a l ih =>
    rw [List.foldl_cons, h a (by simp)]
    exact ih fun b hb => h b (by simp [hb])

-- A conjunction of bits that are all one is one.
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

section Take

variable {α : Type} {N M n C : ℕ}

section Col

variable (b0 : (⟨0, ![]⟩ : Shape).BroadcastsInDim ⟨1, ![n]⟩ (![] : Fin 0 → Fin 1))
  (b1 : (⟨1, ![n]⟩ : Shape).BroadcastsInDim ⟨2, ![n, 1]⟩ (![0] : Fin 1 → Fin 2))
  (b2 : (⟨0, ![]⟩ : Shape).BroadcastsInDim ⟨2, ![n, 1]⟩ (![] : Fin 0 → Fin 2))
  (b3 : (⟨1, ![1]⟩ : Shape).BroadcastsInDim ⟨2, ![1, 1]⟩ (![1] : Fin 1 → Fin 2))
  (b4 : (⟨2, ![1, 1]⟩ : Shape).BroadcastsInDim ⟨2, ![n, 1]⟩ (![0, 1] : Fin 2 → Fin 2))
  (r : (⟨2, ![n, 1]⟩ : Shape).ReducesTo [1] ⟨1, ![n]⟩) (hu : 0 < (⟨0, ![]⟩ : Shape).numel) (Nw Nm1 : BitVec 32)

-- A negative index wraps round by the table's length, and the result is laid out as a column.
def wrapCol (i : IVec ⟨1, ![n]⟩ 32) : IVec ⟨2, ![n, 1]⟩ 32 :=
  broadcastInDim ⟨2, ![n, 1]⟩ ![0] b1
    (select (cmpi .slt i (broadcastInDim ⟨1, ![n]⟩ ![] b0 (constantI ⟨0, ![]⟩ 32 0#32)))
      (addi i (broadcastInDim ⟨1, ![n]⟩ ![] b0 (constantI ⟨0, ![]⟩ 32 Nw))) i)

-- Whether each index of the column lies in the table.
def inRange (col : IVec ⟨2, ![n, 1]⟩ 32) : IVec ⟨1, ![n]⟩ 1 :=
  Host.reduce IntOp.andi
    (andi (cmpi .sge col (broadcastInDim ⟨2, ![n, 1]⟩ ![] b2 (constantI ⟨0, ![]⟩ 32 0#32)))
      (cmpi .sle col (broadcastInDim ⟨2, ![n, 1]⟩ ![0, 1] b4
        (broadcastInDim ⟨2, ![1, 1]⟩ ![1] b3 (constantI ⟨1, ![1]⟩ 32 Nm1)))))
    (constantI ⟨0, ![]⟩ 1 1#1) r hu

-- An index that is a position of the table is not wrapped,
theorem wrapCol_idx1 (hN : N < 2 ^ 31) (f : Fin n → Fin N) (j : (⟨2, ![n, 1]⟩ : Shape).Idx) :
    wrapCol b0 b1 Nw (idx1 f) j = BitVec.ofNat 32 (f (j 0)).val := by
  obtain ⟨p, rfl⟩ : ∃ p : Fin n, j = ixP p :=
    ⟨j 0, funext fun a => by
      match a with
      | ⟨0, _⟩ => rfl
      | ⟨1, h⟩ =>
        have h1 : (j ⟨1, h⟩).val < 1 := (j ⟨1, h⟩).isLt
        exact Fin.ext (by show (j ⟨1, h⟩).val = 0; omega)⟩
  show wrapCol b0 b1 Nw (idx1 f) (ixP p) = BitVec.ofNat 32 (f p).val
  unfold wrapCol
  rw [bcast_col1]
  show Scalar.select (IntOp.cmpi .slt (BitVec.ofNat 32 (f p).val) 0#32)
      (IntOp.addi (BitVec.ofNat 32 (f p).val) Nw) (BitVec.ofNat 32 (f p).val) = _
  have hlt : (f p).val < 2 ^ 31 := lt_trans (f p).isLt hN
  exact if_neg fun h => Nat.not_lt_zero _ ((slt_iff_toNat ((toNat_ofNat_small _ hlt).trans_lt hlt) (by decide)).mp h)

-- and lies in the table.
theorem inRange_idx1 (hN : N < 2 ^ 31) (hNm1 : Nm1 = BitVec.ofNat 32 (N - 1)) (f : Fin n → Fin N) (k : (⟨1, ![n]⟩ : Shape).Idx) :
    inRange b2 b3 b4 r hu Nm1 (wrapCol b0 b1 Nw (idx1 f)) k = 1#1 := by
  unfold inRange
  refine reduce_andi_one _ _ r hu k rfl fun i => ?_
  show IntOp.andi (IntOp.cmpi .sge (wrapCol b0 b1 Nw (idx1 f) i) 0#32) (IntOp.cmpi .sle (wrapCol b0 b1 Nw (idx1 f) i) Nm1) = 1#1
  rw [wrapCol_idx1 b0 b1 Nw hN f i, hNm1]
  have hlt : (f (i 0)).val < 2 ^ 31 := lt_trans (f (i 0)).isLt hN
  have hlt' : N - 1 < 2 ^ 31 := by omega
  have hk := toNat_ofNat_small _ hlt
  have hk' := toNat_ofNat_small _ hlt'
  rw [(sge_iff_toNat (hk.trans_lt hlt) (by decide)).mpr (Nat.zero_le _),
    (sle_iff_toNat (hk.trans_lt hlt) (hk'.trans_lt hlt')).mpr (by rw [hk, hk']; have := (f (i 0)).isLt; omega)]
  decide

end Col

section Rows

variable (d : GatherDims ⟨2, ![N, C]⟩ ⟨2, ![n, 1]⟩ ⟨2, ![n, C]⟩)
  (hod : d.offsetDims = [1]) (hcs : d.collapsedSliceDims = [0]) (hob : d.operandBatchingDims = [])
  (hsb : d.startIndicesBatchingDims = []) (hsm : d.startIndexMap = [0]) (hiv : d.indexVectorDim = 1)
  (hss : d.sliceSizes = ![1, C])
  (b0 : (⟨0, ![]⟩ : Shape).BroadcastsInDim ⟨1, ![n]⟩ (![] : Fin 0 → Fin 1))
  (b1 : (⟨1, ![n]⟩ : Shape).BroadcastsInDim ⟨2, ![n, 1]⟩ (![0] : Fin 1 → Fin 2))
  (b2 : (⟨0, ![]⟩ : Shape).BroadcastsInDim ⟨2, ![n, 1]⟩ (![] : Fin 0 → Fin 2))
  (b3 : (⟨1, ![1]⟩ : Shape).BroadcastsInDim ⟨2, ![1, 1]⟩ (![1] : Fin 1 → Fin 2))
  (b4 : (⟨2, ![1, 1]⟩ : Shape).BroadcastsInDim ⟨2, ![n, 1]⟩ (![0, 1] : Fin 2 → Fin 2))
  (r : (⟨2, ![n, 1]⟩ : Shape).ReducesTo [1] ⟨1, ![n]⟩) (hu : 0 < (⟨0, ![]⟩ : Shape).numel)
  (b5 : (⟨1, ![n]⟩ : Shape).BroadcastsInDim ⟨2, ![n, C]⟩ (![0] : Fin 1 → Fin 2))
  (b6 : (⟨0, ![]⟩ : Shape).BroadcastsInDim ⟨2, ![n, C]⟩ (![] : Fin 0 → Fin 2))
  (Nw Nm1 : BitVec 32) (fill : (⟨0, ![]⟩ : Shape).Idx → α)

-- Rows of a table taken at a list of indices, a fill value where an index is outside the table.
def takeRows (x : (⟨2, ![N, C]⟩ : Shape).Idx → α) (i : IVec ⟨1, ![n]⟩ 32) : (⟨2, ![n, C]⟩ : Shape).Idx → α :=
  select (broadcastInDim ⟨2, ![n, C]⟩ ![0] b5 (inRange b2 b3 b4 r hu Nm1 (wrapCol b0 b1 Nw i)))
    (Host.gather d x (wrapCol b0 b1 Nw i))
    (broadcastInDim ⟨2, ![n, C]⟩ ![] b6 fill)

include hod hcs hob hsb hsm hiv hss in
theorem takeRows_idx1 (hN : N < 2 ^ 31) (hNm1 : Nm1 = BitVec.ofNat 32 (N - 1))
    (x : (⟨2, ![N, C]⟩ : Shape).Idx → α) (f : Fin n → Fin N) :
    takeRows d b0 b1 b2 b3 b4 r hu b5 b6 Nw Nm1 fill x (idx1 f) = fun j => x (ix2 (f (j 0)) (j 1)) := by
  funext j
  obtain ⟨p, q, rfl⟩ : ∃ (p : Fin n) (q : Fin C), j = ix2 p q := ⟨j 0, j 1, eq_ix2 j⟩
  show Scalar.select (inRange b2 b3 b4 r hu Nm1 (wrapCol b0 b1 Nw (idx1 f)) _)
      (Host.gather d x (wrapCol b0 b1 Nw (idx1 f)) (ix2 p q)) _ = x (ix2 (f p) q)
  rw [inRange_idx1 b0 b1 b2 b3 b4 r hu Nw Nm1 hN hNm1 f, select_one]
  exact RowsGS.gather_rows2_apply d hod hcs hob hsb hsm hiv hss x _ p q (f p) (by
    rw [wrapCol_idx1 b0 b1 Nw hN f]
    exact toInt_ofNat_small _ (lt_trans (f p).isLt hN))

end Rows

section Vec

variable (d : GatherDims ⟨1, ![N]⟩ ⟨2, ![n, 1]⟩ ⟨1, ![n]⟩)
  (hod : d.offsetDims = []) (hcs : d.collapsedSliceDims = [0]) (hob : d.operandBatchingDims = [])
  (hsb : d.startIndicesBatchingDims = []) (hsm : d.startIndexMap = [0]) (hiv : d.indexVectorDim = 1)
  (hss : d.sliceSizes = ![1])
  (b0 : (⟨0, ![]⟩ : Shape).BroadcastsInDim ⟨1, ![n]⟩ (![] : Fin 0 → Fin 1))
  (b1 : (⟨1, ![n]⟩ : Shape).BroadcastsInDim ⟨2, ![n, 1]⟩ (![0] : Fin 1 → Fin 2))
  (b2 : (⟨0, ![]⟩ : Shape).BroadcastsInDim ⟨2, ![n, 1]⟩ (![] : Fin 0 → Fin 2))
  (b3 : (⟨1, ![1]⟩ : Shape).BroadcastsInDim ⟨2, ![1, 1]⟩ (![1] : Fin 1 → Fin 2))
  (b4 : (⟨2, ![1, 1]⟩ : Shape).BroadcastsInDim ⟨2, ![n, 1]⟩ (![0, 1] : Fin 2 → Fin 2))
  (r : (⟨2, ![n, 1]⟩ : Shape).ReducesTo [1] ⟨1, ![n]⟩) (hu : 0 < (⟨0, ![]⟩ : Shape).numel)
  (Nw Nm1 fillw : BitVec 32)

-- Entries of a table of indices taken at a list of indices.
def takeVec (x : IVec ⟨1, ![N]⟩ 32) (i : IVec ⟨1, ![n]⟩ 32) : IVec ⟨1, ![n]⟩ 32 :=
  select (inRange b2 b3 b4 r hu Nm1 (wrapCol b0 b1 Nw i))
    (Host.gather d x (wrapCol b0 b1 Nw i))
    (broadcastInDim ⟨1, ![n]⟩ ![] b0 (constantI ⟨0, ![]⟩ 32 fillw))

include hod hcs hob hsb hsm hiv hss in
theorem takeVec_idx1 (hN : N < 2 ^ 31) (hNm1 : Nm1 = BitVec.ofNat 32 (N - 1)) (g : Fin N → Fin M) (f : Fin n → Fin N) :
    takeVec d b0 b1 b2 b3 b4 r hu Nw Nm1 fillw (idx1 g) (idx1 f) = idx1 (fun k => g (f k)) := by
  funext j
  obtain ⟨p, rfl⟩ : ∃ p : Fin n, j = ix1 p := ⟨j 0, eq_ix1 j⟩
  show Scalar.select (inRange b2 b3 b4 r hu Nm1 (wrapCol b0 b1 Nw (idx1 f)) (ix1 p))
      (Host.gather d (idx1 g) (wrapCol b0 b1 Nw (idx1 f)) (ix1 p)) _ = BitVec.ofNat 32 (g (f p)).val
  rw [inRange_idx1 b0 b1 b2 b3 b4 r hu Nw Nm1 hN hNm1 f, select_one]
  exact RowsGS.gather_vec1_apply d hod hcs hob hsb hsm hiv hss (idx1 g) _ p (f p) (by
    rw [wrapCol_idx1 b0 b1 Nw hN f]
    exact toInt_ofNat_small _ (lt_trans (f p).isLt hN))

end Vec

end Take

end Cert.KStage2

end
-- ==== Proof.KStage2Host.lean ====
import proofs.«403924_j58969900974273_2_alg».proof.Proof.Gen.KernelIdeal.Launch
import proofs.«403924_j58969900974273_2_alg».proof.Proof.KStages
import proofs.«403924_j58969900974273_2_alg».proof.Proof.KStage2Alg

noncomputable section

namespace Cert.KStage2

open Cert.KernelIdeal Cert.KernelIdeal.Gen Idealize.ShloMosaic Idealize.ShloMosaic.TcCoe Idealize.SL.Sem
open Idealize.ShloMosaic.ValueIdx Cert.Args Cert.KStages Cert.Spec Cert.KShape

abbrev hostRun (V : Val) : Val :=
  StableHlo.after hostOps2_4 (StableHlo.after hostOps2_3 (StableHlo.after hostOps2_2 (StableHlo.after hostOps2_1
    (StableHlo.after hostOps2 V))))

def takeA (x : S200000x128.Idx → EReal) (i : IVec S400000 32) : S400000x128.Idx → EReal :=
  takeRows gather_S200000x128_S400000x1_S400000x128_1_0_n_n_0_1_1128 bcast_S_S400000 bcast_S400000_S400000x1_0 bcast_S_S400000x1 bcast_S1_S1x1_1 bcast_S1x1_S400000x1_0_1 reducesTo_S400000x1_S400000_d1 h_S_
    bcast_S400000_S400000x128_0 bcast_S_S400000x128 200000#32 199999#32 (constant (F := Ideal) S_ .f32 0x7FC00000#32) x i

def takeW (x : IVec S200000 32) (i : IVec S400000 32) : IVec S400000 32 :=
  takeVec gather_S200000_S400000x1_S400000_n_0_n_n_0_1_1 bcast_S_S400000 bcast_S400000_S400000x1_0 bcast_S_S400000x1 bcast_S1_S1x1_1 bcast_S1x1_S400000x1_0_1 reducesTo_S400000x1_S400000_d1 h_S_
    200000#32 199999#32 2147483648#32 x i

def takeG (x : S8000x128.Idx → EReal) (i : IVec S400000 32) : S400000x128.Idx → EReal :=
  takeRows gather_S8000x128_S400000x1_S400000x128_1_0_n_n_0_1_1128 bcast_S_S400000 bcast_S400000_S400000x1_0 bcast_S_S400000x1 bcast_S1_S1x1_1 bcast_S1x1_S400000x1_0_1 reducesTo_S400000x1_S400000_d1 h_S_
    bcast_S400000_S400000x128_0 bcast_S_S400000x128 8000#32 7999#32 (constant (F := Ideal) S_ .f32 0x7FC00000#32) x i

section Unfold
attribute [local irreducible] Host.reduce Host.gather

/-- Each array the five stretches prepare for the launch, as a selection or layout of the buffers they read. -/
theorem run_v46 (V : Val) :
    hostRun V (Proc.devRef .tc main_v46) = takeA (V (Proc.devRef .tc main_v44_0)) (V (Proc.devRef .tc main_arg7)) := by
  after_results_simp
  simp only [StableHlo.TRef.toBuf, StableHlo.TRef.ofBuf, cast_cast, cast_eq]
  rfl

theorem run_v47 (V : Val) :
    hostRun V (Proc.devRef .tc main_v47) = takeA (V (Proc.devRef .tc main_v44_0)) (V (Proc.devRef .tc main_arg8)) := by
  after_results_simp
  simp only [StableHlo.TRef.toBuf, StableHlo.TRef.ofBuf, cast_cast, cast_eq]
  rfl

theorem run_v49 (V : Val) :
    hostRun V (Proc.devRef .tc main_v49)
      = takeG (V (Proc.devRef .tc main_v45_0)) (takeW (V (Proc.devRef .tc main_arg9)) (V (Proc.devRef .tc main_arg7))) := by
  after_results_simp
  simp only [StableHlo.TRef.toBuf, StableHlo.TRef.ofBuf, cast_cast, cast_eq]
  rfl

theorem run_v50_v51 (V : Val) :
    hostRun V (Proc.devRef .tc main_v50)
      = broadcastInDim S1x128x128 ![1, 2] bcast_S128x128_S1x128x128_1_2 (V (Proc.devRef .tc main_v29))
    ∧ hostRun V (Proc.devRef .tc main_v51) = broadcastInDim S1x128 ![1] bcast_S128_S1x128_1 (V (Proc.devRef .tc main_v31)) := by
  constructor <;> after_results_simp

end Unfold

/-- The five stretches write only buffers numbered from 69 on: every earlier buffer keeps its contents. -/
theorem hostRun_carry (V : Val) {b : Ref sig .tc} (hb : b.idx.val < 69 := by decide) :
    hostRun V (Proc.devRef .tc b) = V (Proc.devRef .tc b) := by
  show StableHlo.after hostOps2_4 _ _ = _
  repeat rw [StableHlo.after_of_forall_not_mem (b := Proc.devRef .tc b) _ _ ?_]
  all_goals
    refine List.forall_iff_forall_mem.mp ?_
    simp only [List.Forall, StableHlo.nullary_writes, StableHlo.unary_writes, StableHlo.binary_writes,
      StableHlo.ternary_writes, Finset.mem_singleton]
    repeat' apply And.intro
    all_goals exact fun e => absurd (Proc.devRef_injective _ e ▸ hb) (by decide)

theorem takeA_coe (X : Fin 200000 → Fin 128 → ℝ) (f : Fin 400000 → Fin 200000) :
    takeA (coe2 X) (idx1 f) = coe2 (fun k c => X (f k) c) := by
  unfold takeA
  rw [takeRows_idx1 _ rfl rfl rfl rfl rfl rfl rfl _ _ _ _ _ _ _ _ _ _ _ _ (by norm_num) rfl]
  rfl

theorem takeG_coe (X : Fin 8000 → Fin 128 → ℝ) (f : Fin 400000 → Fin 8000) :
    takeG (coe2 X) (idx1 f) = coe2 (fun k c => X (f k) c) := by
  unfold takeG
  rw [takeRows_idx1 _ rfl rfl rfl rfl rfl rfl rfl _ _ _ _ _ _ _ _ _ _ _ _ (by norm_num) rfl]
  rfl

theorem takeW_idx (g : Fin 200000 → Fin 8000) (f : Fin 400000 → Fin 200000) :
    takeW (idx1 g) (idx1 f) = idx1 (fun k => g (f k)) :=
  takeVec_idx1 _ rfl rfl rfl rfl rfl rfl rfl _ _ _ _ _ _ _ _ _ _ (by norm_num) rfl g f

/-- The prepared arrays are the specification's four terms, matrix and bias: the launch's sum is its bond pre-normalisation. -/
theorem hostRun_at3 (R : RealArgs) (V : Val) (h : At3 R V) :
    bondPre (hostRun V (Proc.devRef .tc main_arg1)) (hostRun V (Proc.devRef .tc main_v46)) (hostRun V (Proc.devRef .tc main_v47))
      (hostRun V (Proc.devRef .tc main_v49)) (hostRun V (Proc.devRef .tc main_v50)) (hostRun V (Proc.devRef .tc main_v51))
      = coe2 (E1 R) := by
  obtain ⟨a, _, h29, h31, h440, _, h450, _, _⟩ := h
  rw [hostRun_carry V (b := main_arg1), run_v46, run_v47, run_v49, (run_v50_v51 V).1, (run_v50_v51 V).2, a.h1, h440, a.h7, a.h8, h450, a.h9, h29, h31,
    takeA_coe, takeA_coe, takeW_idx, takeG_coe]
  exact bondPre_e1K R

end Cert.KStage2

end
-- ==== Proof.KStage2.lean ====
import proofs.«403924_j58969900974273_2_alg».proof.Proof.Gen.KernelIdeal.Frame
import proofs.«403924_j58969900974273_2_alg».proof.Proof.RegionIface
import proofs.«403924_j58969900974273_2_alg».proof.Proof.KStages
import proofs.«403924_j58969900974273_2_alg».proof.Proof.KStage2Host
import proofs.«403924_j58969900974273_2_alg».proof.Proof.KShapeCoe

noncomputable section

namespace Cert.KernelIdeal.StageVal

open Cert.KernelIdeal Cert.KernelIdeal.Gen Idealize.ShloMosaic Idealize.ShloMosaic.TcCoe Idealize.SL.Sem
open Cert.Args Cert.KStages Cert.KStage2 Cert.KShape Cert.Spec

variable (m : (ℓ : Loc nD τ sig) → Buf (Elt Ideal) ℓ) (ρ : Dev nD → PrngReg) (c : Dev nD)

/-- Neither the host stretches nor the launch, whose output arrays come later still, write a buffer numbered below 69. -/
theorem W9_W3 (b : Ref sig .tc) (hb : b.idx.val < 69 := by decide) :
    W9 m ρ c (Proc.devRef .tc b) = W3 m ρ c (Proc.devRef .tc b) := by
  refine Eq.trans ?_ (hostRun_carry _ hb)
  by_cases h : ∃ w, Pipeline.arrRef spec2 w = b
  · obtain ⟨w, rfl⟩ := h
    exact (W9_arr m ρ c w).trans (((dat2 (V8 m ρ) c).arrAt_in w
      ((by decide : ∀ w, (Pipeline.arrRef spec2 w).idx.val < 69 → (cfg2.win w).isOut = false) w hb) _).trans (A_eq2 (V8 m ρ) c w))
  · exact W9_of_ne m ρ c b fun w e => h ⟨w, e⟩

/-- The launch's three outputs are the specification's bond pre-normalisation and its two rows of column sums; the rest is carried. -/
theorem stage2 (RF : RegionVal.RegionFacts) (m : (ℓ : Loc nD τ sig) → Buf (Elt Ideal) ℓ) (ρ : Dev nD → PrngReg)
    (c : Dev nD) (R : Cert.Args.RealArgs) :
    Cert.KStages.At3 R (W3 (F := Ideal) m ρ c) → Cert.KStages.At9 R (W9 (F := Ideal) m ρ c) := by
  intro h3
  have hpre := hostRun_at3 R _ h3
  obtain ⟨a, ⟨s33, s35, s37, s39, s41, s43⟩, _, _, _, h441, _, h451, h452⟩ := h3
  exact ⟨⟨(W9_W3 m ρ c main_arg0).trans a.h0, (W9_W3 m ρ c main_arg1).trans a.h1, (W9_W3 m ρ c main_arg2).trans a.h2,
      (W9_W3 m ρ c main_arg3).trans a.h3, (W9_W3 m ρ c main_arg4).trans a.h4, (W9_W3 m ρ c main_arg5).trans a.h5,
      (W9_W3 m ρ c main_arg6).trans a.h6, (W9_W3 m ρ c main_arg7).trans a.h7, (W9_W3 m ρ c main_arg8).trans a.h8,
      (W9_W3 m ρ c main_arg9).trans a.h9⟩,
    ⟨(W9_W3 m ρ c main_v33).trans s33, (W9_W3 m ρ c main_v35).trans s35, (W9_W3 m ρ c main_v37).trans s37,
      (W9_W3 m ρ c main_v39).trans s39, (W9_W3 m ρ c main_v41).trans s41, (W9_W3 m ρ c main_v43).trans s43⟩,
    (W9_W3 m ρ c main_v44_1).trans h441, (W9_W3 m ρ c main_v45_1).trans h451, (W9_W3 m ρ c main_v45_2).trans h452,
    (W9_arr m ρ c 6).trans ((RF.r2_out6 _ c).trans hpre),
    (W9_arr m ρ c 7).trans ((RF.r2_out7 _ c).trans ((congrArg colSum hpre).trans (KShapeCoe.colSum_coe _))),
    (W9_arr m ρ c 8).trans ((RF.r2_out8 _ c).trans ((congrArg colSumSq hpre).trans (KShapeCoe.colSumSq_coe _)))⟩

end Cert.KernelIdeal.StageVal

end
-- ==== Proof.KStage3Pay.lean ====
import Idealize.ShloMosaic.Lib.Pipeline.Value
import proofs.«403924_j58969900974273_2_alg».proof.Proof.KShapeCoe

noncomputable section

namespace Cert.KernelIdeal.StageVal.Pay3

open Idealize.ShloMosaic Idealize.ShloMosaic.ValueIdx Cert.Spec Cert.Args Cert.Coe

abbrev S0 : Shape := ⟨0, ![]⟩

theorem count_word : Ideal.ofBits .f32 0x48C35000#32 = ((((NB : ℕ) : ℝ)) : EReal) := by
  rw [ofBits_400000]; norm_num

theorem count_wordA : Ideal.ofBits .f32 0x48435000#32 = ((((NA : ℕ) : ℝ)) : EReal) := by
  rw [ofBits_200000]; norm_num

variable {n : ℕ} (w : BitVec 32) (hw : Ideal.ofBits .f32 w = (((n : ℕ) : ℝ) : EReal)) (hn : (n : ℝ) ≠ 0)
  (hb : S0.BroadcastsInDim ⟨2, ![1, 128]⟩ (![] : Fin 0 → Fin 2))

include hw hn in
/-- Dividing by a constant row whose word denotes n ≠ 0 divides every entry by n. -/
theorem div_count_row (s : Fin 1 → Fin 128 → ℝ) :
    Host.divf (F := Ideal) (φ := .f32) (coe2 s) (broadcastInDim ⟨2, ![1, 128]⟩ ![] hb (constant S0 .f32 w))
      = coe2 (fun z c => s z c / n) := by
  funext j
  show Ideal.div ((s (j 0) (j 1) : ℝ) : EReal) (Ideal.ofBits .f32 w) = _
  rw [hw, div_coe_coe _ hn]; rfl

theorem sub_sq_row (q m : Fin 1 → Fin 128 → ℝ) :
    subf (F := Ideal) (φ := .f32) (coe2 q) (mulf (F := Ideal) (φ := .f32) (coe2 m) (coe2 m))
      = coe2 (fun z c => q z c - m z c * m z c) := by
  funext j
  show ((q (j 0) (j 1) : ℝ) : EReal) - ((m (j 0) (j 1) : ℝ) : EReal) * ((m (j 0) (j 1) : ℝ) : EReal) = _
  rw [← EReal.coe_mul, ← EReal.coe_sub]; rfl

/-- Slicing row i off a three-row table. -/
theorem slice_row (i : Fin 3) (hs : (⟨2, ![3, 128]⟩ : Shape).Slices ![i.val, 0] ⟨2, ![1, 128]⟩) (g : Fin 3 → Fin 128 → ℝ) :
    extractStridedSlice ⟨2, ![1, 128]⟩ ![i.val, 0] (coe2 g) hs = coe2 (fun (_ : Fin 1) c => g i c) :=
  funext fun j => extractStridedSlice_apply _ _ hs j (ix2 i (j 1)) fun a => by
    match a with
    | ⟨0, _⟩ => have := (j 0).isLt; show i.val = i.val + (j 0).val; have h1 : (⟨2, ![1, 128]⟩ : Shape).size 0 = 1 := rfl; omega
    | ⟨1, _⟩ => exact (Nat.zero_add _).symm

include hw hn in
/-- Fed the mean row, the variance row E[x²] − E[x]² and row i of the scale and shift tables, normalise-and-add is the specification's. -/
theorem norm_rows (i : Fin 3) (hs : (⟨2, ![3, 128]⟩ : Shape).Slices ![i.val, 0] ⟨2, ![1, 128]⟩)
    {x e : Fin n → Fin D → ℝ} {γ β : Fin 3 → Fin D → ℝ} {a₀ a₅ : KShape.Arr2 n 128} {a₁ a₂ a₃ a₄ : KShape.Arr2 1 128}
    (h₀ : a₀ = coe2 x)
    (h₁ : a₁ = Host.divf (F := Ideal) (φ := .f32) (coe2 fun (_ : Fin 1) c => ∑ r, x r c)
      (broadcastInDim ⟨2, ![1, 128]⟩ ![] hb (constant S0 .f32 w)))
    (h₂ : a₂ = subf (F := Ideal) (φ := .f32)
      (Host.divf (F := Ideal) (φ := .f32) (coe2 fun (_ : Fin 1) c => ∑ r, x r c * x r c) (broadcastInDim ⟨2, ![1, 128]⟩ ![] hb (constant S0 .f32 w)))
      (mulf (F := Ideal) (φ := .f32)
        (Host.divf (F := Ideal) (φ := .f32) (coe2 fun (_ : Fin 1) c => ∑ r, x r c) (broadcastInDim ⟨2, ![1, 128]⟩ ![] hb (constant S0 .f32 w)))
        (Host.divf (F := Ideal) (φ := .f32) (coe2 fun (_ : Fin 1) c => ∑ r, x r c) (broadcastInDim ⟨2, ![1, 128]⟩ ![] hb (constant S0 .f32 w)))))
    (h₃ : a₃ = extractStridedSlice ⟨2, ![1, 128]⟩ ![i.val, 0] (coe2 γ) hs)
    (h₄ : a₄ = extractStridedSlice ⟨2, ![1, 128]⟩ ![i.val, 0] (coe2 β) hs) (h₅ : a₅ = coe2 e) :
    KShape.normRes a₀ a₁ a₂ a₃ a₄ a₅
      = coe2 (fun k c => e k c + relu (bn rsq epsVar γ β (fun c => max (varMom x c) 0) i x k c)) := by
  rw [h₀, h₁, h₂, h₃, h₄, h₅, div_count_row w hw hn hb, div_count_row w hw hn hb, sub_sq_row, slice_row, slice_row,
    Cert.KShapeCoe.normRes_coe]
  rfl

end Cert.KernelIdeal.StageVal.Pay3

end
-- ==== Proof.KStage34Carry.lean ====
import proofs.«403924_j58969900974273_2_alg».proof.Proof.Gen.KernelIdeal.Frame
import proofs.«403924_j58969900974273_2_alg».proof.Proof.KStages

noncomputable section

namespace Cert.KernelIdeal.StageVal.Carry4

open Cert.KernelIdeal Cert.KernelIdeal.Gen Idealize.ShloMosaic Idealize.ShloMosaic.TcCoe Idealize.SL.Sem

/-- The references written between kernels 2 and 3, -/
def wr3 : List (Ref sig .tc) :=
  [main_cst, main_v53, main_v54, main_cst_9, main_v55, main_v56, main_v57, main_v58,
   main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v59,
   main_v60, main_v61]
/-- between kernels 3 and 4, -/
def wr4 : List (Ref sig .tc) :=
  [main_cst_10, main_v63, main_v64, main_v65, main_cst_11, main_v66, main_v67, main_v68,
   main_call5_c, main_call5_v0, main_call5_v1, main_call5_c_0, main_call5_v2, main_call5_v3, main_call5_v4, main_call5_v5,
   main_call5_c_1, main_call5_c_2, main_call5_v6, main_call5_v7, main_call5_v8, main_call5_v9, main_call5_v10, main_call5_v11,
   main_call5_c_3, main_call5_v12, main_call5_v13, main_call5_v14, main_call5_cst, main_call5_v15, main_v69,
   main_v70, main_v71]
/-- and between kernels 4 and 5. -/
def wr5 : List (Ref sig .tc) :=
  [main_cst_12, main_v73, main_v74, main_cst_13, main_v75, main_v76, main_v77, main_v78, main_v79, main_v80]

/-- Every operation of the list writes a reference among W. -/
abbrev Sub (W : List (Ref sig .tc)) (ops : List (HloOp τ sig (Elt Ideal))) : Prop :=
  ops.Forall fun op => op.writes ⊆ (W.map (Proc.devRef (τ := τ) .tc)).toFinset

theorem subs : (Sub wr3 hostOps3 ∧ Sub wr3 hostOps3_1 ∧ Sub wr3 hostOps3_2)
    ∧ (Sub wr4 hostOps4 ∧ Sub wr4 hostOps4_1 ∧ Sub wr4 hostOps4_2) ∧ Sub wr5 hostOps5 := by
  refine ⟨⟨?_, ?_, ?_⟩, ⟨?_, ?_, ?_⟩, ?_⟩ <;> simp only [Sub, List.Forall] <;> repeat' apply And.intro
  all_goals
    simp only [StableHlo.nullary_writes, StableHlo.unary_writes, StableHlo.binary_writes, StableHlo.ternary_writes,
      Finset.singleton_subset_iff, List.mem_toFinset]
    exact List.mem_map_of_mem (by decide)

variable {r : Ref sig .tc}

theorem after3 {W : List (Ref sig .tc)} {o₁ o₂ o₃ : List (HloOp τ sig (Elt Ideal))} (h₁ : Sub W o₁) (h₂ : Sub W o₂) (h₃ : Sub W o₃)
    (X : Valuation τ sig (Elt Ideal)) (hr : r ∉ W) :
    StableHlo.after o₃ (StableHlo.after o₂ (StableHlo.after o₁ X)) (Proc.devRef .tc r) = X (Proc.devRef .tc r) :=
  ((StableHlo.after_of_writes_sub _ _ h₃ hr).trans (StableHlo.after_of_writes_sub _ _ h₂ hr)).trans
    (StableHlo.after_of_writes_sub _ _ h₁ hr)

variable {m : (ℓ : Loc nD τ sig) → Buf (Elt Ideal) ℓ} {ρ : Dev nD → PrngReg} {c : Dev nD}

theorem thru3 (h : ∀ w, Pipeline.arrRef spec3 w = r → (cfg3.win w).isOut = false) :
    W13 (F := Ideal) m ρ c (Proc.devRef .tc r) = W12 (F := Ideal) m ρ c (Proc.devRef .tc r) := by
  by_cases hw : ∃ w, Pipeline.arrRef spec3 w = r
  · obtain ⟨w, rfl⟩ := hw
    exact (W13_arr m ρ c w).trans (((dat3 (V12 m ρ) c).arrAt_in w (h w rfl) _).trans (A_eq3 (V12 m ρ) c w))
  · exact W13_of_ne m ρ c r fun w e => hw ⟨w, e⟩

theorem thru4 (h : ∀ w, Pipeline.arrRef spec4 w = r → (cfg4.win w).isOut = false) :
    W17 (F := Ideal) m ρ c (Proc.devRef .tc r) = W16 (F := Ideal) m ρ c (Proc.devRef .tc r) := by
  by_cases hw : ∃ w, Pipeline.arrRef spec4 w = r
  · obtain ⟨w, rfl⟩ := hw
    exact (W17_arr m ρ c w).trans (((dat4 (V16 m ρ) c).arrAt_in w (h w rfl) _).trans (A_eq4 (V16 m ρ) c w))
  · exact W17_of_ne m ρ c r fun w e => hw ⟨w, e⟩

theorem thru5 (h : ∀ w, Pipeline.arrRef spec5 w = r → (cfg5.win w).isOut = false) :
    W19 (F := Ideal) m ρ c (Proc.devRef .tc r) = W18 (F := Ideal) m ρ c (Proc.devRef .tc r) := by
  by_cases hw : ∃ w, Pipeline.arrRef spec5 w = r
  · obtain ⟨w, rfl⟩ := hw
    exact (W19_arr m ρ c w).trans (((dat5 (V18 m ρ) c).arrAt_in w (h w rfl) _).trans (A_eq5 (V18 m ρ) c w))
  · exact W19_of_ne m ρ c r fun w e => hw ⟨w, e⟩

theorem keep12 {v} (h : W9 (F := Ideal) m ρ c (Proc.devRef .tc r) = v) (hr : r ∉ wr3 := by decide) :
    W12 (F := Ideal) m ρ c (Proc.devRef .tc r) = v :=
  (after3 subs.1.1 subs.1.2.1 subs.1.2.2 _ hr).trans h

theorem keep13 {v} (h : W9 (F := Ideal) m ρ c (Proc.devRef .tc r) = v)
    (hr : r ∉ wr3 ∧ ∀ w, Pipeline.arrRef spec3 w = r → (cfg3.win w).isOut = false := by decide) :
    W13 (F := Ideal) m ρ c (Proc.devRef .tc r) = v :=
  (thru3 hr.2).trans (keep12 h hr.1)

theorem keep16 {v} (h : W13 (F := Ideal) m ρ c (Proc.devRef .tc r) = v) (hr : r ∉ wr4 := by decide) :
    W16 (F := Ideal) m ρ c (Proc.devRef .tc r) = v :=
  (after3 subs.2.1.1 subs.2.1.2.1 subs.2.1.2.2 _ hr).trans h

theorem keep17 {v} (h : W13 (F := Ideal) m ρ c (Proc.devRef .tc r) = v)
    (hr : r ∉ wr4 ∧ ∀ w, Pipeline.arrRef spec4 w = r → (cfg4.win w).isOut = false := by decide) :
    W17 (F := Ideal) m ρ c (Proc.devRef .tc r) = v :=
  (thru4 hr.2).trans (keep16 h hr.1)

theorem keep18 {v} (h : W17 (F := Ideal) m ρ c (Proc.devRef .tc r) = v) (hr : r ∉ wr5 := by decide) :
    W18 (F := Ideal) m ρ c (Proc.devRef .tc r) = v :=
  (StableHlo.after_of_writes_sub _ _ subs.2.2 hr).trans h

theorem keep19 {v} (h : W13 (F := Ideal) m ρ c (Proc.devRef .tc r) = v)
    (hr : (r ∉ wr4 ∧ ∀ w, Pipeline.arrRef spec4 w = r → (cfg4.win w).isOut = false)
      ∧ r ∉ wr5 ∧ ∀ w, Pipeline.arrRef spec5 w = r → (cfg5.win w).isOut = false := by decide) :
    W19 (F := Ideal) m ρ c (Proc.devRef .tc r) = v :=
  (thru5 hr.2.2).trans (keep18 (keep17 h hr.1) hr.2.1)

end Cert.KernelIdeal.StageVal.Carry4

end
-- ==== Proof.KStage3.lean ====
import proofs.«403924_j58969900974273_2_alg».proof.Proof.Gen.KernelIdeal.Frame
import proofs.«403924_j58969900974273_2_alg».proof.Proof.RegionIface
import proofs.«403924_j58969900974273_2_alg».proof.Proof.KStages
import proofs.«403924_j58969900974273_2_alg».proof.Proof.KStage2Alg
import proofs.«403924_j58969900974273_2_alg».proof.Proof.KStage3Pay
import proofs.«403924_j58969900974273_2_alg».proof.Proof.KStage34Carry

noncomputable section

namespace Cert.KernelIdeal.StageVal

open Cert.KernelIdeal Cert.KernelIdeal.Gen Idealize.ShloMosaic Idealize.ShloMosaic.TcCoe Idealize.SL.Sem
open Cert.KStages Cert.Args Cert.Spec Cert.KShapeCoe Carry4

namespace Host3

variable (X : Valuation τ sig (Elt Ideal))

/-- The buffers after the three lists of operations between kernels 2 and 3. -/
abbrev run : Valuation τ sig (Elt Ideal) := StableHlo.after hostOps3_2 (StableHlo.after hostOps3_1 (StableHlo.after hostOps3 X))

/-- The number of bonds, as a row. -/
abbrev cnt : FVec Ideal S1x128 .f32 := broadcastInDim S1x128 ![] bcast_S_S1x128 (constant (F := Ideal) S_ .f32 0x48C35000#32)

theorem v54_eq {s} (h : X (Proc.devRef .tc main_v52_1) = s) : run X (Proc.devRef .tc main_v54) = Host.divf s cnt := by
  subst h; after_results

theorem v58_eq {s q} (h : X (Proc.devRef .tc main_v52_1) = s) (hq : X (Proc.devRef .tc main_v52_2) = q) :
    run X (Proc.devRef .tc main_v58) = subf (Host.divf q cnt) (mulf (Host.divf s cnt) (Host.divf s cnt)) := by
  subst h hq; after_results

theorem v60_eq {g} (h : X (Proc.devRef .tc main_arg5) = g) : run X (Proc.devRef .tc main_v60)
    = extractStridedSlice S1x128 ![1, 0] g slices_S3x128_S1x128_1_0 := by
  subst h; after_results

theorem v61_eq {g} (h : X (Proc.devRef .tc main_arg6) = g) : run X (Proc.devRef .tc main_v61)
    = extractStridedSlice S1x128 ![1, 0] g slices_S3x128_S1x128_1_0 := by
  subst h; after_results

theorem v59_eq {x i} (hx : X (Proc.devRef .tc main_v44_1) = x) (hi : X (Proc.devRef .tc main_arg7) = i) : run X (Proc.devRef .tc main_v59)
    = Cert.KStage2.takeRows gather_S200000x128_S400000x1_S400000x128_1_0_n_n_0_1_1128 bcast_S_S400000 bcast_S400000_S400000x1_0
        bcast_S_S400000x1 bcast_S1_S1x1_1 bcast_S1x1_S400000x1_0_1 reducesTo_S400000x1_S400000_d1 h_S_ bcast_S400000_S400000x128_0
        bcast_S_S400000x128 200000#32 199999#32 (constant (F := Ideal) S_ .f32 0x7FC00000#32) x i := by
  subst hx hi
  after_results_simp
  simp only [StableHlo.TRef.toBuf, StableHlo.TRef.ofBuf, cast_cast, cast_eq]
  rfl

end Host3

open Host3

/-- The bond update: the new bond rows, their gates and the gated messages; every other buffer still needed is carried. -/
theorem stage3 (RF : RegionVal.RegionFacts) (m : (ℓ : Loc nD τ sig) → Buf (Elt Ideal) ℓ) (ρ : Dev nD → PrngReg) (c : Dev nD)
    (R : Cert.Args.RealArgs) :
    Cert.KStages.At9 R (W9 (F := Ideal) m ρ c) → Cert.KStages.At13 R (W13 (F := Ideal) m ρ c) := by
  intro h
  obtain ⟨hargs, ⟨s33, s35, s37, s39, s41, s43⟩, h441, h451, h452, h520, h521, h522⟩ := h
  have N := Pay3.norm_rows _ Pay3.count_word (by norm_num) _ 1 _ (keep12 h520) (v54_eq _ h521) (v58_eq _ h521 h522)
    (v60_eq _ hargs.h5) (v61_eq _ hargs.h6) (keep12 hargs.h1)
  have G := (congrArg KShape.gate N).trans (gate_coe _)
  unfold At13 ArgsAt SlicesAt
  exact ⟨⟨keep13 hargs.h0, keep13 hargs.h1, keep13 hargs.h2, keep13 hargs.h3, keep13 hargs.h4,
      keep13 hargs.h5, keep13 hargs.h6, keep13 hargs.h7, keep13 hargs.h8, keep13 hargs.h9⟩,
    ⟨keep13 s33, keep13 s35, keep13 s37, keep13 s39, keep13 s41, keep13 s43⟩,
    keep13 h451, keep13 h452,
    (W13_arr m ρ c 7).trans ((RF.r3_out7 (V12 m ρ) c).trans N),
    (W13_arr m ρ c 8).trans ((RF.r3_out8 (V12 m ρ) c).trans G),
    (W13_arr m ρ c 9).trans ((RF.r3_out9 (V12 m ρ) c).trans ((congrArg₂ KShape.had G ((v59_eq _ h441 hargs.h7).trans
      (Cert.KStage2.takeRows_idx1 _ rfl rfl rfl rfl rfl rfl rfl _ _ _ _ _ _ _ _ _ _ _ _ (by norm_num) rfl _ R.src))).trans (had_coe _ fun k c => linR R 4 R.h (R.src k) c)))⟩

end Cert.KernelIdeal.StageVal

end
-- ==== Proof.KStage4Alg.lean ====
import proofs.«403924_j58969900974273_2_alg».proof.Proof.KStages
import proofs.«403924_j58969900974273_2_alg».proof.Proof.KShapeCoe
import proofs.«403924_j58969900974273_2_alg».proof.Proof.SpecReal

noncomputable section

namespace Cert.Stage4Alg

open Idealize.ShloMosaic Cert.Spec Cert.Args Cert.KShape Cert.Coe Cert.KStages

variable (R : RealArgs)

/-- The specification's atom rows before normalisation. -/
abbrev HH : Fin NA → Fin D → ℝ := hhOf Real.exp epsGate R.h R.u R.W R.b R.src R.dst R.mol (EO R)

/-- Each gate lies in (0, 1), so a gate total is not negative and the divisor is positive. -/
theorem den_ne (a : Fin NA) (c : Fin D) : (∑ k, if R.dst k = a then SG R k c else 0) + epsGate ≠ 0 :=
  (add_pos_of_nonneg_of_pos (Finset.sum_nonneg fun k _ => by
    split_ifs
    · show 0 ≤ 1 / (1 + Real.exp (-(EO R k c))); positivity
    · exact le_rfl) ofBits_epsGate.2).ne'

theorem atomPre_spec {a₀ a₃ a₄ a₅ : Arr2 NA 128} {a₁ : Arr3 1 128 128} {a₂ : Arr2 1 128}
    (h₀ : a₀ = coe2 R.h) (h₁ : a₁ = coe3 fun (_ : Fin 1) => R.W 3) (h₂ : a₂ = coe2 fun (_ : Fin 1) => R.b 3)
    (h₃ : a₃ = coe2 fun a c => ∑ k, if R.dst k = a then SG R k c * linR R 4 R.h (R.src k) c else 0)
    (h₄ : a₄ = coe2 fun a c => ∑ k, if R.dst k = a then SG R k c else 0) (h₅ : a₅ = coe2 fun a c => linR R 5 R.u (R.mol a) c) :
    atomPre a₀ a₁ a₂ a₃ a₄ a₅ = coe2 (HH R) := by
  rw [h₀, h₁, h₂, h₃, h₄, h₅, Cert.KShapeCoe.atomPre_coe _ _ _ _ _ _ (den_ne R)]; rfl

end Cert.Stage4Alg

end
-- ==== Proof.KStage4Host.lean ====
import Idealize.ShloMosaic.Lib.IdealHost
import Idealize.ShloMosaic.Lib.Pipeline.Value
import proofs.«403924_j58969900974273_2_alg».proof.Proof.Gen.KernelIdeal.Launch
import proofs.«403924_j58969900974273_2_alg».proof.Proof.KStages
import proofs.«403924_j58969900974273_2_alg».proof.Proof.KStage2Alg

noncomputable section

namespace Cert.KernelIdeal.StageVal.Host4

open Cert.KernelIdeal Cert.KernelIdeal.Gen Idealize.ShloMosaic Idealize.ShloMosaic.TcCoe Idealize.SL.Sem
open Idealize.ShloMosaic.ValueIdx Cert.Args Cert.KStages

/-- Rows u added onto a zero array at the rows the index vector i names. -/
abbrev scat (i : IVec S400000 32) (u : FVec Ideal S400000x128 .f32) : FVec Ideal S200000x128 .f32 :=
  Host.scatterAdd (F := Ideal) scatter_S200000x128_S400000x1_S400000x128_1_0_0_1
    (broadcastInDim S200000x128 ![] bcast_S_S200000x128 (constant (F := Ideal) S_ .f32 0x00000000#32))
    (broadcastInDim S400000x1 ![0] bcast_S400000_S400000x1_0 i) u

/-- Every destination word is an atom's number, so every row lands: entry (a, c) is the sum over the bonds ending in a. -/
theorem scatter_read (dst : Fin 400000 → Fin 200000) (u : Fin 400000 → Fin 128 → ℝ) :
    scat (idx1 dst) (coe2 u) = coe2 (fun a c => ∑ k, if dst k = a then u k c else 0) := by
  funext j
  obtain ⟨a, q, rfl⟩ : ∃ a q, j = ix2 a q := ⟨j 0, j 1, eq_ix2 j⟩
  rw [scat, RowsGS.scatterAdd_rows2_apply _ rfl rfl rfl rfl, broadcastInDim_scalar_apply, constant_apply, Cert.Coe.ofBits_zero]
  show ((0 : ℝ) : EReal) + _ = ((∑ k, if dst k = a then u k q else 0 : ℝ) : EReal)
  rw [Cert.Coe.coe_sum, EReal.coe_zero, zero_add]
  refine Finset.sum_congr rfl fun k _ => ?_
  have hk : (broadcastInDim S400000x1 ![0] bcast_S400000_S400000x1_0 (idx1 dst) (ix2 k 0)).toInt = ((dst k).val : Int) := by
    rw [broadcastInDim_apply _ _ _ _ (ix1 k) (fun b => by match b with | ⟨0, _⟩ => rfl)]
    exact StableHlo.Predicate.toInt_ofNat_small _ (lt_trans (dst k).isLt (by norm_num))
  rw [hk]
  by_cases h : dst k = a
  · rw [if_pos (by rw [h]), if_pos h]; rfl
  · rw [if_neg (fun e => h (Fin.ext (by exact_mod_cast e))), if_neg h]; rfl

/-- A matrix, and a vector, given a leading unit axis. -/
theorem bcast_mat (w : Fin 128 → Fin 128 → ℝ) :
    broadcastInDim S1x128x128 ![1, 2] bcast_S128x128_S1x128x128_1_2 (coe2 w) = coe3 fun (_ : Fin 1) => w :=
  funext fun j => broadcastInDim_apply _ _ _ _ (ix2 (j 1) (j 2)) fun b => by match b with | ⟨0, _⟩ => rfl | ⟨1, _⟩ => rfl

theorem bcast_vec (b : Fin 128 → ℝ) :
    broadcastInDim S1x128 ![1] bcast_S128_S1x128_1 (coe1 b) = coe2 fun (_ : Fin 1) => b :=
  funext fun j => broadcastInDim_apply _ _ _ _ (ix1 (j 1)) fun b => by match b with | ⟨0, _⟩ => rfl

variable (X : Valuation τ sig (Elt Ideal))

/-- The buffers after the three lists of operations between kernels 3 and 4. -/
abbrev run : Valuation τ sig (Elt Ideal) := StableHlo.after hostOps4_2 (StableHlo.after hostOps4_1 (StableHlo.after hostOps4 X))

theorem v65_eq {i u} (hi : X (Proc.devRef .tc main_arg8) = i) (hu : X (Proc.devRef .tc main_v62_2) = u) :
    run X (Proc.devRef .tc main_v65) = scat i u := by
  subst hi hu; after_results

theorem v68_eq {i u} (hi : X (Proc.devRef .tc main_arg8) = i) (hu : X (Proc.devRef .tc main_v62_1) = u) :
    run X (Proc.devRef .tc main_v68) = scat i u := by
  subst hi hu; after_results

theorem v69_eq {x i} (hx : X (Proc.devRef .tc main_v45_1) = x) (hi : X (Proc.devRef .tc main_arg9) = i) : run X (Proc.devRef .tc main_v69)
    = Cert.KStage2.takeRows gather_S8000x128_S200000x1_S200000x128_1_0_n_n_0_1_1128 bcast_S_S200000 bcast_S200000_S200000x1_0
        bcast_S_S200000x1 bcast_S1_S1x1_1 bcast_S1x1_S200000x1_0_1 reducesTo_S200000x1_S200000_d1 h_S_ bcast_S200000_S200000x128_0
        bcast_S_S200000x128 8000#32 7999#32 (constant (F := Ideal) S_ .f32 0x7FC00000#32) x i := by
  subst hx hi
  after_results_simp
  simp only [StableHlo.TRef.toBuf, StableHlo.TRef.ofBuf, cast_cast, cast_eq]
  rfl

theorem v70_eq {w} (h : X (Proc.devRef .tc main_v33) = w) : run X (Proc.devRef .tc main_v70)
    = broadcastInDim S1x128x128 ![1, 2] bcast_S128x128_S1x128x128_1_2 w := by
  subst h; after_results

theorem v71_eq {b} (h : X (Proc.devRef .tc main_v35) = b) : run X (Proc.devRef .tc main_v71) = broadcastInDim S1x128 ![1] bcast_S128_S1x128_1 b := by
  subst h; after_results

/-- The number of atoms, as a row. -/
abbrev cnt : FVec Ideal S1x128 .f32 := broadcastInDim S1x128 ![] bcast_S_S1x128 (constant (F := Ideal) S_ .f32 0x48435000#32)

theorem v74_eq {s} (h : X (Proc.devRef .tc main_v72_1) = s) :
    StableHlo.after (hostOps5 (F := Ideal)) X (Proc.devRef .tc main_v74) = Host.divf s cnt := by
  subst h; after_results

theorem v78_eq {s q} (h : X (Proc.devRef .tc main_v72_1) = s) (hq : X (Proc.devRef .tc main_v72_2) = q) :
    StableHlo.after (hostOps5 (F := Ideal)) X (Proc.devRef .tc main_v78)
      = subf (Host.divf q cnt) (mulf (Host.divf s cnt) (Host.divf s cnt)) := by
  subst h hq; after_results

theorem v79_eq {g} (h : X (Proc.devRef .tc main_arg5) = g) : StableHlo.after (hostOps5 (F := Ideal)) X (Proc.devRef .tc main_v79)
    = extractStridedSlice S1x128 ![0, 0] g slices_S3x128_S1x128_0_0 := by
  subst h; after_results

theorem v80_eq {g} (h : X (Proc.devRef .tc main_arg6) = g) : StableHlo.after (hostOps5 (F := Ideal)) X (Proc.devRef .tc main_v80)
    = extractStridedSlice S1x128 ![0, 0] g slices_S3x128_S1x128_0_0 := by
  subst h; after_results

end Cert.KernelIdeal.StageVal.Host4

end
-- ==== Proof.KStage4.lean ====
import proofs.«403924_j58969900974273_2_alg».proof.Proof.Gen.KernelIdeal.Frame
import proofs.«403924_j58969900974273_2_alg».proof.Proof.RegionIface
import proofs.«403924_j58969900974273_2_alg».proof.Proof.KStages
import proofs.«403924_j58969900974273_2_alg».proof.Proof.KStage3Pay
import proofs.«403924_j58969900974273_2_alg».proof.Proof.KStage34Carry
import proofs.«403924_j58969900974273_2_alg».proof.Proof.KStage4Alg
import proofs.«403924_j58969900974273_2_alg».proof.Proof.KStage4Host

noncomputable section

namespace Cert.KernelIdeal.StageVal

open Cert.KernelIdeal Cert.KernelIdeal.Gen Idealize.ShloMosaic Idealize.ShloMosaic.TcCoe Idealize.SL.Sem
open Cert.KStages Cert.Args Cert.Spec Cert.KShapeCoe Cert.Stage4Alg Carry4 Host4

/-- The atom update: gated messages and gates summed per atom, their quotient added to the two projections, then normalise-and-add. -/
theorem stage4 (RF : RegionVal.RegionFacts) (m) (ρ) (c : Dev nD) (R : Cert.Args.RealArgs) :
    Cert.KStages.At13 R (W13 (F := Ideal) m ρ c) → Cert.KStages.At19 R (W19 (F := Ideal) m ρ c) := by
  intro h
  obtain ⟨hargs, ⟨s33, s35, s37, s39, s41, s43⟩, h451, h452, h620, h621, h622⟩ := h
  have P := atomPre_spec R (keep16 hargs.h0) ((v70_eq _ s33).trans (bcast_mat _)) ((v71_eq _ s35).trans (bcast_vec _))
    ((v65_eq _ hargs.h8 h622).trans (scatter_read R.dst _)) ((v68_eq _ hargs.h8 h621).trans (scatter_read R.dst _))
    ((v69_eq _ h451 hargs.h9).trans
      (Cert.KStage2.takeRows_idx1 _ rfl rfl rfl rfl rfl rfl rfl _ _ _ _ _ _ _ _ _ _ _ _ (by norm_num) rfl _ R.mol))
  have S1 := (W17_arr m ρ c 7).trans ((RF.r4_out7 (V16 m ρ) c).trans ((congrArg KShape.colSum P).trans (colSum_coe _)))
  have S2 := (W17_arr m ρ c 8).trans ((RF.r4_out8 (V16 m ρ) c).trans ((congrArg KShape.colSumSq P).trans (colSumSq_coe _)))
  unfold At19 ArgsAt SlicesAt
  exact ⟨⟨keep19 hargs.h0, keep19 hargs.h1, keep19 hargs.h2, keep19 hargs.h3, keep19 hargs.h4,
      keep19 hargs.h5, keep19 hargs.h6, keep19 hargs.h7, keep19 hargs.h8, keep19 hargs.h9⟩,
    ⟨keep19 s33, keep19 s35, keep19 s37, keep19 s39, keep19 s41, keep19 s43⟩,
    keep19 h452, keep19 h620,
    (W19_arr m ρ c 6).trans ((RF.r5_out6 (V18 m ρ) c).trans (Pay3.norm_rows _ Pay3.count_wordA (by norm_num) _ 0 _
      (keep18 ((W17_arr m ρ c 6).trans ((RF.r4_out6 (V16 m ρ) c).trans P))) (v74_eq _ S1) (v78_eq _ S1 S2)
      (v79_eq _ (keep17 hargs.h5)) (v80_eq _ (keep17 hargs.h6)) (keep18 (keep17 hargs.h0))))⟩

end Cert.KernelIdeal.StageVal

end
-- ==== Proof.KStage5Defs.lean ====
import proofs.«403924_j58969900974273_2_alg».proof.Proof.Gen.KernelIdeal
import proofs.«403924_j58969900974273_2_alg».proof.Proof.KStage2Alg

noncomputable section

namespace Cert.KernelIdeal.StageVal.S5

open Cert.KernelIdeal Cert.KernelIdeal.Gen Idealize.ShloMosaic

/-- The constant array: one word at every index. -/
def splat (s : Shape) (h : S_.BroadcastsInDim s ![]) (w : BitVec 32) : FVec Ideal s .f32 :=
  broadcastInDim s ![] h (constant (F := Ideal) S_ .f32 w)

section Seg
variable {E : ℕ} (bc : (⟨1, ![E]⟩ : Shape).BroadcastsInDim ⟨2, ![E, 1]⟩ ![0]) (idx : IVec ⟨1, ![E]⟩ 32)

/-- Row g of the result is the sum of the update rows whose index is g. -/
def segRows (d : ScatterDims S8000x128 ⟨2, ![E, 1]⟩ ⟨2, ![E, 128]⟩) (upd : FVec Ideal ⟨2, ![E, 128]⟩ .f32) :
    FVec Ideal S8000x128 .f32 :=
  Host.scatterAdd d (splat S8000x128 bcast_S_S8000x128 0#32) (broadcastInDim ⟨2, ![E, 1]⟩ ![0] bc idx) upd

/-- Entry g counts the indices equal to g: the same sum with ones for updates. -/
def segCnt (d : ScatterDims S8000 ⟨2, ![E, 1]⟩ ⟨1, ![E]⟩) (b1 : S_.BroadcastsInDim ⟨1, ![E]⟩ ![]) : FVec Ideal S8000 .f32 :=
  Host.scatterAdd d (splat S8000 bcast_S_S8000 0#32) (broadcastInDim ⟨2, ![E, 1]⟩ ![0] bc idx)
    (splat ⟨1, ![E]⟩ b1 0x3F800000#32)

end Seg

/-- The table read at each index: the molecule of every bond's destination atom. -/
def takeMol (mol : IVec S200000 32) (dst : IVec S400000 32) : IVec S400000 32 :=
  KStage2.takeVec gather_S200000_S400000x1_S400000_n_0_n_n_0_1_1 bcast_S_S400000 bcast_S400000_S400000x1_0
    bcast_S_S400000x1 bcast_S1_S1x1_1 bcast_S1x1_S400000x1_0_1 reducesTo_S400000x1_S400000_d1 h_S_
    200000#32 199999#32 2147483648#32 mol dst

section Mol
variable (s : FVec Ideal S8000x128 .f32) (cnt : FVec Ideal S8000 .f32) (W : FVec Ideal S128x128 .f32)
  (b : FVec Ideal S128 .f32)

/-- The array whose entry (g, c) is v g. -/
def colSpread (v : FVec Ideal S8000 .f32) : FVec Ideal S8000x128 .f32 :=
  broadcastInDim S8000x128 ![0, 1] bcast_S8000x1_S8000x128_0_1 (broadcastInDim S8000x1 ![0] bcast_S8000_S8000x1_0 v)

/-- The array whose entry (g, c) is v c. -/
def rowSpread (v : FVec Ideal S128 .f32) : FVec Ideal S8000x128 .f32 :=
  broadcastInDim S8000x128 ![0, 1] bcast_S1x128_S8000x128_0_1 (broadcastInDim S1x128 ![1] bcast_S128_S1x128_1 v)

/-- s · W + cnt ⊗ b. -/
def proj : FVec Ideal S8000x128 .f32 :=
  addf (Host.dotGeneral dot_S8000x128_S128x128_S8000x128_1_0_0_1_n_n none s W) (mulf (colSpread cnt) (rowSpread b))

/-- The projection divided entrywise by max(cnt, 1). -/
def molA : FVec Ideal S8000x128 .f32 :=
  Host.divf (proj s cnt W b) (colSpread (maximumf cnt (splat S8000 bcast_S_S8000 0x3F800000#32)))

/-- The projection divided by the constant 400000. -/
def molB : FVec Ideal S8000x128 .f32 :=
  Host.divf (proj s cnt W b) (splat S8000x128 bcast_S_S8000x128 0x48C35000#32)

end Mol

/-- Column sums divided by 8000. -/
def meanRow (s : FVec Ideal S1x128 .f32) : FVec Ideal S1x128 .f32 :=
  Host.divf s (splat S1x128 bcast_S_S1x128 0x45FA0000#32)

/-- From the sums and the sums of squares: E[x²] − E[x]². -/
def varRow (s1 s2 : FVec Ideal S1x128 .f32) : FVec Ideal S1x128 .f32 :=
  subf (meanRow s2) (mulf (meanRow s1) (meanRow s1))

def row2 (a : FVec Ideal S3x128 .f32) : FVec Ideal S1x128 .f32 :=
  extractStridedSlice S1x128 ![2, 0] a slices_S3x128_S1x128_2_0

/-- The two projections of the per-molecule sums plus the molecule's own affine image. -/
def pre (arg9 : IVec S200000 32) (arg8 : IVec S400000 32) (v81 : FVec Ideal S200000x128 .f32) (v62 : FVec Ideal S400000x128 .f32)
    (v37 : FVec Ideal S128x128 .f32) (v39 : FVec Ideal S128 .f32) (v41 : FVec Ideal S128x128 .f32) (v43 : FVec Ideal S128 .f32)
    (v45 : FVec Ideal S8000x128 .f32) : FVec Ideal S8000x128 .f32 :=
  KShape.molPre
    (molA (segRows bcast_S200000_S200000x1_0 arg9 scatter_S8000x128_S200000x1_S200000x128_1_0_0_1 v81)
      (segCnt bcast_S200000_S200000x1_0 arg9 scatter_S8000_S200000x1_S200000_n_0_0_1 bcast_S_S200000) v37 v39)
    (molB (segRows bcast_S400000_S400000x1_0 (takeMol arg9 arg8) scatter_S8000x128_S400000x1_S400000x128_1_0_0_1 v62)
      (segCnt bcast_S400000_S400000x1_0 (takeMol arg9 arg8) scatter_S8000_S400000x1_S400000_n_0_0_1 bcast_S_S400000) v41 v43)
    v45

/-- x0 normalised by its own column mean and variance, scaled, shifted, clipped at zero, plus the residual. -/
def out (x0 : FVec Ideal S8000x128 .f32) (arg5 arg6 : FVec Ideal S3x128 .f32) (arg2 : FVec Ideal S8000x128 .f32) :
    FVec Ideal S8000x128 .f32 :=
  KShape.normRes x0 (meanRow (KShape.colSum x0)) (varRow (KShape.colSum x0) (KShape.colSumSq x0)) (row2 arg5) (row2 arg6) arg2

end Cert.KernelIdeal.StageVal.S5

end
-- ==== Proof.KStage5Val.lean ====
import proofs.«403924_j58969900974273_2_alg».proof.Proof.KStage5Defs
import proofs.«403924_j58969900974273_2_alg».proof.Proof.KStages
import proofs.«403924_j58969900974273_2_alg».proof.Proof.KShapeCoe
import Idealize.ShloMosaic.Lib.ValueLayout
import Idealize.ShloMosaic.Lib.IdealHost
import Idealize.ShloMosaic.Lib.StackMember

noncomputable section

namespace Cert.KernelIdeal.StageVal.S5

open Cert.KernelIdeal Cert.KernelIdeal.Gen Idealize.ShloMosaic Idealize.ShloMosaic.ValueIdx Cert.Args Cert.KStages Cert.Spec

theorem splat_apply (s : Shape) (h : S_.BroadcastsInDim s ![]) (w : BitVec 32) (j : s.Idx) :
    splat s h w j = Ideal.ofBits .f32 w :=
  broadcastInDim_scalar_apply h _ j

/-- A word below 2³¹ read signed is the number itself. -/
theorem bcol_toInt {E N : ℕ} (hN : N ≤ 2 ^ 31) (h : (⟨1, ![E]⟩ : Shape).BroadcastsInDim ⟨2, ![E, 1]⟩ ![0])
    (f : Fin E → Fin N) (e : Fin E) :
    (broadcastInDim ⟨2, ![E, 1]⟩ ![0] h (idx1 f) (ix2 e 0)).toInt = ((f e).val : Int) :=
  (congrArg BitVec.toInt (StableHlo.Predicate.bcast_col1 h (idx1 f) e)).trans
    (RowsGS.toInt_ofNat_of_lt _ (by have := (f e).isLt; omega))

/-- On real data the masked sum of the updates is the real sum over the rows f sends to n. -/
theorem zero_add_sum_ite {E N : ℕ} (f : Fin E → Fin N) (I : Fin E → Int) (hI : ∀ e, I e = ((f e).val : Int))
    (u : Fin E → ℝ) (U : Fin E → EReal) (hU : ∀ e, U e = ((u e : ℝ) : EReal)) (n : Fin N) (z : EReal)
    (hz : z = ((0 : ℝ) : EReal)) :
    z + ∑ e : Fin E, (if I e = (n.val : Int) then U e else 0) = ((∑ e, if f e = n then u e else 0 : ℝ) : EReal) := by
  rw [hz, EReal.coe_zero, zero_add, Coe.coe_sum]
  refine Finset.sum_congr rfl fun e _ => ?_
  rw [hI e, hU e]
  by_cases h : f e = n
  · rw [if_pos (by rw [h]), if_pos h]
  · rw [if_neg (fun h' => h (Fin.ext (by exact_mod_cast h'))), if_neg h, EReal.coe_zero]

section Seg
variable {E : ℕ} (bc : (⟨1, ![E]⟩ : Shape).BroadcastsInDim ⟨2, ![E, 1]⟩ ![0]) (f : Fin E → Fin 8000)

theorem segRows_eq (d : ScatterDims S8000x128 ⟨2, ![E, 1]⟩ ⟨2, ![E, 128]⟩) (huw : d.updateWindowDims = [1])
    (hiw : d.insertedWindowDims = [0]) (hsd : d.scatterDimsToOperandDims = [0]) (hiv : d.indexVectorDim = 1)
    (u : Fin E → Fin 128 → ℝ) :
    segRows bc (idx1 f) d (coe2 u) = coe2 (fun g c => ∑ a, if f a = g then u a c else 0) := by
  funext j
  rw [eq_ix2 j]
  exact (RowsGS.scatterAdd_rows2_apply (N := 8000) (C := 128) d huw hiw hsd hiv _ _ _ (j 0) (j 1)).trans
    (zero_add_sum_ite f _ (bcol_toInt (by norm_num) bc f) (fun e => u e (j 1)) _ (fun _ => rfl) (j 0) _
      ((splat_apply ..).trans Coe.ofBits_zero))

theorem segCnt_eq (d : ScatterDims S8000 ⟨2, ![E, 1]⟩ ⟨1, ![E]⟩) (huw : d.updateWindowDims = [])
    (hiw : d.insertedWindowDims = [0]) (hsd : d.scatterDimsToOperandDims = [0]) (hiv : d.indexVectorDim = 1)
    (b1 : S_.BroadcastsInDim ⟨1, ![E]⟩ ![]) :
    segCnt bc (idx1 f) d b1 = coe1 (fun g => ∑ a, if f a = g then (1 : ℝ) else 0) := by
  funext j
  rw [eq_ix1 j]
  exact (RowsGS.scatterAdd_vec1_apply (N := 8000) d huw hiw hsd hiv _ _ _ (j 0)).trans
    (zero_add_sum_ite f _ (bcol_toInt (by norm_num) bc f) (fun _ => 1) _
      (fun _ => (splat_apply ..).trans Coe.ofBits_one) (j 0) _ ((splat_apply ..).trans Coe.ofBits_zero))

end Seg

theorem takeMol_eq (mol : Fin 200000 → Fin 8000) (dst : Fin 400000 → Fin 200000) :
    takeMol (idx1 mol) (idx1 dst) = idx1 (fun k => mol (dst k)) :=
  KStage2.takeVec_idx1 _ rfl rfl rfl rfl rfl rfl rfl _ _ _ _ _ _ _ _ _ _ (by norm_num) rfl mol dst

theorem meanRow_eq (s : Fin 1 → Fin 128 → ℝ) : meanRow (coe2 s) = coe2 (fun r c => s r c / (NG : ℝ)) := by
  funext j
  show Ideal.div (coe2 s j) (splat S1x128 bcast_S_S1x128 0x45FA0000#32 j) = _
  rw [splat_apply, Coe.ofBits_8000, show ((NG : ℕ) : ℝ) = 8000 by norm_num]
  exact Coe.div_coe_coe _ (by norm_num)

theorem varRow_eq (s1 s2 : Fin 1 → Fin 128 → ℝ) :
    varRow (coe2 s1) (coe2 s2) = coe2 (fun r c => s2 r c / (NG : ℝ) - s1 r c / (NG : ℝ) * (s1 r c / (NG : ℝ))) := by
  unfold varRow
  rw [meanRow_eq, meanRow_eq]
  funext j
  exact ((EReal.coe_sub _ _).trans (congrArg _ (EReal.coe_mul _ _))).symm

theorem row2_eq (a : Fin 3 → Fin 128 → ℝ) : row2 (coe2 a) = coe2 (fun (_ : Fin 1) c => a 2 c) := by
  funext j
  obtain ⟨r, c, rfl⟩ : ∃ (r : Fin 1) (c : Fin 128), j = ix2 r c := ⟨j 0, j 1, eq_ix2 j⟩
  exact slice2_axis0_apply 2 (coe2 a) slices_S3x128_S1x128_2_0 r c 2 (by have := r.isLt; omega)

theorem colSpread_apply (v : FVec Ideal S8000 .f32) (g : Fin 8000) (c : Fin 128) : colSpread v (ix2 g c) = v (.ofFin g) :=
  StableHlo.Predicate.bcast_rows _ _ v g c

theorem rowSpread_apply (v : FVec Ideal S128 .f32) (g : Fin 8000) (c : Fin 128) : rowSpread v (ix2 g c) = v (.ofFin c) :=
  StableHlo.Predicate.bcast_cols _ _ v g c

/-- The product at an entry is a sum over the shared coordinate; on real data each operation is the real one. -/
theorem proj_coe (s : Fin 8000 → Fin 128 → ℝ) (cnt : Fin 8000 → ℝ) (W : Fin 128 → Fin 128 → ℝ) (b : Fin 128 → ℝ)
    (g : Fin 8000) (c : Fin 128) :
    proj (coe2 s) (coe1 cnt) (coe2 W) (coe1 b) (ix2 g c) = (((∑ j, s g j * W j c) + cnt g * b c : ℝ) : EReal) := by
  show Host.dotGeneral (DotDims.plain 8000 128 128) none (coe2 s) (coe2 W) (ix2 g c)
      + colSpread (coe1 cnt) (ix2 g c) * rowSpread (coe1 b) (ix2 g c) = _
  rw [StackMember.dotGeneral_plain_apply, colSpread_apply, rowSpread_apply, EReal.coe_add, EReal.coe_mul, Coe.coe_sum]
  rfl

theorem molA_eq (sh : Fin 8000 → Fin 128 → ℝ) (cnt : Fin 8000 → ℝ) (W : Fin 128 → Fin 128 → ℝ) (b : Fin 128 → ℝ) :
    molA (coe2 sh) (coe1 cnt) (coe2 W) (coe1 b)
      = coe2 (fun g c => ((∑ j, sh g j * W j c) + cnt g * b c) / max (cnt g) 1) := by
  funext j
  obtain ⟨g, c, rfl⟩ : ∃ (g : Fin 8000) (c : Fin 128), j = ix2 g c := ⟨j 0, j 1, eq_ix2 j⟩
  show Ideal.div (proj _ _ _ _ (ix2 g c)) (colSpread (maximumf (coe1 cnt) (splat S8000 bcast_S_S8000 0x3F800000#32)) (ix2 g c)) = _
  rw [proj_coe, colSpread_apply]
  show Ideal.div _ (max ((cnt g : ℝ) : EReal) (splat S8000 bcast_S_S8000 0x3F800000#32 _)) = _
  rw [splat_apply, Coe.ofBits_one, Coe.max_coe]
  exact Coe.div_coe_coe _ (by have := le_max_right (cnt g) 1; linarith)

theorem molB_eq (se : Fin 8000 → Fin 128 → ℝ) (cnt : Fin 8000 → ℝ) (W : Fin 128 → Fin 128 → ℝ) (b : Fin 128 → ℝ) :
    molB (coe2 se) (coe1 cnt) (coe2 W) (coe1 b)
      = coe2 (fun g c => ((∑ j, se g j * W j c) + cnt g * b c) / (NB : ℝ)) := by
  funext j
  obtain ⟨g, c, rfl⟩ : ∃ (g : Fin 8000) (c : Fin 128), j = ix2 g c := ⟨j 0, j 1, eq_ix2 j⟩
  show Ideal.div (proj _ _ _ _ (ix2 g c)) (splat S8000x128 bcast_S_S8000x128 0x48C35000#32 (ix2 g c)) = _
  rw [proj_coe, splat_apply, Coe.ofBits_400000, show ((NB : ℕ) : ℝ) = 400000 by norm_num]
  exact Coe.div_coe_coe _ (by norm_num)

theorem pre_eq (R : RealArgs) :
    pre (idx1 R.mol) (idx1 R.dst) (coe2 (HO R)) (coe2 (EO R)) (coe2 (R.W 6)) (coe1 (R.b 6)) (coe2 (R.W 7)) (coe1 (R.b 7))
        (coe2 (linR R 8 R.u))
      = coe2 (uuK Coe.rsq Real.exp Coe.epsVar Coe.epsGate R.h R.e R.u R.W R.b R.γ R.β R.src R.dst R.mol) := by
  unfold pre
  rw [takeMol_eq, segRows_eq _ _ _ rfl rfl rfl rfl, segCnt_eq _ _ _ rfl rfl rfl rfl, segRows_eq _ _ _ rfl rfl rfl rfl,
    segCnt_eq _ _ _ rfl rfl rfl rfl, molA_eq, molB_eq, KShapeCoe.molPre_coe]
  rfl

/-- On the data of one input the composite is the specification's molecule update. -/
theorem out_pre_eq (R : RealArgs) :
    out (pre (idx1 R.mol) (idx1 R.dst) (coe2 (HO R)) (coe2 (EO R)) (coe2 (R.W 6)) (coe1 (R.b 6)) (coe2 (R.W 7)) (coe1 (R.b 7))
          (coe2 (linR R 8 R.u))) (coe2 R.γ) (coe2 R.β) (coe2 R.u)
      = coe2 (UO R) := by
  unfold out
  rw [pre_eq, KShapeCoe.colSum_coe, KShapeCoe.colSumSq_coe, meanRow_eq, varRow_eq, row2_eq, row2_eq, KShapeCoe.normRes_coe]
  rfl

end Cert.KernelIdeal.StageVal.S5

end
-- ==== Proof.KStage5.lean ====
import proofs.«403924_j58969900974273_2_alg».proof.Proof.Gen.KernelIdeal.Frame
import proofs.«403924_j58969900974273_2_alg».proof.Proof.RegionIface
import proofs.«403924_j58969900974273_2_alg».proof.Proof.KStage5Val

noncomputable section

namespace Cert.KernelIdeal.StageVal

open Cert.KernelIdeal Cert.KernelIdeal.Gen Idealize.ShloMosaic Idealize.ShloMosaic.TcCoe Idealize.SL.Sem

namespace S5

variable (m : (ℓ : Loc nD τ sig) → Buf (Elt Ideal) ℓ) (ρ : Dev nD → PrngReg) (c : Dev nD)

/-- No operation between the two moments writes these buffers. -/
theorem keep22 : ∀ b ∈ [main_v45_2, main_arg2, main_arg5, main_arg6, main_v81, main_v62_0],
    W22 m ρ c (Proc.devRef .tc b) = W19 m ρ c (Proc.devRef .tc b) := by
  simp only [List.forall_mem_cons]
  refine ⟨?_, ?_, ?_, ?_, ?_, ?_, fun _ h => nomatch h⟩ <;> after_results_simp

/-- The pre-normalised rows as a function of the buffers after the atom update. -/
def preAt : FVec Ideal S8000x128 .f32 :=
  pre (W19 m ρ c (Proc.devRef .tc main_arg9)) (W19 m ρ c (Proc.devRef .tc main_arg8)) (W19 m ρ c (Proc.devRef .tc main_v81))
    (W19 m ρ c (Proc.devRef .tc main_v62_0)) (W19 m ρ c (Proc.devRef .tc main_v37)) (W19 m ρ c (Proc.devRef .tc main_v39))
    (W19 m ρ c (Proc.devRef .tc main_v41)) (W19 m ρ c (Proc.devRef .tc main_v43)) (W19 m ρ c (Proc.devRef .tc main_v45_2))

theorem molPre_at : KShape.molPre (W22 m ρ c (Proc.devRef .tc main_v108)) (W22 m ρ c (Proc.devRef .tc main_v117))
    (W22 m ρ c (Proc.devRef .tc main_v45_2)) = preAt m ρ c := by
  after_results_simp
  simp only [StableHlo.TRef.ofBuf, StableHlo.TRef.toBuf, cast_eq]
  rfl

theorem w23_v118_0 (RF : RegionVal.RegionFacts) : W23 m ρ c (Proc.devRef .tc main_v118_0) = preAt m ρ c :=
  ((W23_arr m ρ c 3).trans (RF.r6_out3 (V22 m ρ) c)).trans (molPre_at m ρ c)

theorem w23_v118_1 (RF : RegionVal.RegionFacts) : W23 m ρ c (Proc.devRef .tc main_v118_1) = KShape.colSum (preAt m ρ c) :=
  ((W23_arr m ρ c 4).trans (RF.r6_out4 (V22 m ρ) c)).trans (congrArg KShape.colSum (molPre_at m ρ c))

theorem w23_v118_2 (RF : RegionVal.RegionFacts) : W23 m ρ c (Proc.devRef .tc main_v118_2) = KShape.colSumSq (preAt m ρ c) :=
  ((W23_arr m ρ c 5).trans (RF.r6_out5 (V22 m ρ) c)).trans (congrArg KShape.colSumSq (molPre_at m ρ c))

/-- The launch that follows writes only its own output arrays. -/
theorem keep23 : ∀ b ∈ [main_arg2, main_arg5, main_arg6, main_v81, main_v62_0],
    W23 m ρ c (Proc.devRef .tc b) = W19 m ρ c (Proc.devRef .tc b) := fun b hb =>
  (W23_of_ne m ρ c b (by
    simp only [List.mem_cons, List.not_mem_nil, or_false] at hb
    rcases hb with rfl | rfl | rfl | rfl | rfl <;> decide)).trans (keep22 m ρ c b (List.mem_cons_of_mem _ hb))

theorem w25_v127 (RF : RegionVal.RegionFacts) : W25 m ρ c (Proc.devRef .tc main_v127)
    = out (preAt m ρ c) (W19 m ρ c (Proc.devRef .tc main_arg5)) (W19 m ρ c (Proc.devRef .tc main_arg6))
        (W19 m ρ c (Proc.devRef .tc main_arg2)) := by
  refine ((W25_arr m ρ c 6).trans (RF.r7_out6 (V24 m ρ) c)).trans ?_
  show KShape.normRes (W24 m ρ c (Proc.devRef .tc main_v118_0)) (W24 m ρ c (Proc.devRef .tc main_v120))
      (W24 m ρ c (Proc.devRef .tc main_v124)) (W24 m ρ c (Proc.devRef .tc main_v125)) (W24 m ρ c (Proc.devRef .tc main_v126))
      (W24 m ρ c (Proc.devRef .tc main_arg2)) = _
  after_results_simp
  rw [w23_v118_0 m ρ c RF, w23_v118_1 m ρ c RF, w23_v118_2 m ρ c RF, keep23 m ρ c main_arg5 (by simp),
    keep23 m ρ c main_arg6 (by simp), keep23 m ρ c main_arg2 (by simp)]
  rfl

/-- The two results computed earlier survive to the end. -/
theorem keep25 : ∀ b ∈ [main_v81, main_v62_0], W25 m ρ c (Proc.devRef .tc b) = W19 m ρ c (Proc.devRef .tc b) := by
  simp only [List.forall_mem_cons]
  refine ⟨?_, ?_, fun _ h => nomatch h⟩ <;>
    refine ((W25_of_ne m ρ c _ (by decide)).trans ?_).trans (keep23 m ρ c _ (by simp)) <;> after_results_simp

end S5

/-- The three results at the end, given what the buffers hold after the atom update. -/
theorem stage5 (RF : RegionVal.RegionFacts) (m : (ℓ : Loc nD τ sig) → Buf (Elt Ideal) ℓ) (ρ : Dev nD → PrngReg) (c : Dev nD)
    (R : Cert.Args.RealArgs) :
    Cert.KStages.At19 R (W19 (F := Ideal) m ρ c) → Cert.KStages.At25 R (W25 (F := Ideal) m ρ c) := by
  rintro ⟨hargs, ⟨_, _, h37, h39, h41, h43⟩, h45, h62, h81⟩
  refine ⟨(S5.keep25 m ρ c _ (by simp)).trans h81, (S5.keep25 m ρ c _ (by simp)).trans h62, (S5.w25_v127 m ρ c RF).trans ?_⟩
  unfold S5.preAt
  rw [hargs.h9, hargs.h8, h81, h62, h37, h39, h41, h43, h45, hargs.h5, hargs.h6, hargs.h2]
  exact S5.out_pre_eq R

end Cert.KernelIdeal.StageVal

end
-- ==== Proof.RefCuts.lean ====
import proofs.«403924_j58969900974273_2_alg».proof.Proof.RefRun
import proofs.«403924_j58969900974273_2_alg».proof.Proof.RStages

noncomputable section

namespace Cert.ReferenceIdeal.RefVal

open Cert.ReferenceIdeal Cert.ReferenceIdeal.Gen Idealize.ShloMosaic Idealize.ShloMosaic.TcCoe Idealize.SL.Sem Idealize.ShloMosaic.StableHlo
open Cert.Spec Cert.Args Cert.RStages

def coe1 {d : ℕ} (v : Fin d → ℝ) : (⟨1, ![d]⟩ : Shape).Idx → EReal := fun j => ((v (j 0) : ℝ) : EReal)

abbrev Val := Valuation τ sig (Elt Ideal)

abbrev ops3a : List (HloOp τ sig (Elt Ideal)) := HandRun.ops3a (F := Ideal)
abbrev ops3b : List (HloOp τ sig (Elt Ideal)) := HandRun.ops3b (F := Ideal)

variable (R : RealArgs)

abbrev SG : Fin NB → Fin D → ℝ := fun k c => sigm Real.exp (EOr R k c)

abbrev HH : Fin NA → Fin D → ℝ := hhOf Real.exp Coe.epsGate R.h R.u R.W R.b R.src R.dst R.mol (EOr R)

structure ArgsAt (V : Val) : Prop where
  a0 : V (Proc.devRef .tc main_arg0) = coe2 R.h
  a1 : V (Proc.devRef .tc main_arg1) = coe2 R.e
  a2 : V (Proc.devRef .tc main_arg2) = coe2 R.u
  a3 : V (Proc.devRef .tc main_arg3) = coe3 R.W
  a4 : V (Proc.devRef .tc main_arg4) = coe2 R.b
  a5 : V (Proc.devRef .tc main_arg5) = coe2 R.γ
  a6 : V (Proc.devRef .tc main_arg6) = coe2 R.β
  a7 : V (Proc.devRef .tc main_arg7) = idx1 R.src
  a8 : V (Proc.devRef .tc main_arg8) = idx1 R.dst
  a9 : V (Proc.devRef .tc main_arg9) = idx1 R.mol

structure Cut1 (V : Val) : Prop where
  v22 : V (Proc.devRef .tc main_v22) = coe2 fun (a : Fin NA) (c : Fin D) => lin R.W R.b 2 R.u (R.mol a) c
  v46 : V (Proc.devRef .tc main_v46) = coe2 fun (k : Fin NB) (c : Fin D) =>
    (lin R.W R.b 0 R.h (R.src k) c + lin R.W R.b 0 R.h (R.dst k) c) + lin R.W R.b 1 R.e k c
  v51 : V (Proc.devRef .tc main_v51) = idx1 R.src

structure Cut2 (V : Val) : Prop where
  v79 : V (Proc.devRef .tc main_v79) = coe2 (EOr R)
  v93 : V (Proc.devRef .tc main_v93) = coe2 (SG R)
  v101 : V (Proc.devRef .tc main_v101) = coe2 fun (k : Fin NB) (c : Fin D) => SG R k c * lin R.W R.b 4 R.h (R.src k) c
  v102 : V (Proc.devRef .tc main_v102) = coe2 fun (_ : Fin NA) (_ : Fin D) => (0 : ℝ)

structure Cut3a (V : Val) : Prop where
  v79 : V (Proc.devRef .tc main_v79) = coe2 (EOr R)
  v160 : V (Proc.devRef .tc main_v160) = coe2 (HOr R)

structure Cut4 (V : Val) : Prop where
  v79 : V (Proc.devRef .tc main_v79) = coe2 (EOr R)
  v160 : V (Proc.devRef .tc main_v160) = coe2 (HOr R)
  v201 : V (Proc.devRef .tc main_v201) = coe2 fun (g : Fin NG) (c : Fin D) =>
    (∑ a, if R.mol a = g then lin R.W R.b 6 (HOr R) a c else 0) / max (cnt R.mol g) 1
      + (∑ k, if R.mol (R.dst k) = g then lin R.W R.b 7 (EOr R) k c else 0) / (NB : ℝ)
  v204 : V (Proc.devRef .tc main_v204) = coe2 fun (g : Fin NG) (c : Fin D) => ∑ k, R.u g k * R.W 8 k c
  v206 : V (Proc.devRef .tc main_v206) = coe1 fun (c : Fin D) => R.b 8 c

structure Cut5 (V : Val) : Prop where
  v160 : V (Proc.devRef .tc main_v160) = coe2 (HOr R)
  v79 : V (Proc.devRef .tc main_v79) = coe2 (EOr R)
  v235 : V (Proc.devRef .tc main_v235) = coe2 (UOr R)

end Cert.ReferenceIdeal.RefVal

end
-- ==== Proof.RefKept.lean ====
import proofs.«403924_j58969900974273_2_alg».proof.Proof.RefCuts

noncomputable section

namespace Cert.ReferenceIdeal.RefVal

open Cert.ReferenceIdeal Cert.ReferenceIdeal.Gen Idealize.ShloMosaic Idealize.ShloMosaic.TcCoe Idealize.SL.Sem Idealize.ShloMosaic.StableHlo
open Cert.Spec Cert.Args Cert.RStages

-- W and V agree at the ten arguments; no operation of the run has an argument as its result.
structure SameArgs (V W : Val) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)

theorem SameArgs.argsAt {R : RealArgs} {V W : Val} (h : SameArgs V W) (hA : ArgsAt R V) : ArgsAt R W :=
  ⟨h.a0.trans hA.a0, h.a1.trans hA.a1, h.a2.trans hA.a2, h.a3.trans hA.a3, h.a4.trans hA.a4, h.a5.trans hA.a5, h.a6.trans hA.a6, h.a7.trans hA.a7, h.a8.trans hA.a8, h.a9.trans hA.a9⟩

theorem SameArgs.trans {U V W : Val} (h₁ : SameArgs U V) (h₂ : SameArgs V W) : SameArgs U W :=
  ⟨h₂.a0.trans h₁.a0, h₂.a1.trans h₁.a1, h₂.a2.trans h₁.a2, h₂.a3.trans h₁.a3, h₂.a4.trans h₁.a4, h₂.a5.trans h₁.a5, h₂.a6.trans h₁.a6, h₂.a7.trans h₁.a7, h₂.a8.trans h₁.a8, h₂.a9.trans h₁.a9⟩

theorem sameArgs_ops0 (V : Val) : SameArgs V (StableHlo.after (HandRun.ops0 (F := Ideal)) V) := by
  constructor <;> after_results_simp

theorem sameArgs_ops4 (V : Val) : SameArgs V (StableHlo.after (HandRun.ops4 (F := Ideal)) V) := by
  constructor <;> after_results_simp

theorem sameArgs_ops3a (V : Val) : SameArgs V (StableHlo.after ops3a V) := by
  constructor <;> after_results_simp

theorem sameArgs_ops3b (V : Val) : SameArgs V (StableHlo.after ops3b V) := by
  constructor <;> after_results_simp

theorem after_ops3 (V : Val) :
    StableHlo.after (HandRun.ops3 (F := Ideal)) V = StableHlo.after ops3b (StableHlo.after ops3a V) :=
  StableHlo.after_append _ _ _

theorem sameArgs_ops3 (V : Val) : SameArgs V (StableHlo.after (HandRun.ops3 (F := Ideal)) V) := by
  rw [after_ops3]; exact (sameArgs_ops3a V).trans (sameArgs_ops3b _)

end Cert.ReferenceIdeal.RefVal

end
-- ==== Proof.RefKit.lean ====
import proofs.«403924_j58969900974273_2_alg».proof.Proof.RefCuts
import proofs.«403924_j58969900974273_2_alg».proof.Proof.LibGatherScatterRows
import proofs.«403924_j58969900974273_2_alg».proof.Proof.LibGatherScatterVec
import Idealize.ShloMosaic.Lib.StackMember
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefVal

open Idealize.ShloMosaic Idealize.ShloMosaic.ValueIdx Idealize.ShloMosaic.StackMember Cert.Spec Cert.Args

theorem coe2_ix2 {n d : ℕ} (x : Fin n → Fin d → ℝ) (r : Fin n) (c : Fin d) : coe2 x (ix2 r c) = ((x r c : ℝ) : EReal) := rfl

-- Arrays of rank 2 and of rank 1 are equal when they agree at every index written by its coordinates.
theorem ext2 {n d : ℕ} {α : Type} {f g : (⟨2, ![n, d]⟩ : Shape).Idx → α} (h : ∀ r c, f (ix2 r c) = g (ix2 r c)) : f = g :=
  funext fun j => by rw [eq_ix2 j]; exact h _ _

theorem ext1 {d : ℕ} {α : Type} {f g : (⟨1, ![d]⟩ : Shape).Idx → α} (h : ∀ c, f (ix1 c) = g (ix1 c)) : f = g :=
  funext fun j => by rw [eq_ix1 j]; exact h _

section Pointwise
variable {n d : ℕ} (x y : Fin n → Fin d → ℝ)

theorem addf_coe2 : addf (F := Ideal) (φ := .f32) (coe2 x) (coe2 y) = coe2 fun r c => x r c + y r c :=
  funext fun _ => (EReal.coe_add _ _).symm

theorem subf_coe2 : subf (F := Ideal) (φ := .f32) (coe2 x) (coe2 y) = coe2 fun r c => x r c - y r c :=
  funext fun _ => (EReal.coe_sub _ _).symm

theorem mulf_coe2 : mulf (F := Ideal) (φ := .f32) (coe2 x) (coe2 y) = coe2 fun r c => x r c * y r c :=
  funext fun _ => (EReal.coe_mul _ _).symm

theorem maximumf_coe2 : maximumf (F := Ideal) (φ := .f32) (coe2 x) (coe2 y) = coe2 fun r c => max (x r c) (y r c) :=
  funext fun _ => Coe.max_coe _ _

theorem divf_coe2 (hy : ∀ r c, y r c ≠ 0) :
    Host.divf (F := Ideal) (φ := .f32) (coe2 x) (coe2 y) = coe2 fun r c => x r c / y r c :=
  funext fun _ => Coe.div_coe_coe _ (hy _ _)

end Pointwise

-- Entry (r, c) of the twofold broadcast is entry c of the vector, whatever r.
theorem row_coe1 (v : Fin D → ℝ) (h1 : (⟨1, ![128]⟩ : Shape).BroadcastsInDim ⟨2, ![1, 128]⟩ ![1]) :
    broadcastInDim ⟨2, ![1, 128]⟩ ![1] h1 (coe1 v) = coe2 fun (_ : Fin 1) c => v c :=
  ext2 fun _ c => broadcastInDim_apply _ h1 _ _ (ix1 c) (by intro a; fin_cases a <;> rfl)

theorem bcastRow_coe2 {n : ℕ} (v : Fin D → ℝ) (h2 : (⟨2, ![1, 128]⟩ : Shape).BroadcastsInDim ⟨2, ![n, 128]⟩ ![0, 1]) :
    broadcastInDim ⟨2, ![n, 128]⟩ ![0, 1] h2 (coe2 fun (_ : Fin 1) c => v c) = coe2 fun (_ : Fin n) c => v c :=
  ext2 fun _ c => broadcastInDim_apply _ h2 _ _ (ix2 (0 : Fin 1) c) (by intro a; fin_cases a <;> rfl)

theorem bcastRows_coe1 {n : ℕ} (v : Fin D → ℝ) (h1 : (⟨1, ![128]⟩ : Shape).BroadcastsInDim ⟨2, ![1, 128]⟩ ![1])
    (h2 : (⟨2, ![1, 128]⟩ : Shape).BroadcastsInDim ⟨2, ![n, 128]⟩ ![0, 1]) :
    broadcastInDim ⟨2, ![n, 128]⟩ ![0, 1] h2 (broadcastInDim ⟨2, ![1, 128]⟩ ![1] h1 (coe1 v)) = coe2 fun (_ : Fin n) c => v c := by
  rw [row_coe1, bcastRow_coe2]

theorem bcastRows_of {n : ℕ} (bi : (⟨1, ![128]⟩ : Shape).Idx → EReal) (v : Fin D → ℝ) (hbi : bi = coe1 v)
    (h1 : (⟨1, ![128]⟩ : Shape).BroadcastsInDim ⟨2, ![1, 128]⟩ ![1])
    (h2 : (⟨2, ![1, 128]⟩ : Shape).BroadcastsInDim ⟨2, ![n, 128]⟩ ![0, 1]) :
    broadcastInDim ⟨2, ![n, 128]⟩ ![0, 1] h2 (broadcastInDim ⟨2, ![1, 128]⟩ ![1] h1 bi) = coe2 fun (_ : Fin n) c => v c :=
  hbi ▸ bcastRows_coe1 v h1 h2

-- A broadcast scalar has the scalar's real value at every index.
theorem splat_coe2 {n d : ℕ} (w : BitVec 32) (t : ℝ) (hw : Ideal.ofBits .f32 w = (t : EReal))
    (h : (⟨0, ![]⟩ : Shape).BroadcastsInDim ⟨2, ![n, d]⟩ ![]) :
    broadcastInDim ⟨2, ![n, d]⟩ ![] h (constant (F := Ideal) ⟨0, ![]⟩ .f32 w) = coe2 fun (_ : Fin n) (_ : Fin d) => t :=
  funext fun _ => (broadcastInDim_scalar_apply h _ _).trans hw

theorem splat_coe1 {d : ℕ} (w : BitVec 32) (t : ℝ) (hw : Ideal.ofBits .f32 w = (t : EReal))
    (h : (⟨0, ![]⟩ : Shape).BroadcastsInDim ⟨1, ![d]⟩ ![]) :
    broadcastInDim ⟨1, ![d]⟩ ![] h (constant (F := Ideal) ⟨0, ![]⟩ .f32 w) = coe1 fun (_ : Fin d) => t :=
  funext fun _ => (broadcastInDim_scalar_apply h _ _).trans hw

-- Offsets (i, 0, …) with unit leading extent select member i; the reshape only drops the unit axis.
theorem sliceMat_coe {m : ℕ} (W : Fin m → Fin D → Fin D → ℝ) (i : ℕ) (hi : i < m)
    (hs : (⟨3, ![m, 128, 128]⟩ : Shape).Slices ![i, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![i, 0, 0] (coe3 W) hs) hc = coe2 (W ⟨i, hi⟩) :=
  ext2 fun a c => by
    rw [shapeCast_1ab_ab_apply]
    show ((W ⟨i + 0, _⟩ ⟨0 + a.val, _⟩ ⟨0 + c.val, _⟩ : ℝ) : EReal) = ((W ⟨i, hi⟩ a c : ℝ) : EReal)
    simp only [Nat.add_zero, Nat.zero_add, Fin.eta]

theorem sliceRow1_coe {m : ℕ} (b : Fin m → Fin D → ℝ) (i : ℕ) (hi : i < m)
    (hs : (⟨2, ![m, 128]⟩ : Shape).Slices ![i, 0] ⟨2, ![1, 128]⟩) :
    extractStridedSlice ⟨2, ![1, 128]⟩ ![i, 0] (coe2 b) hs = coe2 fun (_ : Fin 1) c => b ⟨i, hi⟩ c :=
  ext2 fun u c => by
    have hu : u.val = 0 := by omega
    show ((b ⟨i + u.val, _⟩ ⟨0 + c.val, _⟩ : ℝ) : EReal) = ((b ⟨i, hi⟩ c : ℝ) : EReal)
    simp only [hu, Nat.add_zero, Nat.zero_add, Fin.eta]

theorem rowToVec_coe (v : Fin D → ℝ) (hc : (⟨2, ![1, 128]⟩ : Shape).ShapeCasts ⟨1, ![128]⟩) :
    shapeCast ⟨1, ![128]⟩ (coe2 fun (_ : Fin 1) c => v c) hc = coe1 v :=
  ext1 fun c => shapeCast_1a_a_apply _ hc c

theorem sliceRow_coe {m : ℕ} (b : Fin m → Fin D → ℝ) (i : ℕ) (hi : i < m)
    (hs : (⟨2, ![m, 128]⟩ : Shape).Slices ![i, 0] ⟨2, ![1, 128]⟩)
    (hc : (⟨2, ![1, 128]⟩ : Shape).ShapeCasts ⟨1, ![128]⟩) :
    shapeCast ⟨1, ![128]⟩ (extractStridedSlice ⟨2, ![1, 128]⟩ ![i, 0] (coe2 b) hs) hc = coe1 (b ⟨i, hi⟩) := by
  rw [sliceRow1_coe b i hi]; exact rowToVec_coe _ hc

-- Real sums and products commute with the coercion, so a product of coerced matrices is the coerced product.
theorem dot_coe {n : ℕ} (M : Fin D → Fin D → ℝ) (x : Fin n → Fin D → ℝ)
    (Wi : (⟨2, ![128, 128]⟩ : Shape).Idx → EReal) (hWi : Wi = coe2 M) :
    Host.dotGeneral (F := Ideal) (φ₁ := .f32) (φ₂ := .f32) (DotDims.plain n 128 128) none (coe2 x) Wi = coe2 fun r c => ∑ k, x r k * M k c :=
  ext2 fun r c => by
    rw [hWi, dotGeneral_plain_apply]
    simp only [coe2_ix2, Coe.coe_sum, EReal.coe_mul]

theorem lin_coe {n : ℕ} (W : Fin 9 → Fin D → Fin D → ℝ) (b : Fin 9 → Fin D → ℝ) (i : Fin 9) (x : Fin n → Fin D → ℝ)
    (Wi : (⟨2, ![128, 128]⟩ : Shape).Idx → EReal) (bi : (⟨1, ![128]⟩ : Shape).Idx → EReal)
    (hWi : Wi = coe2 (W i)) (hbi : bi = coe1 (b i))
    (h1 : (⟨1, ![128]⟩ : Shape).BroadcastsInDim ⟨2, ![1, 128]⟩ ![1])
    (h2 : (⟨2, ![1, 128]⟩ : Shape).BroadcastsInDim ⟨2, ![n, 128]⟩ ![0, 1]) :
    addf (F := Ideal) (φ := .f32) (Host.dotGeneral (φ₁ := .f32) (φ₂ := .f32) (DotDims.plain n 128 128) none (coe2 x) Wi)
      (broadcastInDim ⟨2, ![n, 128]⟩ ![0, 1] h2 (broadcastInDim ⟨2, ![1, 128]⟩ ![1] h1 bi)) = coe2 (lin W b i x) := by
  rw [dot_coe (W i) x Wi hWi, bcastRows_of bi _ hbi, addf_coe2]; rfl

-- i < 2³¹ has a clear sign bit: as a signed word i ≥ 0, and the branch that adds the extent is never taken.
theorem wrap_idx1 {n N : ℕ} (hN : N ≤ 2 ^ 31) (f : Fin n → Fin N) (M : BitVec 32)
    (h0 : (⟨0, ![]⟩ : Shape).BroadcastsInDim ⟨1, ![n]⟩ ![]) :
    select (cmpi .slt (idx1 f) (broadcastInDim ⟨1, ![n]⟩ ![] h0 (constantI ⟨0, ![]⟩ 32 0#32)))
      (addi (idx1 f) (broadcastInDim ⟨1, ![n]⟩ ![] h0 (constantI ⟨0, ![]⟩ 32 M))) (idx1 f) = idx1 f := by
  funext j
  have hc : cmpi .slt (idx1 f) (broadcastInDim ⟨1, ![n]⟩ ![] h0 (constantI ⟨0, ![]⟩ 32 0#32)) j = 0#1 := by
    show BitVec.ofBool ((idx1 f j).slt 0#32) = 0#1
    have : (idx1 f j).slt 0#32 = false := by
      rw [BitVec.slt, show (idx1 f j).toInt = _ from RowsGS.toInt_ofNat_of_lt _ (lt_of_lt_of_le (f (j 0)).isLt hN)]; simp
    rw [this]; rfl
  rw [select_apply, hc, select_zero]

-- Entry (e, 0) of a vector laid as a column is entry e of the vector.
theorem col_apply {E : ℕ} {α : Type} (hb : (⟨1, ![E]⟩ : Shape).BroadcastsInDim ⟨2, ![E, 1]⟩ ![0])
    (v : (⟨1, ![E]⟩ : Shape).Idx → α) (e : Fin E) : broadcastInDim ⟨2, ![E, 1]⟩ ![0] hb v (ix2 e 0) = v (ix1 e) :=
  broadcastInDim_apply _ hb v _ (ix1 e) fun a => by
    fin_cases a
    show e.val = if E = 1 then 0 else e.val
    have := e.isLt
    split_ifs <;> omega

theorem idxCol_toInt {E N : ℕ} (hN : N ≤ 2 ^ 31) (f : Fin E → Fin N)
    (hb : (⟨1, ![E]⟩ : Shape).BroadcastsInDim ⟨2, ![E, 1]⟩ ![0]) (e : Fin E) :
    (broadcastInDim ⟨2, ![E, 1]⟩ ![0] hb (idx1 f) (ix2 e 0)).toInt = ((f e).val : ℤ) :=
  (congrArg BitVec.toInt (col_apply hb _ e)).trans (RowsGS.toInt_ofNat_of_lt _ (lt_of_lt_of_le (f e).isLt hN))

-- Row k of the gather is row f k of the operand, because the k-th index word reads f k.
theorem gatherRows_coe {N E : ℕ} (hN : N ≤ 2 ^ 31) (d : GatherDims ⟨2, ![N, 128]⟩ ⟨2, ![E, 1]⟩ ⟨2, ![E, 128]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, 128])
    (x : Fin N → Fin D → ℝ) (f : Fin E → Fin N)
    (hb : (⟨1, ![E]⟩ : Shape).BroadcastsInDim ⟨2, ![E, 1]⟩ ![0]) :
    Host.gather d (coe2 x) (broadcastInDim ⟨2, ![E, 1]⟩ ![0] hb (idx1 f)) = coe2 fun k c => x (f k) c :=
  ext2 fun e c => RowsGS.gather_rows2_apply d hod hcs hob hsb hsm hiv hss _ _ e c (f e) (idxCol_toInt hN f hb e)

theorem gatherIdx_coe {N E M : ℕ} (hN : N ≤ 2 ^ 31) (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1]) (g : Fin N → Fin M) (f : Fin E → Fin N)
    (hb : (⟨1, ![E]⟩ : Shape).BroadcastsInDim ⟨2, ![E, 1]⟩ ![0]) :
    Host.gather d (idx1 g) (broadcastInDim ⟨2, ![E, 1]⟩ ![0] hb (idx1 f)) = idx1 fun e => g (f e) :=
  ext1 fun e => RowsGS.gather_vec1_apply d hod hcs hob hsb hsm hiv hss _ _ e (f e) (idxCol_toInt hN f hb e)

-- (f k).val = g.val exactly when f k = g, so the two sums have the same nonzero terms.
theorem sum_if_coe {E N : ℕ} (f : Fin E → Fin N) (g : Fin N) (t : Fin E → ℤ) (ht : ∀ e, t e = ((f e).val : ℤ)) (y : Fin E → ℝ) :
    (∑ e, if t e = (g.val : ℤ) then ((y e : ℝ) : EReal) else 0) = ((∑ k, if f k = g then y k else 0 : ℝ) : EReal) := by
  rw [Coe.coe_sum]
  refine Finset.sum_congr rfl fun e _ => ?_
  rw [ht e]
  by_cases h : f e = g
  · rw [if_pos h, if_pos (by rw [h])]
  · rw [if_neg h, if_neg fun e' => h (Fin.ext (by exact_mod_cast e'))]; rfl

-- Starting from zeros, row g accumulates exactly the updates k with f k = g.
theorem scatterAdd_coe {N E : ℕ} (hN : N ≤ 2 ^ 31) (d : ScatterDims ⟨2, ![N, 128]⟩ ⟨2, ![E, 1]⟩ ⟨2, ![E, 128]⟩)
    (huw : d.updateWindowDims = [1]) (hiw : d.insertedWindowDims = [0])
    (hsd : d.scatterDimsToOperandDims = [0]) (hiv : d.indexVectorDim = 1)
    (f : Fin E → Fin N) (y : Fin E → Fin D → ℝ) (hb : (⟨1, ![E]⟩ : Shape).BroadcastsInDim ⟨2, ![E, 1]⟩ ![0]) :
    Host.scatterAdd (F := Ideal) (φ := .f32) d (coe2 fun (_ : Fin N) (_ : Fin D) => (0 : ℝ))
        (broadcastInDim ⟨2, ![E, 1]⟩ ![0] hb (idx1 f)) (coe2 y)
      = coe2 fun (g : Fin N) (c : Fin D) => ∑ k, if f k = g then y k c else 0 :=
  ext2 fun g c => by
    rw [RowsGS.scatterAdd_rows2_apply d huw hiw hsd hiv, coe2_ix2, EReal.coe_zero, zero_add]
    exact sum_if_coe f g _ (idxCol_toInt hN f hb) fun k => y k c

theorem scatterCount_coe {N E : ℕ} (hN : N ≤ 2 ^ 31) (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (f : Fin E → Fin N) (hb : (⟨1, ![E]⟩ : Shape).BroadcastsInDim ⟨2, ![E, 1]⟩ ![0]) :
    Host.scatterAdd (F := Ideal) (φ := .f32) d (coe1 fun (_ : Fin N) => (0 : ℝ))
        (broadcastInDim ⟨2, ![E, 1]⟩ ![0] hb (idx1 f)) (coe1 fun (_ : Fin E) => (1 : ℝ))
      = coe1 fun g : Fin N => ∑ a, if f a = g then (1 : ℝ) else 0 :=
  ext1 fun g => by
    rw [RowsGS.scatterAdd_vec1_apply d huw hiw hsd hiv]
    show ((0 : ℝ) : EReal) + _ = _
    rw [EReal.coe_zero, zero_add]
    exact sum_if_coe f g _ (idxCol_toInt hN f hb) fun _ => 1

-- max (count, 1) ≥ 1 > 0, so the quotient of coerced reals is the coerced real quotient.
theorem divf_maxcnt_coe2 {n : ℕ} (A : Fin n → Fin D → ℝ) (cv : Fin n → ℝ)
    (h1 : (⟨1, ![n]⟩ : Shape).BroadcastsInDim ⟨2, ![n, 1]⟩ ![0])
    (h2 : (⟨2, ![n, 1]⟩ : Shape).BroadcastsInDim ⟨2, ![n, 128]⟩ ![0, 1]) :
    Host.divf (F := Ideal) (φ := .f32) (coe2 A)
        (broadcastInDim ⟨2, ![n, 128]⟩ ![0, 1] h2 (broadcastInDim ⟨2, ![n, 1]⟩ ![0] h1
          (maximumf (F := Ideal) (φ := .f32) (coe1 cv) (coe1 fun _ => (1 : ℝ)))))
      = coe2 fun g c => A g c / max (cv g) 1 :=
  ext2 fun g c => by
    rw [hostDivf_apply, broadcastInDim_apply _ h2 _ _ (ix2 g (0 : Fin 1)) (by
      intro a; fin_cases a
      · show g.val = if n = 1 then 0 else g.val
        have := g.isLt
        split_ifs <;> omega
      · rfl), col_apply]
    show Ideal.div ((A g c : ℝ) : EReal) (max ((cv g : ℝ) : EReal) ((1 : ℝ) : EReal)) = _
    rw [Coe.max_coe]
    exact Coe.div_coe_coe _ (ne_of_gt (lt_of_lt_of_le one_pos (le_max_right _ _)))

section Records
open Cert.ReferenceIdeal Cert.ReferenceIdeal.Gen

theorem dotNA_plain : dot_S200000x128_S128x128_S200000x128_1_0_0_1_n_n = DotDims.plain 200000 128 128 := rfl
theorem dotNB_plain : dot_S400000x128_S128x128_S400000x128_1_0_0_1_n_n = DotDims.plain 400000 128 128 := rfl
theorem dotNG_plain : dot_S8000x128_S128x128_S8000x128_1_0_0_1_n_n = DotDims.plain 8000 128 128 := rfl

theorem gatherNA_coe (x : Fin NA → Fin D → ℝ) (f : Fin NB → Fin NA)
    (hb : (⟨1, ![400000]⟩ : Shape).BroadcastsInDim ⟨2, ![400000, 1]⟩ ![0]) :
    Host.gather gather_S200000x128_S400000x1_S400000x128_1_0_n_n_0_1_1128 (coe2 x)
      (broadcastInDim ⟨2, ![400000, 1]⟩ ![0] hb (idx1 f)) = coe2 fun k c => x (f k) c :=
  gatherRows_coe (by norm_num) _ rfl rfl rfl rfl rfl rfl rfl x f hb

theorem gatherNG_coe (x : Fin NG → Fin D → ℝ) (f : Fin NA → Fin NG)
    (hb : (⟨1, ![200000]⟩ : Shape).BroadcastsInDim ⟨2, ![200000, 1]⟩ ![0]) :
    Host.gather gather_S8000x128_S200000x1_S200000x128_1_0_n_n_0_1_1128 (coe2 x)
      (broadcastInDim ⟨2, ![200000, 1]⟩ ![0] hb (idx1 f)) = coe2 fun k c => x (f k) c :=
  gatherRows_coe (by norm_num) _ rfl rfl rfl rfl rfl rfl rfl x f hb

end Records

-- 1 + e⁻ˣ > 0, so the quotient of coerced reals is the coerced logistic function.
theorem sigm_coe2 {n d : ℕ} (x : Fin n → Fin d → ℝ)
    (h : (⟨0, ![]⟩ : Shape).BroadcastsInDim ⟨2, ![n, d]⟩ ![]) :
    Host.divf (F := Ideal) (φ := .f32) (broadcastInDim ⟨2, ![n, d]⟩ ![] h (constant (F := Ideal) ⟨0, ![]⟩ .f32 0x3F800000#32))
      (addf (broadcastInDim ⟨2, ![n, d]⟩ ![] h (constant (F := Ideal) ⟨0, ![]⟩ .f32 0x3F800000#32))
        (Host.exp (Host.negf (coe2 x)))) = coe2 fun r c => sigm Real.exp (x r c) := by
  rw [splat_coe2 _ 1 Coe.ofBits_one]
  refine ext2 fun r c => ?_
  show Ideal.div ((1 : ℝ) : EReal) (((1 : ℝ) : EReal) + Ideal.exp (-((x r c : ℝ) : EReal))) = _
  rw [Coe.neg_coe, Coe.exp_coe, ← EReal.coe_add]
  exact Coe.div_coe_coe 1 (by positivity)

end Cert.ReferenceIdeal.RefVal

end
-- ==== Proof.RefW0.lean ====
import proofs.«403924_j58969900974273_2_alg».proof.Proof.RefKept
import proofs.«403924_j58969900974273_2_alg».proof.Proof.RefKit

noncomputable section

namespace Cert.ReferenceIdeal.RefVal

open Cert.ReferenceIdeal Cert.ReferenceIdeal.Gen Idealize.ShloMosaic Idealize.ShloMosaic.TcCoe Idealize.SL.Sem Idealize.ShloMosaic.StableHlo
open Cert.Spec Cert.Args Cert.RStages

-- Nonnegative indices pass the wrap unchanged; each kept array is then an affine image gathered by rows.
theorem window0 (R : Cert.Args.RealArgs) (V : Val) (hA : ArgsAt R V) :
    Cut1 R (StableHlo.after (HandRun.ops0 (F := Ideal)) V) := by
  refine ⟨?_, ?_, ?_⟩ <;> after_results_simp
  · rw [hA.a2, hA.a3, hA.a4, hA.a9, dotNG_plain, lin_coe R.W R.b 2 R.u _ _ ?_ ?_, wrap_idx1 (by norm_num) R.mol, gatherNG_coe]
    · exact sliceMat_coe R.W 2 (by norm_num) _ _
    · exact sliceRow_coe R.b 2 (by norm_num) _ _
  · rw [hA.a0, hA.a1, hA.a3, hA.a4, hA.a7, hA.a8, dotNA_plain, dotNB_plain, lin_coe R.W R.b 0 R.h _ _ ?_ ?_,
      lin_coe R.W R.b 1 R.e _ _ ?_ ?_, wrap_idx1 (by norm_num) R.src, wrap_idx1 (by norm_num) R.dst, gatherNA_coe,
      gatherNA_coe, addf_coe2, addf_coe2]
    · exact sliceMat_coe R.W 1 (by norm_num) _ _
    · exact sliceRow_coe R.b 1 (by norm_num) _ _
    · exact sliceMat_coe R.W 0 (by norm_num) _ _
    · exact sliceRow_coe R.b 0 (by norm_num) _ _
  · rw [hA.a7, wrap_idx1 (by norm_num) R.src]

end Cert.ReferenceIdeal.RefVal

end
-- ==== Proof.RefKitStat.lean ====
import proofs.«403924_j58969900974273_2_alg».proof.Proof.RefKit

noncomputable section

namespace Cert.ReferenceIdeal.RefVal

open Cert.ReferenceIdeal Cert.ReferenceIdeal.Facts₀ Idealize.ShloMosaic Idealize.ShloMosaic.ValueIdx
open Cert.Spec Cert.Args

variable {n : ℕ}

-- A sum over axis 0 started from 0 is, at column c, the sum of that column's entries.
theorem colsum_coe (red : (⟨2, ![n, 128]⟩ : Shape).ReducesTo [0] S128) (hS : 0 < S_.numel) (x : Fin n → Fin 128 → ℝ) :
    Host.reduceAdd (F := Ideal) (coe2 x) (constant S_ .f32 0x00000000#32) red hS = coe1 fun c => ∑ r, x r c :=
  ext1 fun c => by
    rw [hostReduceAdd_apply, Ideal.hostReduceAdd_single red ⟨red.1, Nat.one_pos, red.2⟩]
    show Ideal.ofBits .f32 0x00000000#32 + _ = _
    rw [Ideal.ofBits_zero_f32, zero_add]
    refine (Finset.sum_congr rfl fun k _ => ?_).trans (Coe.coe_sum _ _).symm
    exact congrArg (coe2 x) (funext fun a => Fin.ext (by
      match a with
      | ⟨0, _⟩ => rfl
      | ⟨1, _⟩ => rfl))

-- n ≠ 0, so the coerced column sum over the coerced n is the coerced mean.
theorem mean_coe_gen (hn : 0 < n) (w : BitVec 32) (hw : Ideal.ofBits .f32 w = ((n : ℝ) : EReal))
    (red : (⟨2, ![n, 128]⟩ : Shape).ReducesTo [0] S128)
    (hS : 0 < S_.numel) (b128 : S_.BroadcastsInDim S128 (![] : Fin 0 → Fin S128.rank)) (x : Fin n → Fin 128 → ℝ) :
    Host.divf (F := Ideal) (Host.reduceAdd (coe2 x) (constant S_ .f32 0x00000000#32) red hS)
        (broadcastInDim S128 ![] b128 (constant S_ .f32 w))
      = coe1 (colMean x) := by
  rw [colsum_coe, splat_coe1 _ _ hw]
  exact funext fun _ => Coe.div_coe_coe _ (Nat.cast_ne_zero.mpr hn.ne')

-- n − 0 = n > 0 selects the quotient branch; the deviations are taken from the mean of the same column.
theorem var_coe_gen (hn : 0 < n) (w : BitVec 32) (hw : Ideal.ofBits .f32 w = ((n : ℝ) : EReal))
    (red : (⟨2, ![n, 128]⟩ : Shape).ReducesTo [0] S128)
    (hS : 0 < S_.numel) (b128 : S_.BroadcastsInDim S128 (![] : Fin 0 → Fin S128.rank))
    (b1x128 : S_.BroadcastsInDim S1x128 (![] : Fin 0 → Fin S1x128.rank))
    (bv : S128.BroadcastsInDim S1x128 (![1] : Fin 1 → Fin S1x128.rank))
    (bn : S1x128.BroadcastsInDim (⟨2, ![n, 128]⟩ : Shape) (![0, 1] : Fin 2 → Fin (⟨2, ![n, 128]⟩ : Shape).rank))
    (x : Fin n → Fin 128 → ℝ) :
    select (broadcastInDim S128 ![] b128 (cmpf .ogt (subf (constant (F := Ideal) S_ .f32 w) (sitofp .f32 (constantI S_ 32 0#32))) (constant S_ .f32 0x00000000#32)))
        (Host.divf
          (Host.reduceAdd
            (mulf
              (subf (coe2 x) (broadcastInDim (⟨2, ![n, 128]⟩ : Shape) ![0, 1] bn (Host.divf (broadcastInDim S1x128 ![1] bv (Host.reduceAdd (coe2 x) (constant S_ .f32 0x00000000#32) red hS)) (broadcastInDim S1x128 ![] b1x128 (constant S_ .f32 w)))))
              (subf (coe2 x) (broadcastInDim (⟨2, ![n, 128]⟩ : Shape) ![0, 1] bn (Host.divf (broadcastInDim S1x128 ![1] bv (Host.reduceAdd (coe2 x) (constant S_ .f32 0x00000000#32) red hS)) (broadcastInDim S1x128 ![] b1x128 (constant S_ .f32 w))))))
            (constant S_ .f32 0x00000000#32) red hS)
          (broadcastInDim S128 ![] b128 (subf (constant (F := Ideal) S_ .f32 w) (sitofp .f32 (constantI S_ 32 0#32)))))
        (broadcastInDim S128 ![] b128 (id (constant S_ .f32 0x7FC00000#32)))
      = coe1 (varDev x) := by
  have hn' : (n : ℝ) ≠ 0 := Nat.cast_ne_zero.mpr hn.ne'
  have hK : subf (constant (F := Ideal) S_ .f32 w) (sitofp .f32 (constantI S_ 32 0#32)) ix0 = ((n : ℝ) : EReal) := by
    show Ideal.ofBits .f32 w - ((((0#32 : BitVec 32).toInt : ℤ) : ℝ) : EReal) = _
    rw [hw]; simp
  have hbit : FloatOps.cmpf (F := Ideal) .ogt ((n : ℝ) : EReal) (constant (F := Ideal) S_ .f32 0x00000000#32 ix0) = 1#1 := by
    show Ideal.cmp .ogt ((n : ℝ) : EReal) (Ideal.ofBits .f32 0x00000000#32) = 1#1
    rw [Coe.ofBits_zero]
    unfold Ideal.cmp
    rw [decide_eq_true (EReal.coe_lt_coe_iff.mpr (Nat.cast_pos.mpr hn))]
    rfl
  rw [colsum_coe, row_coe1, splat_coe2 _ _ hw, divf_coe2 _ _ fun _ _ => hn', bcastRow_coe2, subf_coe2, mulf_coe2, colsum_coe]
  refine ext1 fun c => ?_
  rw [select_apply, broadcastInDim_scalar_apply b128, cmpf_apply, hK, hbit, select_one, hostDivf_apply,
    broadcastInDim_scalar_apply b128, hK]
  exact Coe.div_coe_coe _ hn'

-- v + ε > 0 when v ≥ 0, and on positive reals the two reciprocal square roots agree.
theorem rsqrt_eps_coe (v : Fin 128 → ℝ) (hv : ∀ c, 0 ≤ v c) :
    Host.rsqrt (F := Ideal) (addf (coe1 v) (broadcastInDim S128 ![] bcast_S_S128 (constant S_ .f32 0x3727C5AC#32)))
      = coe1 (fun c => Coe.rsq (v c + Coe.epsVar)) := by
  rw [splat_coe1 _ _ Coe.ofBits_epsVar.1]
  exact funext fun _ => (congrArg Ideal.rsqrt (EReal.coe_add _ _).symm).trans
    (Coe.rsqrt_coe (add_pos_of_nonneg_of_pos (hv _) Coe.ofBits_epsVar.2))

end Cert.ReferenceIdeal.RefVal

end
-- ==== Proof.RefW1.lean ====
import proofs.«403924_j58969900974273_2_alg».proof.Proof.RefKept
import proofs.«403924_j58969900974273_2_alg».proof.Proof.RefKit
import proofs.«403924_j58969900974273_2_alg».proof.Proof.RefKitStat

noncomputable section

namespace Cert.ReferenceIdeal.RefVal

open Cert.ReferenceIdeal Cert.ReferenceIdeal.Gen Idealize.ShloMosaic Idealize.ShloMosaic.TcCoe Idealize.SL.Sem Idealize.ShloMosaic.StableHlo
open Cert.Spec Cert.Args Cert.RStages Idealize.ShloMosaic.ValueIdx

abbrev ops1a : List (HloOp τ sig (Elt Ideal)) := HandRun.ops1a (F := Ideal)
abbrev ops1b : List (HloOp τ sig (Elt Ideal)) := HandRun.ops1b (F := Ideal)

theorem after_ops1 (V : Val) :
    StableHlo.after (HandRun.ops1 (F := Ideal)) V = StableHlo.after ops1b (StableHlo.after ops1a V) :=
  StableHlo.after_append _ _ _

theorem sameArgs_ops1a (V : Val) : SameArgs V (StableHlo.after ops1a V) := by
  constructor <;> after_results_simp

theorem sameArgs_ops1b (V : Val) : SameArgs V (StableHlo.after ops1b V) := by
  constructor <;> after_results_simp

theorem sameArgs_ops1 (V : Val) : SameArgs V (StableHlo.after (HandRun.ops1 (F := Ideal)) V) := by
  rw [after_ops1]; exact (sameArgs_ops1a V).trans (sameArgs_ops1b _)

variable {R : RealArgs}

-- The gate is the logistic function of the bond output; the message is the gate times a gathered affine image.
theorem window1b {W : Val} (hA : ArgsAt R W) (h79 : W (Proc.devRef .tc main_v79) = coe2 (EOr R)) :
    Cut2 R (StableHlo.after ops1b W) := by
  refine ⟨?_, ?_, ?_, ?_⟩ <;> after_results_simp
  · exact h79
  · rw [h79]; exact sigm_coe2 (EOr R) _
  · rw [h79, hA.a0, hA.a3, hA.a4, hA.a7, dotNA_plain, lin_coe R.W R.b 4 R.h _ _ ?_ ?_, wrap_idx1 (by norm_num) R.src,
      gatherNA_coe, sigm_coe2, mulf_coe2]
    · exact sliceMat_coe R.W 4 (by norm_num) _ _
    · exact sliceRow_coe R.b 4 (by norm_num) _ _
  · exact splat_coe2 _ 0 Coe.ofBits_zero _

-- The four summed terms are normalised per column, scaled, shifted, clipped at zero and added to e.
theorem window1 (R : RealArgs) (V : Val) (hA : ArgsAt R V) (h : Cut1 R V) :
    Cut2 R (StableHlo.after (HandRun.ops1 (F := Ideal)) V) := by
  rw [after_ops1]
  refine window1b ((sameArgs_ops1a V).argsAt hA) ?_
  after_results_simp
  simp only [TRef.ofBuf, TRef.toBuf, cast_eq]
  have hw := Coe.ofBits_400000.trans (by norm_num : ((400000 : ℝ) : EReal) = ((NB : ℝ) : EReal))
  rw [hA.a1, hA.a5, hA.a6, h.v46, h.v22, h.v51, gatherNA_coe, addf_coe2, mean_coe_gen (n := NB) (by norm_num) _ hw,
    var_coe_gen (n := NB) (by norm_num) _ hw, rsqrt_eps_coe _ (fun c => varDev_nonneg _ c), bcastRows_coe1, bcastRows_coe1, bcastRows_of _ (R.γ 1) ?_,
    bcastRows_of _ (R.β 1) ?_, splat_coe2 _ 0 Coe.ofBits_zero, subf_coe2, mulf_coe2, mulf_coe2, addf_coe2, maximumf_coe2, addf_coe2]
  · rfl
  · exact sliceRow_coe R.β 1 (by norm_num) _ _
  · exact sliceRow_coe R.γ 1 (by norm_num) _ _

end Cert.ReferenceIdeal.RefVal

end
-- ==== Proof.RefChain2.lean ====
import proofs.«403924_j58969900974273_2_alg».proof.Proof.RefKept
import proofs.«403924_j58969900974273_2_alg».proof.Proof.RefKit
import proofs.«403924_j58969900974273_2_alg».proof.Proof.RefKitStat

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx
open Cert.Spec Cert.Args Cert.RStages

-- Every gate lies in (0, 1), so the total is ≥ 0 and adding ε > 0 keeps it away from zero.
theorem gateTotal_ne (f : Fin NB → Fin NA) (t : Fin NB → Fin D → ℝ) (a : Fin NA) (c : Fin D) :
    (∑ k, if f k = a then sigm Real.exp (t k c) else 0) + Coe.epsGate ≠ 0 := by
  have h0 : 0 ≤ ∑ k, if f k = a then sigm Real.exp (t k c) else 0 :=
    Finset.sum_nonneg fun k _ => by
      split
      · unfold sigm; positivity
      · exact le_rfl
  have := Coe.ofBits_epsGate.2
  linarith

-- The cut falls after the atom pre-activation, so that it enters its statistics as one variable.
abbrev ops2a : List (HloOp τ sig (Elt Ideal)) := (HandRun.ops2 (F := Ideal)).take 37
abbrev ops2b : List (HloOp τ sig (Elt Ideal)) := (HandRun.ops2 (F := Ideal)).drop 37

theorem after_ops2 (V : Val) :
    StableHlo.after (HandRun.ops2 (F := Ideal)) V = StableHlo.after ops2b (StableHlo.after ops2a V) := by
  rw [← StableHlo.after_append, List.take_append_drop]

theorem sameArgs_2a (V : Val) : SameArgs V (StableHlo.after ops2a V) := by
  constructor <;> (simp only [ops2a, HandRun.ops2, List.take_succ_cons, List.take_zero]; after_results_simp)

theorem sameArgs_2b (V : Val) : SameArgs V (StableHlo.after ops2b V) := by
  constructor <;> (simp only [ops2b, HandRun.ops2, List.drop_succ_cons, List.drop_zero]; after_results_simp)

theorem sameArgs_ops2 (V : Val) : SameArgs V (StableHlo.after (HandRun.ops2 (F := Ideal)) V) := by
  rw [after_ops2]; exact (sameArgs_2a V).trans (sameArgs_2b _)

-- Self term, plus gated messages over gate totals per destination atom, plus the molecule term.
theorem v135_of (R : RealArgs) (V : Val) (hA : ArgsAt R V) (h : Cut2 R V) :
    StableHlo.after ops2a V (Proc.devRef .tc main_v135) = coe2 (HH R) := by
  simp only [ops2a, HandRun.ops2, List.take_succ_cons, List.take_zero]
  after_results_simp
  have sc := scatterAdd_coe (by norm_num) scatter_S200000x128_S400000x1_S400000x128_1_0_0_1 rfl rfl rfl rfl
  rw [hA.a0, hA.a2, hA.a3, hA.a4, hA.a8, hA.a9, h.v101, h.v102, h.v93, dotNA_plain, dotNG_plain,
    splat_coe2 _ 0 Coe.ofBits_zero, sc, sc, splat_coe2 _ Coe.epsGate Coe.ofBits_epsGate.1, addf_coe2, divf_coe2 _ _ ?_,
    lin_coe R.W R.b 5 R.u _ _ ?_ ?_, wrap_idx1 (by norm_num) R.mol, gatherNG_coe, lin_coe R.W R.b 3 R.h _ _ ?_ ?_,
    addf_coe2, addf_coe2]
  · rfl
  · exact sliceMat_coe R.W 3 (by norm_num) _ _
  · exact sliceRow_coe R.b 3 (by norm_num) _ _
  · exact sliceMat_coe R.W 5 (by norm_num) _ _
  · exact sliceRow_coe R.b 5 (by norm_num) _ _
  · exact gateTotal_ne R.dst (EOr R)

theorem keep79 (V : Val) : StableHlo.after ops3a (StableHlo.after (HandRun.ops2 (F := Ideal)) V) (Proc.devRef .tc main_v79)
    = V (Proc.devRef .tc main_v79) := by
  simp only [ops3a, HandRun.ops3a]
  after_results_simp

-- Column statistics of the pre-activation, then scale, shift, clip at zero and add h.
theorem v160_of (R : RealArgs) (V : Val) (hA : ArgsAt R V) (h135 : V (Proc.devRef .tc main_v135) = coe2 (HH R)) :
    StableHlo.after ops3a (StableHlo.after ops2b V) (Proc.devRef .tc main_v160) = coe2 (HOr R) := by
  simp only [ops3a, HandRun.ops3a, ops2b, HandRun.ops2, List.drop_succ_cons, List.drop_zero]
  after_results_simp
  simp only [TRef.ofBuf, TRef.toBuf, cast_eq]
  have hw := Coe.ofBits_200000.trans (by norm_num : ((200000 : ℝ) : EReal) = ((NA : ℝ) : EReal))
  rw [hA.a0, hA.a5, hA.a6, h135, mean_coe_gen (n := NA) (by norm_num) _ hw, var_coe_gen (n := NA) (by norm_num) _ hw,
    rsqrt_eps_coe _ (fun c => varDev_nonneg _ c), bcastRows_coe1, bcastRows_coe1, bcastRows_of _ (R.γ 0) ?_,
    bcastRows_of _ (R.β 0) ?_, splat_coe2 _ 0 Coe.ofBits_zero, subf_coe2, mulf_coe2, mulf_coe2, addf_coe2, maximumf_coe2, addf_coe2]
  · rfl
  · exact sliceRow_coe R.β 0 (by norm_num) _ _
  · exact sliceRow_coe R.γ 0 (by norm_num) _ _

theorem chain2 (R : RealArgs) (V : Val) (hA : ArgsAt R V) (h : Cut2 R V) :
    Cut3a R (StableHlo.after ops3a (StableHlo.after (HandRun.ops2 (F := Ideal)) V)) := by
  refine ⟨(keep79 V).trans h.v79, ?_⟩
  rw [after_ops2]
  exact v160_of R _ ((sameArgs_2a V).argsAt hA) (v135_of R V hA h)

end Cert.ReferenceIdeal.RefVal

end
-- ==== Proof.RefChain3a.lean ====
import proofs.«403924_j58969900974273_2_alg».proof.Proof.RefKept
import proofs.«403924_j58969900974273_2_alg».proof.Proof.RefKit

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx
open Cert.Spec Cert.Args Cert.RStages

-- Per molecule: the mean of its atoms' projected rows, plus its incoming bonds' projected rows over the bond count.
theorem cut4_of_cut3a (R : RealArgs) (V : Val) (hA : ArgsAt R V) (h : Cut3a R V) : Cut4 R (StableHlo.after ops3b V) := by
  refine ⟨?_, ?_, ?_, ?_, ?_⟩ <;> after_results_simp
  · exact h.v79
  · exact h.v160
  · rw [hA.a9, hA.a8, hA.a3, hA.a4, h.v79, h.v160, dotNA_plain, dotNB_plain, lin_coe R.W R.b 6 (HOr R) _ _ ?_ ?_,
      lin_coe R.W R.b 7 (EOr R) _ _ ?_ ?_, wrap_idx1 (by norm_num) R.dst,
      gatherIdx_coe (by norm_num) gather_S200000_S400000x1_S400000_n_0_n_n_0_1_1 rfl rfl rfl rfl rfl rfl rfl R.mol R.dst,
      splat_coe2 _ 0 Coe.ofBits_zero,
      scatterAdd_coe (by norm_num) scatter_S8000x128_S400000x1_S400000x128_1_0_0_1 rfl rfl rfl rfl,
      scatterAdd_coe (by norm_num) scatter_S8000x128_S200000x1_S200000x128_1_0_0_1 rfl rfl rfl rfl,
      splat_coe1 _ 0 Coe.ofBits_zero, splat_coe1 _ 1 Coe.ofBits_one,
      scatterCount_coe (by norm_num) scatter_S8000_S200000x1_S200000_n_0_0_1 rfl rfl rfl rfl,
      splat_coe1 _ 1 Coe.ofBits_one, divf_maxcnt_coe2,
      splat_coe2 _ (NB : ℝ) (Coe.ofBits_400000.trans (by norm_num)), divf_coe2 _ _ ?_, addf_coe2]
    · rfl
    · intro _ _; norm_num
    · exact sliceMat_coe R.W 7 (by norm_num) _ _
    · exact sliceRow_coe R.b 7 (by norm_num) _ _
    · exact sliceMat_coe R.W 6 (by norm_num) _ _
    · exact sliceRow_coe R.b 6 (by norm_num) _ _
  · rw [hA.a2, hA.a3, dotNG_plain, dot_coe (R.W 8) R.u _ ?_]
    exact sliceMat_coe R.W 8 (by norm_num) _ _
  · rw [hA.a4]
    exact sliceRow_coe R.b 8 (by norm_num) _ _

end Cert.ReferenceIdeal.RefVal

end
-- ==== Proof.RefChain3b.lean ====
import proofs.«403924_j58969900974273_2_alg».proof.Proof.RefKept
import proofs.«403924_j58969900974273_2_alg».proof.Proof.RefKit
import proofs.«403924_j58969900974273_2_alg».proof.Proof.RefKitStat

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx Cert.Spec Cert.Args Cert.RStages

-- The three incoming arrays are summed, normalised over the 8000 molecules, scaled, shifted, clipped and added to u.
theorem cut5_of_cut4 (R : RealArgs) (V : Val) (hA : ArgsAt R V) (h : Cut4 R V) :
    Cut5 R (StableHlo.after (HandRun.ops4 (F := Ideal)) V) := by
  refine ⟨?_, ?_, ?_⟩ <;> after_results_simp
  · exact h.v160
  · exact h.v79
  · simp only [TRef.ofBuf, TRef.toBuf, cast_eq]
    have hw := Coe.ofBits_8000.trans (by norm_num : ((8000 : ℝ) : EReal) = ((NG : ℝ) : EReal))
    rw [hA.a2, hA.a5, hA.a6, h.v201, h.v204, h.v206, bcastRows_coe1 (fun c => R.b 8 c), addf_coe2, addf_coe2,
      mean_coe_gen (n := NG) (by norm_num) _ hw, var_coe_gen (n := NG) (by norm_num) _ hw,
      rsqrt_eps_coe _ (fun c => varDev_nonneg _ c)]
    erw [sliceRow_coe R.γ 2 (by norm_num), sliceRow_coe R.β 2 (by norm_num)]
    rw [bcastRows_coe1, bcastRows_coe1]
    erw [bcastRows_coe1, bcastRows_coe1]
    rw [subf_coe2, mulf_coe2, mulf_coe2, addf_coe2, splat_coe2 _ 0 Coe.ofBits_zero, maximumf_coe2, addf_coe2]
    rfl

end Cert.ReferenceIdeal.RefVal

end
-- ==== Proof.RefValue.lean ====
import proofs.«403924_j58969900974273_2_alg».proof.Proof.RefW0
import proofs.«403924_j58969900974273_2_alg».proof.Proof.RefW1
import proofs.«403924_j58969900974273_2_alg».proof.Proof.RefChain2
import proofs.«403924_j58969900974273_2_alg».proof.Proof.RefChain3a
import proofs.«403924_j58969900974273_2_alg».proof.Proof.RefChain3b

noncomputable section

namespace Cert.ReferenceIdeal.RefVal

open Cert.ReferenceIdeal Cert.ReferenceIdeal.Gen Idealize.ShloMosaic Idealize.ShloMosaic.TcCoe Idealize.SL.Sem Idealize.ShloMosaic.StableHlo
open Cert.Spec Cert.Args Cert.RStages

-- The five windows compose: each cut's hypotheses are the conclusions of the window before it.
theorem value (m : (ℓ : Loc nD τ sig) → Buf (Elt Ideal) ℓ) (d : Dev nD) (R : RealArgs)
    (hR : Holds R (m ((d.tc : Thread nD τ).loc main_arg0)) (m ((d.tc : Thread nD τ).loc main_arg1))
      (m ((d.tc : Thread nD τ).loc main_arg2)) (m ((d.tc : Thread nD τ).loc main_arg3))
      (m ((d.tc : Thread nD τ).loc main_arg4)) (m ((d.tc : Thread nD τ).loc main_arg5))
      (m ((d.tc : Thread nD τ).loc main_arg6)) (m ((d.tc : Thread nD τ).loc main_arg7))
      (m ((d.tc : Thread nD τ).loc main_arg8)) (m ((d.tc : Thread nD τ).loc main_arg9))) :
    HandRun.X5 m d (Proc.devRef .tc main_v160) = coe2 (HOr R)
      ∧ HandRun.X5 m d (Proc.devRef .tc main_v79) = coe2 (EOr R)
      ∧ HandRun.X5 m d (Proc.devRef .tc main_v235) = coe2 (UOr R) := by
  have hA0 : ArgsAt R (HandRun.X0 m d) := ⟨hR.h0, hR.h1, hR.h2, hR.h3, hR.h4, hR.h5, hR.h6, hR.h7, hR.h8, hR.h9⟩
  have hA1 := (sameArgs_ops0 _).argsAt hA0
  have hA2 := (sameArgs_ops1 _).argsAt hA1
  have hA3 := (sameArgs_ops3a _).argsAt ((sameArgs_ops2 _).argsAt hA2)
  have c5 := cut5_of_cut4 R _ ((sameArgs_ops3b _).argsAt hA3)
    (cut4_of_cut3a R _ hA3 (chain2 R _ hA2 (window1 R _ hA1 (window0 R _ hA0))))
  rw [← after_ops3] at c5
  exact ⟨c5.v160, c5.v79, c5.v235⟩

theorem kept (m : (ℓ : Loc nD τ sig) → Buf (Elt Ideal) ℓ) (d : Dev nD) :
    HandRun.X5 m d (Proc.devRef .tc main_arg0) = m ((d.tc : Thread nD τ).loc main_arg0)
    ∧ HandRun.X5 m d (Proc.devRef .tc main_arg1) = m ((d.tc : Thread nD τ).loc main_arg1)
    ∧ HandRun.X5 m d (Proc.devRef .tc main_arg2) = m ((d.tc : Thread nD τ).loc main_arg2)
    ∧ HandRun.X5 m d (Proc.devRef .tc main_arg3) = m ((d.tc : Thread nD τ).loc main_arg3)
    ∧ HandRun.X5 m d (Proc.devRef .tc main_arg4) = m ((d.tc : Thread nD τ).loc main_arg4)
    ∧ HandRun.X5 m d (Proc.devRef .tc main_arg5) = m ((d.tc : Thread nD τ).loc main_arg5)
    ∧ HandRun.X5 m d (Proc.devRef .tc main_arg6) = m ((d.tc : Thread nD τ).loc main_arg6)
    ∧ HandRun.X5 m d (Proc.devRef .tc main_arg7) = m ((d.tc : Thread nD τ).loc main_arg7)
    ∧ HandRun.X5 m d (Proc.devRef .tc main_arg8) = m ((d.tc : Thread nD τ).loc main_arg8)
    ∧ HandRun.X5 m d (Proc.devRef .tc main_arg9) = m ((d.tc : Thread nD τ).loc main_arg9) :=
  have h := ((((sameArgs_ops0 (HandRun.X0 m d)).trans (sameArgs_ops1 _)).trans (sameArgs_ops2 _)).trans (sameArgs_ops3 _)).trans
    (sameArgs_ops4 _)
  ⟨h.a0, h.a1, h.a2, h.a3, h.a4, h.a5, h.a6, h.a7, h.a8, h.a9⟩

end Cert.ReferenceIdeal.RefVal

end
-- ==== Proof.lean ====
import proofs.«403924_j58969900974273_2_alg».proof.Proof.Assembly
import proofs.«403924_j58969900974273_2_alg».proof.Proof.RegionAll
import proofs.«403924_j58969900974273_2_alg».proof.Proof.KStage1
import proofs.«403924_j58969900974273_2_alg».proof.Proof.KStage2
import proofs.«403924_j58969900974273_2_alg».proof.Proof.KStage3
import proofs.«403924_j58969900974273_2_alg».proof.Proof.KStage4
import proofs.«403924_j58969900974273_2_alg».proof.Proof.KStage5
import proofs.«403924_j58969900974273_2_alg».proof.Proof.RefValue

noncomputable section

namespace Cert.Proof

open Idealize.ShloMosaic Idealize.SL.Sem Cert.KernelIdeal.RegionVal Cert.KernelIdeal.StageVal

theorem kernelValue : Assembly.KernelValue := fun m ρ c R hR =>
  stage5 regionFacts m ρ c R (stage4 regionFacts m ρ c R (stage3 regionFacts m ρ c R
    (stage2 regionFacts m ρ c R (stage1 regionFacts m ρ c R hR))))

theorem refValue : Assembly.RefValue := fun m d R hR => Cert.ReferenceIdeal.RefVal.value m d R hR

theorem refKept : Assembly.RefKept := fun m d => Cert.ReferenceIdeal.RefVal.kept m d

theorem claim : Cert.Claim := Assembly.claim kernelValue refValue refKept

end Cert.Proof

end
